-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v119)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v119) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1600000 : Shape := ⟨2, ![2, 1600000]⟩
abbrev S32x32 : Shape := ⟨2, ![32, 32]⟩
abbrev S64x1 : Shape := ⟨2, ![64, 1]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S32x32 : S_.BroadcastsInDim S32x32 (![] : Fin 0 → Fin S32x32.rank)
  reducesTo_S32x32_S_d0_1 : S32x32.ReducesTo [0, 1] S_
  bcast_S_S64x1 : S_.BroadcastsInDim S64x1 (![] : Fin 0 → Fin S64x1.rank)
  reducesTo_S64x1_S_d0_1 : S64x1.ReducesTo [0, 1] S_

variable [Facts]

def fn_part1 {F : FTy → Type} [FloatOps F] (main_arg6 : FVec F S64x1 .f32) (main_v13 : IVec S_ 1) (main_v16 : IVec S64x1 1) : IVec S_ 1 :=
  let main_c_5 : IVec S_ 1 := constantI S_ 1 1#1
  let main_v17 : IVec S_ 1 := (fun x v => Host.reduce IntOp.andi x v reducesTo_S64x1_S_d0_1 h_S_) main_v16 main_c_5
  let main_v18 : IVec S_ 1 := andi main_v13 main_v17
  let main_v19 : FVec F S64x1 .f32 := Host.absf main_arg6
  let main_cst_6 : FVec F S_ .f32 := constant S_ .f32 0x7F800000#32
  let main_v20 : FVec F S64x1 .f32 := broadcastInDim S64x1 ![] bcast_S_S64x1 main_cst_6
  let main_v21 : IVec S64x1 1 := cmpf .olt main_v19 main_v20
  let main_c_7 : IVec S_ 1 := constantI S_ 1 1#1
  let main_v22 : IVec S_ 1 := (fun x v => Host.reduce IntOp.andi x v reducesTo_S64x1_S_d0_1 h_S_) main_v21 main_c_7
  let main_v23 : IVec S_ 1 := andi main_v18 main_v22
  main_v23

def fn {F : FTy → Type} [FloatOps F] (main_arg0 : FVec F S100000x32 .f32) (main_arg1 : IVec S2x1600000 32) (main_arg2 : IVec S2x1600000 32) (main_arg3 : FVec F S32x32 .f32) (main_arg4 : FVec F S32x32 .f32) (main_arg5 : FVec F S64x1 .f32) (main_arg6 : FVec F S64x1 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S32x32 .f32 := Host.absf main_arg3
  let main_cst_0 : FVec F S_ .f32 := constant S_ .f32 0x7F800000#32
  let main_v5 : FVec F S32x32 .f32 := broadcastInDim S32x32 ![] bcast_S_S32x32 main_cst_0
  let main_v6 : IVec S32x32 1 := cmpf .olt main_v4 main_v5
  let main_c_1 : IVec S_ 1 := constantI S_ 1 1#1
  let main_v7 : IVec S_ 1 := (fun x v => Host.reduce IntOp.andi x v reducesTo_S32x32_S_d0_1 h_S_) main_v6 main_c_1
  let main_v8 : IVec S_ 1 := andi main_v3 main_v7
  let main_v9 : FVec F S32x32 .f32 := Host.absf main_arg4
  let main_cst_2 : FVec F S_ .f32 := constant S_ .f32 0x7F800000#32
  let main_v10 : FVec F S32x32 .f32 := broadcastInDim S32x32 ![] bcast_S_S32x32 main_cst_2
  let main_v11 : IVec S32x32 1 := cmpf .olt main_v9 main_v10
  let main_c_3 : IVec S_ 1 := constantI S_ 1 1#1
  let main_v12 : IVec S_ 1 := (fun x v => Host.reduce IntOp.andi x v reducesTo_S32x32_S_d0_1 h_S_) main_v11 main_c_3
  let main_v13 : IVec S_ 1 := andi main_v8 main_v12
  let main_v14 : FVec F S64x1 .f32 := Host.absf main_arg5
  let main_cst_4 : FVec F S_ .f32 := constant S_ .f32 0x7F800000#32
  let main_v15 : FVec F S64x1 .f32 := broadcastInDim S64x1 ![] bcast_S_S64x1 main_cst_4
  let main_v16 : IVec S64x1 1 := cmpf .olt main_v14 main_v15
  fn_part1 (F := F) main_arg6 main_v13 main_v16
-- ==== Kernel.lean ====
abbrev S100000x32 : Shape := ⟨2, ![100000, 32]⟩
abbrev S2x1600000 : Shape := ⟨2, ![2, 1600000]⟩
abbrev S32x32 : Shape := ⟨2, ![32, 32]⟩
abbrev S64x1 : Shape := ⟨2, ![64, 1]⟩
abbrev S32x1 : Shape := ⟨2, ![32, 1]⟩
abbrev S32x68 : Shape := ⟨2, ![32, 68]⟩
abbrev S100000x68 : Shape := ⟨2, ![100000, 68]⟩
abbrev S10000x32 : Shape := ⟨2, ![10000, 32]⟩
abbrev S10000x68 : Shape := ⟨2, ![10000, 68]⟩
abbrev S100000x1 : Shape := ⟨2, ![100000, 1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x32 : Shape := ⟨2, ![1600000, 32]⟩
abbrev S12500x128 : Shape := ⟨2, ![12500, 128]⟩
abbrev S1x1 : Shape := ⟨2, ![1, 1]⟩
abbrev S8000x1 : Shape := ⟨2, ![8000, 1]⟩
abbrev S8000x32 : Shape := ⟨2, ![8000, 32]⟩
abbrev S25000x128 : Shape := ⟨2, ![25000, 128]⟩
abbrev S5000x128 : Shape := ⟨2, ![5000, 128]⟩

abbrev nBuf : Space → Nat
  | .hbm => 151
  | .vmem => 39
  | .smem => 0
  | _ => 0

abbrev hbmTy0_0 (i : Nat) : BufTy := match i % 128 with
  | 0 => ⟨S100000x32, .f32⟩
  | 1 => ⟨S2x1600000, .i32⟩
  | 2 => ⟨S2x1600000, .i32⟩
  | 3 => ⟨S32x32, .f32⟩
  | 4 => ⟨S32x32, .f32⟩
  | 5 => ⟨S64x1, .f32⟩
  | 6 => ⟨S64x1, .f32⟩
  | 7 => ⟨S32x1, .f32⟩
  | 8 => ⟨S32x1, .f32⟩
  | 9 => ⟨S32x1, .f32⟩
  | 10 => ⟨S32x1, .f32⟩
  | 11 => ⟨S32x1, .f32⟩
  | 12 => ⟨S32x1, .f32⟩
  | 13 => ⟨S32x1, .f32⟩
  | 14 => ⟨S32x1, .f32⟩
  | 15 => ⟨S32x68, .f32⟩
  | 16 => ⟨S100000x68, .f32⟩
  | 17 => ⟨S100000x32, .f32⟩
  | 18 => ⟨S100000x1, .f32⟩
  | 19 => ⟨S100000x1, .f32⟩
  | 20 => ⟨S100000x32, .f32⟩
  | 21 => ⟨S100000x1, .f32⟩
  | 22 => ⟨S100000x1, .f32⟩
  | 23 => ⟨S1x1600000, .i32⟩
  | 24 => ⟨S1600000, .i32⟩
  | 25 => ⟨S1x1600000, .i32⟩
  | 26 => ⟨S1600000, .i32⟩
  | 27 => ⟨S_, .i32⟩
  | 28 => ⟨S1600000, .i32⟩
  | 29 => ⟨S1600000, .i1⟩
  | 30 => ⟨S_, .i32⟩
  | 31 => ⟨S1600000, .i32⟩
  | 32 => ⟨S1600000, .i32⟩
  | 33 => ⟨S1600000, .i32⟩
  | 34 => ⟨S1600000x1, .i32⟩
  | 35 => ⟨S1600000x1, .f32⟩
  | 36 => ⟨S_, .i32⟩
  | 37 => ⟨S1600000, .i32⟩
  | 38 => ⟨S1600000, .i1⟩
  | 39 => ⟨S_, .i32⟩
  | 40 => ⟨S1600000, .i32⟩
  | 41 => ⟨S1600000, .i32⟩
  | 42 => ⟨S1600000, .i32⟩
  | 43 => ⟨S1600000x1, .i32⟩
  | 44 => ⟨S1600000x1, .f32⟩
  | 45 => ⟨S_, .i32⟩
  | 46 => ⟨S1600000, .i32⟩
  | 47 => ⟨S1600000, .i1⟩
  | 48 => ⟨S_, .i32⟩
  | 49 => ⟨S1600000, .i32⟩
  | 50 => ⟨S1600000, .i32⟩
  | 51 => ⟨S1600000, .i32⟩
  | 52 => ⟨S1600000x1, .i32⟩
  | 53 => ⟨S1600000x32, .f32⟩
  | 54 => ⟨S1600000, .f32⟩
  | 55 => ⟨S12500x128, .f32⟩
  | 56 => ⟨S1600000, .f32⟩
  | 57 => ⟨S12500x128, .f32⟩
  | 58 => ⟨S12500x128, .f32⟩
  | 59 => ⟨S_, .f32⟩
  | 60 => ⟨S_, .f32⟩
  | 61 => ⟨S1x1, .f32⟩
  | 62 => ⟨S12500x128, .f32⟩
  | 63 => ⟨S1600000x1, .f32⟩
  | 64 => ⟨S_, .f32⟩
  | 65 => ⟨S100000x1, .f32⟩
  | 66 => ⟨S1600000x1, .i32⟩
  | 67 => ⟨S100000x1, .f32⟩
  | 68 => ⟨S_, .f32⟩
  | 69 => ⟨S100000x1, .f32⟩
  | 70 => ⟨S100000x1, .f32⟩
  | 71 => ⟨S_, .i32⟩
  | 72 => ⟨S1600000, .i32⟩
  | 73 => ⟨S1600000, .i1⟩
  | 74 => ⟨S_, .i32⟩
  | 75 => ⟨S1600000, .i32⟩
  | 76 => ⟨S1600000, .i32⟩
  | 77 => ⟨S1600000, .i32⟩
  | 78 => ⟨S1600000x1, .i32⟩
  | 79 => ⟨S1600000x1, .f32⟩
  | 80 => ⟨S1600000x32, .f32⟩
  | 81 => ⟨S_, .f32⟩
  | 82 => ⟨S100000x32, .f32⟩
  | 83 => ⟨S1600000x1, .i32⟩
  | 84 => ⟨S100000x32, .f32⟩
  | 85 => ⟨S1x1600000, .i32⟩
  | 86 => ⟨S1600000, .i32⟩
  | 87 => ⟨S1x1600000, .i32⟩
  | 88 => ⟨S1600000, .i32⟩
  | 89 => ⟨S_, .i32⟩
  | 90 => ⟨S1600000, .i32⟩
  | 91 => ⟨S1600000, .i1⟩
  | 92 => ⟨S_, .i32⟩
  | 93 => ⟨S1600000, .i32⟩
  | 94 => ⟨S1600000, .i32⟩
  | 95 => ⟨S1600000, .i32⟩
  | 96 => ⟨S1600000x1, .i32⟩
  | 97 => ⟨S1600000x1, .f32⟩
  | 98 => ⟨S_, .i32⟩
  | 99 => ⟨S1600000, .i32⟩
  | 100 => ⟨S1600000, .i1⟩
  | 101 => ⟨S_, .i32⟩
  | 102 => ⟨S1600000, .i32⟩
  | 103 => ⟨S1600000, .i32⟩
  | 104 => ⟨S1600000, .i32⟩
  | 105 => ⟨S1600000x1, .i32⟩
  | 106 => ⟨S1600000x1, .f32⟩
  | 107 => ⟨S_, .i32⟩
  | 108 => ⟨S1600000, .i32⟩
  | 109 => ⟨S1600000, .i1⟩
  | 110 => ⟨S_, .i32⟩
  | 111 => ⟨S1600000, .i32⟩
  | 112 => ⟨S1600000, .i32⟩
  | 113 => ⟨S1600000, .i32⟩
  | 114 => ⟨S1600000x1, .i32⟩
  | 115 => ⟨S1600000x32, .f32⟩
  | 116 => ⟨S1600000, .f32⟩
  | 117 => ⟨S12500x128, .f32⟩
  | 118 => ⟨S1600000, .f32⟩
  | 119 => ⟨S12500x128, .f32⟩
  | 120 => ⟨S12500x128, .f32⟩
  | 121 => ⟨S_, .f32⟩
  | 122 => ⟨S_, .f32⟩
  | 123 => ⟨S1x1, .f32⟩
  | 124 => ⟨S12500x128, .f32⟩
  | 125 => ⟨S1600000x1, .f32⟩
  | 126 => ⟨S_, .f32⟩
  | 127 => ⟨S100000x1, .f32⟩
  | _ => ⟨S100000x32, .f32⟩

abbrev hbmTy0_1 (i : Nat) : BufTy := match i % 128 with
  | 0 => ⟨S1600000x1, .i32⟩
  | 1 => ⟨S100000x1, .f32⟩
  | 2 => ⟨S_, .f32⟩
  | 3 => ⟨S100000x1, .f32⟩
  | 4 => ⟨S100000x1, .f32⟩
  | 5 => ⟨S_, .i32⟩
  | 6 => ⟨S1600000, .i32⟩
  | 7 => ⟨S1600000, .i1⟩
  | 8 => ⟨S_, .i32⟩
  | 9 => ⟨S1600000, .i32⟩
  | 10 => ⟨S1600000, .i32⟩
  | 11 => ⟨S1600000, .i32⟩
  | 12 => ⟨S1600000x1, .i32⟩
  | 13 => ⟨S1600000x1, .f32⟩
  | 14 => ⟨S1600000x32, .f32⟩
  | 15 => ⟨S_, .f32⟩
  | 16 => ⟨S100000x32, .f32⟩
  | 17 => ⟨S1600000x1, .i32⟩
  | 18 => ⟨S100000x32, .f32⟩
  | 19 => ⟨S25000x128, .f32⟩
  | 20 => ⟨S25000x128, .f32⟩
  | 21 => ⟨S25000x128, .f32⟩
  | 22 => ⟨S100000x32, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | .local _ .vmem, ⟨0, _⟩ => ⟨S10000x32, .f32⟩
  | .local _ .vmem, ⟨1, _⟩ => ⟨S10000x32, .f32⟩
  | .local _ .vmem, ⟨2, _⟩ => ⟨S32x68, .f32⟩
  | .local _ .vmem, ⟨3, _⟩ => ⟨S10000x68, .f32⟩
  | .local _ .vmem, ⟨4, _⟩ => ⟨S10000x68, .f32⟩
  | .local _ .vmem, ⟨5, _⟩ => ⟨S12500x128, .f32⟩
  | .local _ .vmem, ⟨6, _⟩ => ⟨S12500x128, .f32⟩
  | .local _ .vmem, ⟨7, _⟩ => ⟨S12500x128, .f32⟩
  | .local _ .vmem, ⟨8, _⟩ => ⟨S12500x128, .f32⟩
  | .local _ .vmem, ⟨9, _⟩ => ⟨S1x1, .f32⟩
  | .local _ .vmem, ⟨10, _⟩ => ⟨S12500x128, .f32⟩
  | .local _ .vmem, ⟨11, _⟩ => ⟨S8000x1, .f32⟩
  | .local _ .vmem, ⟨12, _⟩ => ⟨S8000x1, .f32⟩
  | .local _ .vmem, ⟨13, _⟩ => ⟨S8000x1, .f32⟩
  | .local _ .vmem, ⟨14, _⟩ => ⟨S8000x1, .f32⟩
  | .local _ .vmem, ⟨15, _⟩ => ⟨S8000x32, .f32⟩
  | .local _ .vmem, ⟨16, _⟩ => ⟨S8000x32, .f32⟩
  | .local _ .vmem, ⟨17, _⟩ => ⟨S8000x32, .f32⟩
  | .local _ .vmem, ⟨18, _⟩ => ⟨S8000x32, .f32⟩
  | .local _ .vmem, ⟨19, _⟩ => ⟨S12500x128, .f32⟩
  | .local _ .vmem, ⟨20, _⟩ => ⟨S12500x128, .f32⟩
  | .local _ .vmem, ⟨21, _⟩ => ⟨S12500x128, .f32⟩
  | .local _ .vmem, ⟨22, _⟩ => ⟨S12500x128, .f32⟩
  | .local _ .vmem, ⟨23, _⟩ => ⟨S1x1, .f32⟩
  | .local _ .vmem, ⟨24, _⟩ => ⟨S12500x128, .f32⟩
  | .local _ .vmem, ⟨25, _⟩ => ⟨S8000x1, .f32⟩
  | .local _ .vmem, ⟨26, _⟩ => ⟨S8000x1, .f32⟩
  | .local _ .vmem, ⟨27, _⟩ => ⟨S8000x1, .f32⟩
  | .local _ .vmem, ⟨28, _⟩ => ⟨S8000x1, .f32⟩
  | .local _ .vmem, ⟨29, _⟩ => ⟨S8000x32, .f32⟩
  | .local _ .vmem, ⟨30, _⟩ => ⟨S8000x32, .f32⟩
  | .local _ .vmem, ⟨31, _⟩ => ⟨S8000x32, .f32⟩
  | .local _ .vmem, ⟨32, _⟩ => ⟨S8000x32, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c : Ref sig .tc := ⟨.hbm, 27, rfl⟩
abbrev main_v20 : Ref sig .tc := ⟨.hbm, 28, rfl⟩
abbrev main_v21 : Ref sig .tc := ⟨.hbm, 29, rfl⟩
abbrev main_c_0 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c_1 : Ref sig .tc := ⟨.hbm, 36, rfl⟩
abbrev main_v27 : Ref sig .tc := ⟨.hbm, 37, rfl⟩
abbrev main_v28 : Ref sig .tc := ⟨.hbm, 38, rfl⟩
abbrev main_c_2 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_c_3 : Ref sig .tc := ⟨.hbm, 45, rfl⟩
abbrev main_v34 : Ref sig .tc := ⟨.hbm, 46, rfl⟩
abbrev main_v35 : Ref sig .tc := ⟨.hbm, 47, rfl⟩
abbrev main_c_4 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_5 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_6 : Ref sig .tc := ⟨.hbm, 68, rfl⟩
abbrev main_v53 : Ref sig .tc := ⟨.hbm, 69, rfl⟩
abbrev main_v54 : Ref sig .tc := ⟨.hbm, 70, rfl⟩
abbrev main_c_7 : Ref sig .tc := ⟨.hbm, 71, rfl⟩
abbrev main_v55 : Ref sig .tc := ⟨.hbm, 72, rfl⟩
abbrev main_v56 : Ref sig .tc := ⟨.hbm, 73, rfl⟩
abbrev main_c_8 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst_9 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_c_10 : Ref sig .tc := ⟨.hbm, 89, rfl⟩
abbrev main_v70 : Ref sig .tc := ⟨.hbm, 90, rfl⟩
abbrev main_v71 : Ref sig .tc := ⟨.hbm, 91, rfl⟩
abbrev main_c_11 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_c_12 : Ref sig .tc := ⟨.hbm, 98, rfl⟩
abbrev main_v77 : Ref sig .tc := ⟨.hbm, 99, rfl⟩
abbrev main_v78 : Ref sig .tc := ⟨.hbm, 100, rfl⟩
abbrev main_c_13 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_c_14 : Ref sig .tc := ⟨.hbm, 107, rfl⟩
abbrev main_v84 : Ref sig .tc := ⟨.hbm, 108, rfl⟩
abbrev main_v85 : Ref sig .tc := ⟨.hbm, 109, rfl⟩
abbrev main_c_15 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_cst_16 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_cst_17 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_cst_18 : Ref sig .tc := ⟨.hbm, 130, rfl⟩
abbrev main_v103 : Ref sig .tc := ⟨.hbm, 131, rfl⟩
abbrev main_v104 : Ref sig .tc := ⟨.hbm, 132, rfl⟩
abbrev main_c_19 : Ref sig .tc := ⟨.hbm, 133, rfl⟩
abbrev main_v105 : Ref sig .tc := ⟨.hbm, 134, rfl⟩
abbrev main_v106 : Ref sig .tc := ⟨.hbm, 135, rfl⟩
abbrev main_c_20 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_cst_21 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg2_0 : Ref sig .tc := ⟨.vmem, 7, rfl⟩
abbrev cc2_stg0_0 : Ref sig .tc := ⟨.vmem, 8, rfl⟩
abbrev cc2_stg1_0 : Ref sig .tc := ⟨.vmem, 9, rfl⟩
abbrev cc2_stg2_0 : Ref sig .tc := ⟨.vmem, 10, rfl⟩
abbrev cc3_stg0_0 : Ref sig .tc := ⟨.vmem, 11, rfl⟩
abbrev cc3_stg0_1 : Ref sig .tc := ⟨.vmem, 12, rfl⟩
abbrev cc3_stg1_0 : Ref sig .tc := ⟨.vmem, 13, rfl⟩
abbrev cc3_stg1_1 : Ref sig .tc := ⟨.vmem, 14, rfl⟩
abbrev cc3_stg2_0 : Ref sig .tc := ⟨.vmem, 15, rfl⟩
abbrev cc3_stg2_1 : Ref sig .tc := ⟨.vmem, 16, rfl⟩
abbrev cc3_stg3_0 : Ref sig .tc := ⟨.vmem, 17, rfl⟩
abbrev cc3_stg3_1 : Ref sig .tc := ⟨.vmem, 18, rfl⟩
abbrev cc4_stg0_0 : Ref sig .tc := ⟨.vmem, 19, rfl⟩
abbrev cc4_stg1_0 : Ref sig .tc := ⟨.vmem, 20, rfl⟩
abbrev cc4_stg2_0 : Ref sig .tc := ⟨.vmem, 21, rfl⟩
abbrev cc5_stg0_0 : Ref sig .tc := ⟨.vmem, 22, rfl⟩
abbrev cc5_stg1_0 : Ref sig .tc := ⟨.vmem, 23, rfl⟩
abbrev cc5_stg2_0 : Ref sig .tc := ⟨.vmem, 24, rfl⟩
abbrev cc6_stg0_0 : Ref sig .tc := ⟨.vmem, 25, rfl⟩
abbrev cc6_stg0_1 : Ref sig .tc := ⟨.vmem, 26, rfl⟩
abbrev cc6_stg1_0 : Ref sig .tc := ⟨.vmem, 27, rfl⟩
abbrev cc6_stg1_1 : Ref sig .tc := ⟨.vmem, 28, rfl⟩
abbrev cc6_stg2_0 : Ref sig .tc := ⟨.vmem, 29, rfl⟩
abbrev cc6_stg2_1 : Ref sig .tc := ⟨.vmem, 30, rfl⟩
abbrev cc6_stg3_0 : Ref sig .tc := ⟨.vmem, 31, rfl⟩
abbrev cc6_stg3_1 : Ref sig .tc := ⟨.vmem, 32, rfl⟩
abbrev cc7_stg0_0 : Ref sig .tc := ⟨.vmem, 33, rfl⟩
abbrev cc7_stg0_1 : Ref sig .tc := ⟨.vmem, 34, rfl⟩
abbrev cc7_stg1_0 : Ref sig .tc := ⟨.vmem, 35, rfl⟩
abbrev cc7_stg1_1 : Ref sig .tc := ⟨.vmem, 36, rfl⟩
abbrev cc7_stg2_0 : Ref sig .tc := ⟨.vmem, 37, rfl⟩
abbrev cc7_stg2_1 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem2_0 : DmaSem sig := 7
abbrev cc2_sem0_0 : DmaSem sig := 8
abbrev cc2_sem1_0 : DmaSem sig := 9
abbrev cc2_sem2_0 : DmaSem sig := 10
abbrev cc3_sem0_0 : DmaSem sig := 11
abbrev cc3_sem0_1 : DmaSem sig := 12
abbrev cc3_sem1_0 : DmaSem sig := 13
abbrev cc3_sem1_1 : DmaSem sig := 14
abbrev cc3_sem2_0 : DmaSem sig := 15
abbrev cc3_sem2_1 : DmaSem sig := 16
abbrev cc3_sem3_0 : DmaSem sig := 17
abbrev cc3_sem3_1 : DmaSem sig := 18
abbrev cc4_sem0_0 : DmaSem sig := 19
abbrev cc4_sem1_0 : DmaSem sig := 20
abbrev cc4_sem2_0 : DmaSem sig := 21
abbrev cc5_sem0_0 : DmaSem sig := 22
abbrev cc5_sem1_0 : DmaSem sig := 23
abbrev cc5_sem2_0 : DmaSem sig := 24
abbrev cc6_sem0_0 : DmaSem sig := 25
abbrev cc6_sem0_1 : DmaSem sig := 26
abbrev cc6_sem1_0 : DmaSem sig := 27
abbrev cc6_sem1_1 : DmaSem sig := 28
abbrev cc6_sem2_0 : DmaSem sig := 29
abbrev cc6_sem2_1 : DmaSem sig := 30
abbrev cc6_sem3_0 : DmaSem sig := 31
abbrev cc6_sem3_1 : DmaSem sig := 32
abbrev cc7_sem0_0 : DmaSem sig := 33
abbrev cc7_sem0_1 : DmaSem sig := 34
abbrev cc7_sem1_0 : DmaSem sig := 35
abbrev cc7_sem1_1 : DmaSem sig := 36
abbrev cc7_sem2_0 : DmaSem sig := 37
abbrev cc7_sem2_1 : DmaSem sig := 38

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x68 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x68 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S12500x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S12500x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S12500x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S12500x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S1x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S12500x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev grid3 : Pipeline.Grid := ⟨1, ![200], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8000x1 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S8000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S8000x32 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S12500x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S12500x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S12500x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 1 → Memref sig .tc .vmem S12500x128 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 1 → Memref sig .tc .vmem S1x1 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S12500x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev grid6 : Pipeline.Grid := ⟨1, ![200], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S8000x1 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S8000x1 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S8000x32 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S8000x32 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![5], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S5000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

class Facts₀ : Prop where
  slices_S64x1_S32x1_0_0 : S64x1.Slices ![0, 0] S32x1
  slices_S64x1_S32x1_32_0 : S64x1.Slices ![32, 0] S32x1
  concatenates_S32x32_S32x1_S32x1_S32x32_S32x1_S32x1_S32x68_d1 : Shape.Concatenates [S32x32, S32x1, S32x1, S32x32, S32x1, S32x1] S32x68 1
  inb_S10000x32_S10000x32_0_0 : ∀ a, (![0, 0] : Fin 2 → Nat) a + S10000x32.size a ≤ S10000x32.size a
  h_S10000x32 : 0 < S10000x32.numel
  bitsLt_bf16_f32 : FTy.bits .bf16 < FTy.bits .f32
  inb_S32x68_S32x68_0_0 : ∀ a, (![0, 0] : Fin 2 → Nat) a + S32x68.size a ≤ S32x68.size a
  h_S32x68 : 0 < S32x68.numel
  shapeCasts_S32x68_S32x68 : S32x68.ShapeCasts S32x68
  inb_S10000x68_S10000x68_0_0 : ∀ a, (![0, 0] : Fin 2 → Nat) a + S10000x68.size a ≤ S10000x68.size a
  h_S10000x68 : 0 < S10000x68.numel
  slices_S100000x68_S100000x32_0_0 : S100000x68.Slices ![0, 0] S100000x32
  slices_S100000x68_S100000x1_0_32 : S100000x68.Slices ![0, 32] S100000x1
  slices_S100000x68_S100000x1_0_33 : S100000x68.Slices ![0, 33] S100000x1
  slices_S100000x68_S100000x32_0_34 : S100000x68.Slices ![0, 34] S100000x32
  slices_S100000x68_S100000x1_0_66 : S100000x68.Slices ![0, 66] S100000x1
  slices_S100000x68_S100000x1_0_67 : S100000x68.Slices ![0, 67] S100000x1
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  shapeCasts_S1600000x1_S1600000 : S1600000x1.ShapeCasts S1600000
  shapeCasts_S1600000_S12500x128 : S1600000.ShapeCasts S12500x128
  inb_S12500x128_S12500x128_0_0 : ∀ a, (![0, 0] : Fin 2 → Nat) a + S12500x128.size a ≤ S12500x128.size a
  h_S12500x128 : 0 < S12500x128.numel
  shapeCasts_S12500x128_S12500x128 : S12500x128.ShapeCasts S12500x128
  reducesTo_S12500x128_S_d0_1 : S12500x128.ReducesTo [0, 1] S_
  h_S_ : 0 < S_.numel
  shapeCasts_S_S1x1 : S_.ShapeCasts S1x1
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  shapeCasts_S12500x128_S1600000x1 : S12500x128.ShapeCasts S1600000x1
  bcast_S_S100000x1 : S_.BroadcastsInDim S100000x1 (![] : Fin 0 → Fin S100000x1.rank)
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  inb_S8000x32_S8000x32_0_0 : ∀ a, (![0, 0] : Fin 2 → Nat) a + S8000x32.size a ≤ S8000x32.size a
  h_S8000x32 : 0 < S8000x32.numel
  shapeCasts_S8000x32_S8000x32 : S8000x32.ShapeCasts S8000x32
  broadcasts_S8000x1_S8000x32 : S8000x1.Broadcasts S8000x32
  bcast_S_S100000x32 : S_.BroadcastsInDim S100000x32 (![] : Fin 0 → Fin S100000x32.rank)
  shapeCasts_S100000x32_S25000x128 : S100000x32.ShapeCasts S25000x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  shapeCasts_S25000x128_S100000x32 : S25000x128.ShapeCasts S100000x32
  dot_S32x32_S32x1_S32x1_1_0_0_1_n_n_wf : DotDims.WF S32x32 S32x1 S32x1 [1] [0] [0] [1] [] []
  dot_S10000x32_S32x68_S10000x68_1_0_0_1_n_n_wf : DotDims.WF S10000x32 S32x68 S10000x68 [1] [0] [0] [1] [] []
  gather_S100000x1_S1600000x1_S1600000x1_1_0_n_n_0_1_11_wf : GatherDims.WF S100000x1 S1600000x1 S1600000x1 [1] [0] [] [0] [] 1 ![1, 1]
  gather_S100000x32_S1600000x1_S1600000x32_1_0_n_n_0_1_132_wf : GatherDims.WF S100000x32 S1600000x1 S1600000x32 [1] [0] [] [0] [] 1 ![1, 32]
  scatter_S100000x1_S1600000x1_S1600000x1_1_0_0_1_wf : ScatterDims.WF S100000x1 S1600000x1 S1600000x1 [1] [0] [0] 1
  scatter_S100000x32_S1600000x1_S1600000x32_1_0_0_1_wf : ScatterDims.WF S100000x32 S1600000x1 S1600000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x32.size a ≤ S100000x32.size a
  hwx0_0 : ∀ i : grid0.Coords, EltTy.bits .f32 = 32 ∨ (Rect.block (s := S100000x32) S10000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x68.size a ≤ S32x68.size a
  hwx0_1 : ∀ i : grid0.Coords, EltTy.bits .f32 = 32 ∨ (Rect.block (s := S32x68) S32x68.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x68.size a ≤ S100000x68.size a
  hwx0_2 : ∀ i : grid0.Coords, EltTy.bits .f32 = 32 ∨ (Rect.block (s := S100000x68) S10000x68.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S12500x128.size a ≤ S12500x128.size a
  hwx1_0 : ∀ i : grid1.Coords, EltTy.bits .f32 = 32 ∨ (Rect.block (s := S12500x128) S12500x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S12500x128.size a ≤ S12500x128.size a
  hwx1_1 : ∀ i : grid1.Coords, EltTy.bits .f32 = 32 ∨ (Rect.block (s := S12500x128) S12500x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S12500x128.size a ≤ S12500x128.size a
  hwx1_2 : ∀ i : grid1.Coords, EltTy.bits .f32 = 32 ∨ (Rect.block (s := S12500x128) S12500x128.size (cc1_transform_2 i) (hinb1_2 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S12500x128.size a ≤ S12500x128.size a
  hwx2_0 : ∀ i : grid2.Coords, EltTy.bits .f32 = 32 ∨ (Rect.block (s := S12500x128) S12500x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x1.size a ≤ S1x1.size a
  hwx2_1 : ∀ i : grid2.Coords, EltTy.bits .f32 = 32 ∨ (Rect.block (s := S1x1) S1x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S12500x128.size a ≤ S12500x128.size a
  hwx2_2 : ∀ i : grid2.Coords, EltTy.bits .f32 = 32 ∨ (Rect.block (s := S12500x128) S12500x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x1.size a ≤ S1600000x1.size a
  hwx3_0 : ∀ i : grid3.Coords, EltTy.bits .f32 = 32 ∨ (Rect.block (s := S1600000x1) S8000x1.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8000x1.size a ≤ S1600000x1.size a
  hwx3_1 : ∀ i : grid3.Coords, EltTy.bits .f32 = 32 ∨ (Rect.block (s := S1600000x1) S8000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S8000x32.size a ≤ S1600000x32.size a
  hwx3_2 : ∀ i : grid3.Coords, EltTy.bits .f32 = 32 ∨ (Rect.block (s := S1600000x32) S8000x32.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S8000x32.size a ≤ S1600000x32.size a
  hwx3_3 : ∀ i : grid3.Coords, EltTy.bits .f32 = 32 ∨ (Rect.block (s := S1600000x32) S8000x32.size (cc3_transform_3 i) (hinb3_3 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S12500x128.size a ≤ S12500x128.size a
  hwx4_0 : ∀ i : grid4.Coords, EltTy.bits .f32 = 32 ∨ (Rect.block (s := S12500x128) S12500x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S12500x128.size a ≤ S12500x128.size a
  hwx4_1 : ∀ i : grid4.Coords, EltTy.bits .f32 = 32 ∨ (Rect.block (s := S12500x128) S12500x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S12500x128.size a ≤ S12500x128.size a
  hwx4_2 : ∀ i : grid4.Coords, EltTy.bits .f32 = 32 ∨ (Rect.block (s := S12500x128) S12500x128.size (cc4_transform_2 i) (hinb4_2 i)).WholeWords (EltTy.packing .f32)
  hrank5 : 0 < grid5.rank
  hstage5_0 : ∀ j, (stage5_0 j).IsWhole
  nbuf5_0 : grid5.bufCount reads5_0 true = 1
  hreads5_0 : ∀ i i' : grid5.Coords, (∀ a, reads5_0 a = true → i a = i' a) → cc5_transform_0 i = cc5_transform_0 i'
  hinb5_0 : ∀ (i : grid5.Coords) a, (cc5_transform_0 i a + 1) * S12500x128.size a ≤ S12500x128.size a
  hwx5_0 : ∀ i : grid5.Coords, EltTy.bits .f32 = 32 ∨ (Rect.block (s := S12500x128) S12500x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x1.size a ≤ S1x1.size a
  hwx5_1 : ∀ i : grid5.Coords, EltTy.bits .f32 = 32 ∨ (Rect.block (s := S1x1) S1x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S12500x128.size a ≤ S12500x128.size a
  hwx5_2 : ∀ i : grid5.Coords, EltTy.bits .f32 = 32 ∨ (Rect.block (s := S12500x128) S12500x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S8000x1.size a ≤ S1600000x1.size a
  hwx6_0 : ∀ i : grid6.Coords, EltTy.bits .f32 = 32 ∨ (Rect.block (s := S1600000x1) S8000x1.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S8000x1.size a ≤ S1600000x1.size a
  hwx6_1 : ∀ i : grid6.Coords, EltTy.bits .f32 = 32 ∨ (Rect.block (s := S1600000x1) S8000x1.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S8000x32.size a ≤ S1600000x32.size a
  hwx6_2 : ∀ i : grid6.Coords, EltTy.bits .f32 = 32 ∨ (Rect.block (s := S1600000x32) S8000x32.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S8000x32.size a ≤ S1600000x32.size a
  hwx6_3 : ∀ i : grid6.Coords, EltTy.bits .f32 = 32 ∨ (Rect.block (s := S1600000x32) S8000x32.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S25000x128.size a
  hwx7_0 : ∀ i : grid7.Coords, EltTy.bits .f32 = 32 ∨ (Rect.block (s := S25000x128) S5000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x128.size a ≤ S25000x128.size a
  hwx7_1 : ∀ i : grid7.Coords, EltTy.bits .f32 = 32 ∨ (Rect.block (s := S25000x128) S5000x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x128.size a ≤ S25000x128.size a
  hwx7_2 : ∀ i : grid7.Coords, EltTy.bits .f32 = 32 ∨ (Rect.block (s := S25000x128) S5000x128.size (cc7_transform_2 i) (hinb7_2 i)).WholeWords (EltTy.packing .f32)

variable [Facts₀]

def dot_S32x32_S32x1_S32x1_1_0_0_1_n_n : DotDims S32x32 S32x1 S32x1 where
  lhsContracting := [1]
  rhsContracting := [0]
  lhsNonContracting := [0]
  rhsNonContracting := [1]
  lhsBatch := []
  rhsBatch := []
  wf := dot_S32x32_S32x1_S32x1_1_0_0_1_n_n_wf
def dot_S10000x32_S32x68_S10000x68_1_0_0_1_n_n : DotDims S10000x32 S32x68 S10000x68 where
  lhsContracting := [1]
  rhsContracting := [0]
  lhsNonContracting := [0]
  rhsNonContracting := [1]
  lhsBatch := []
  rhsBatch := []
  wf := dot_S10000x32_S32x68_S10000x68_1_0_0_1_n_n_wf
def gather_S100000x1_S1600000x1_S1600000x1_1_0_n_n_0_1_11 : GatherDims S100000x1 S1600000x1 S1600000x1 where
  offsetDims := [1]
  collapsedSliceDims := [0]
  operandBatchingDims := []
  startIndicesBatchingDims := []
  startIndexMap := [0]
  indexVectorDim := 1
  sliceSizes := ![1, 1]
  wf := gather_S100000x1_S1600000x1_S1600000x1_1_0_n_n_0_1_11_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

abbrev win0_0 : Pipeline.Window sig grid0 :=
  Pipeline.Window.ofSpec (Memref.whole main_arg0) S10000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S32x68.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S10000x68.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S12500x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v44) S12500x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S12500x128.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S12500x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v47) S1x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S12500x128.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v49) S8000x1.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v61) S8000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v40) S8000x32.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v62) S8000x32.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v92) S12500x128.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_v94) S12500x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v95) S12500x128.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v95) S12500x128.size cc5_transform_0 reads5_0 false true 1 stage5_0 sem5_0
    hrank5 hreads5_0 hinb5_0 nbuf5_0 (Memref.isWhole_whole _) hwx5_0 hstage5_0

abbrev win5_1 : Pipeline.Window sig grid5 :=
  Pipeline.Window.ofSpec (Memref.whole main_v97) S1x1.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v98) S12500x128.size cc5_transform_2 reads5_2 true true 1 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v99) S8000x1.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v111) S8000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v90) S8000x32.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v112) S8000x32.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v116) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v117) S5000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v118) S5000x128.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

class Facts : Prop extends Facts₀ where

variable [Facts]
-- ==== ReferenceIdeal.lean ====
abbrev S100000x32 : Shape := ⟨2, ![100000, 32]⟩
abbrev S2x1600000 : Shape := ⟨2, ![2, 1600000]⟩
abbrev S32x32 : Shape := ⟨2, ![32, 32]⟩
abbrev S64x1 : Shape := ⟨2, ![64, 1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x32 : Shape := ⟨2, ![1600000, 32]⟩
abbrev S32x1 : Shape := ⟨2, ![32, 1]⟩
abbrev S100000x1 : Shape := ⟨2, ![100000, 1]⟩

abbrev nBuf : Space → Nat
  | .hbm => 151
  | .vmem => 0
  | .smem => 0
  | _ => 0

abbrev hbmTy0_0 (i : Nat) : BufTy := match i % 128 with
  | 0 => ⟨S100000x32, .f32⟩
  | 1 => ⟨S2x1600000, .i32⟩
  | 2 => ⟨S2x1600000, .i32⟩
  | 3 => ⟨S32x32, .f32⟩
  | 4 => ⟨S32x32, .f32⟩
  | 5 => ⟨S64x1, .f32⟩
  | 6 => ⟨S64x1, .f32⟩
  | 7 => ⟨S100000x32, .f32⟩
  | 8 => ⟨S1x1600000, .i32⟩
  | 9 => ⟨S1600000, .i32⟩
  | 10 => ⟨S1x1600000, .i32⟩
  | 11 => ⟨S1600000, .i32⟩
  | 12 => ⟨S_, .i32⟩
  | 13 => ⟨S1600000, .i32⟩
  | 14 => ⟨S1600000, .i1⟩
  | 15 => ⟨S_, .i32⟩
  | 16 => ⟨S1600000, .i32⟩
  | 17 => ⟨S1600000, .i32⟩
  | 18 => ⟨S1600000, .i32⟩
  | 19 => ⟨S1600000x1, .i32⟩
  | 20 => ⟨S1600000x32, .f32⟩
  | 21 => ⟨S_, .i32⟩
  | 22 => ⟨S1600000, .i32⟩
  | 23 => ⟨S1600000, .i1⟩
  | 24 => ⟨S_, .i32⟩
  | 25 => ⟨S1600000, .i32⟩
  | 26 => ⟨S1600000, .i32⟩
  | 27 => ⟨S1600000, .i32⟩
  | 28 => ⟨S1600000x1, .i32⟩
  | 29 => ⟨S1600000x32, .f32⟩
  | 30 => ⟨S32x1, .f32⟩
  | 31 => ⟨S1600000x1, .f32⟩
  | 32 => ⟨S32x1, .f32⟩
  | 33 => ⟨S1600000x1, .f32⟩
  | 34 => ⟨S1600000x1, .f32⟩
  | 35 => ⟨S_, .f32⟩
  | 36 => ⟨S_, .f32⟩
  | 37 => ⟨S1600000x1, .f32⟩
  | 38 => ⟨S1600000x1, .i1⟩
  | 39 => ⟨S_, .f32⟩
  | 40 => ⟨S1600000x1, .f32⟩
  | 41 => ⟨S1600000x1, .f32⟩
  | 42 => ⟨S1600000x1, .f32⟩
  | 43 => ⟨S_, .f32⟩
  | 44 => ⟨S_, .f32⟩
  | 45 => ⟨S1600000x1, .f32⟩
  | 46 => ⟨S1600000x1, .f32⟩
  | 47 => ⟨S1600000x1, .f32⟩
  | 48 => ⟨S_, .f32⟩
  | 49 => ⟨S100000x1, .f32⟩
  | 50 => ⟨S1600000x1, .i32⟩
  | 51 => ⟨S100000x1, .f32⟩
  | 52 => ⟨S_, .f32⟩
  | 53 => ⟨S100000x1, .f32⟩
  | 54 => ⟨S100000x1, .f32⟩
  | 55 => ⟨S_, .i32⟩
  | 56 => ⟨S1600000, .i32⟩
  | 57 => ⟨S1600000, .i1⟩
  | 58 => ⟨S_, .i32⟩
  | 59 => ⟨S1600000, .i32⟩
  | 60 => ⟨S1600000, .i32⟩
  | 61 => ⟨S1600000, .i32⟩
  | 62 => ⟨S1600000x1, .i32⟩
  | 63 => ⟨S1600000x1, .f32⟩
  | 64 => ⟨S1600000x1, .f32⟩
  | 65 => ⟨S1600000x32, .f32⟩
  | 66 => ⟨S1600000x32, .f32⟩
  | 67 => ⟨S_, .f32⟩
  | 68 => ⟨S100000x32, .f32⟩
  | 69 => ⟨S1600000x1, .i32⟩
  | 70 => ⟨S100000x32, .f32⟩
  | 71 => ⟨S100000x32, .f32⟩
  | 72 => ⟨S1x1600000, .i32⟩
  | 73 => ⟨S1600000, .i32⟩
  | 74 => ⟨S1x1600000, .i32⟩
  | 75 => ⟨S1600000, .i32⟩
  | 76 => ⟨S_, .i32⟩
  | 77 => ⟨S1600000, .i32⟩
  | 78 => ⟨S1600000, .i1⟩
  | 79 => ⟨S_, .i32⟩
  | 80 => ⟨S1600000, .i32⟩
  | 81 => ⟨S1600000, .i32⟩
  | 82 => ⟨S1600000, .i32⟩
  | 83 => ⟨S1600000x1, .i32⟩
  | 84 => ⟨S1600000x32, .f32⟩
  | 85 => ⟨S_, .i32⟩
  | 86 => ⟨S1600000, .i32⟩
  | 87 => ⟨S1600000, .i1⟩
  | 88 => ⟨S_, .i32⟩
  | 89 => ⟨S1600000, .i32⟩
  | 90 => ⟨S1600000, .i32⟩
  | 91 => ⟨S1600000, .i32⟩
  | 92 => ⟨S1600000x1, .i32⟩
  | 93 => ⟨S1600000x32, .f32⟩
  | 94 => ⟨S32x1, .f32⟩
  | 95 => ⟨S1600000x1, .f32⟩
  | 96 => ⟨S32x1, .f32⟩
  | 97 => ⟨S1600000x1, .f32⟩
  | 98 => ⟨S1600000x1, .f32⟩
  | 99 => ⟨S_, .f32⟩
  | 100 => ⟨S_, .f32⟩
  | 101 => ⟨S1600000x1, .f32⟩
  | 102 => ⟨S1600000x1, .i1⟩
  | 103 => ⟨S_, .f32⟩
  | 104 => ⟨S1600000x1, .f32⟩
  | 105 => ⟨S1600000x1, .f32⟩
  | 106 => ⟨S1600000x1, .f32⟩
  | 107 => ⟨S_, .f32⟩
  | 108 => ⟨S_, .f32⟩
  | 109 => ⟨S1600000x1, .f32⟩
  | 110 => ⟨S1600000x1, .f32⟩
  | 111 => ⟨S1600000x1, .f32⟩
  | 112 => ⟨S_, .f32⟩
  | 113 => ⟨S100000x1, .f32⟩
  | 114 => ⟨S1600000x1, .i32⟩
  | 115 => ⟨S100000x1, .f32⟩
  | 116 => ⟨S_, .f32⟩
  | 117 => ⟨S100000x1, .f32⟩
  | 118 => ⟨S100000x1, .f32⟩
  | 119 => ⟨S_, .i32⟩
  | 120 => ⟨S1600000, .i32⟩
  | 121 => ⟨S1600000, .i1⟩
  | 122 => ⟨S_, .i32⟩
  | 123 => ⟨S1600000, .i32⟩
  | 124 => ⟨S1600000, .i32⟩
  | 125 => ⟨S1600000, .i32⟩
  | 126 => ⟨S1600000x1, .i32⟩
  | 127 => ⟨S1600000x1, .f32⟩
  | _ => ⟨S100000x32, .f32⟩

abbrev hbmTy0_1 (i : Nat) : BufTy := match i % 128 with
  | 0 => ⟨S1600000x1, .f32⟩
  | 1 => ⟨S1600000x32, .f32⟩
  | 2 => ⟨S1600000x32, .f32⟩
  | 3 => ⟨S_, .f32⟩
  | 4 => ⟨S100000x32, .f32⟩
  | 5 => ⟨S1600000x1, .i32⟩
  | 6 => ⟨S100000x32, .f32⟩
  | 7 => ⟨S100000x32, .f32⟩
  | 8 => ⟨S_, .f32⟩
  | 9 => ⟨S100000x32, .f32⟩
  | 10 => ⟨S100000x32, .i1⟩
  | 11 => ⟨S_, .f32⟩
  | 12 => ⟨S100000x32, .f32⟩
  | 13 => ⟨S100000x32, .i1⟩
  | 14 => ⟨S_, .f32⟩
  | 15 => ⟨S_, .f32⟩
  | 16 => ⟨S100000x32, .f32⟩
  | 17 => ⟨S100000x32, .f32⟩
  | 18 => ⟨S100000x32, .f32⟩
  | 19 => ⟨S_, .f32⟩
  | 20 => ⟨S100000x32, .f32⟩
  | 21 => ⟨S100000x32, .f32⟩
  | 22 => ⟨S100000x32, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_1 : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst : Ref sig .tc := ⟨.hbm, 35, rfl⟩
abbrev main_call0_cst : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_v24 : Ref sig .tc := ⟨.hbm, 42, rfl⟩
abbrev main_cst_3 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_4 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_5 : Ref sig .tc := ⟨.hbm, 52, rfl⟩
abbrev main_v32 : Ref sig .tc := ⟨.hbm, 53, rfl⟩
abbrev main_v33 : Ref sig .tc := ⟨.hbm, 54, rfl⟩
abbrev main_c_6 : Ref sig .tc := ⟨.hbm, 55, rfl⟩
abbrev main_v34 : Ref sig .tc := ⟨.hbm, 56, rfl⟩
abbrev main_v35 : Ref sig .tc := ⟨.hbm, 57, rfl⟩
abbrev main_c_7 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_8 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_c_9 : Ref sig .tc := ⟨.hbm, 76, rfl⟩
abbrev main_v52 : Ref sig .tc := ⟨.hbm, 77, rfl⟩
abbrev main_v53 : Ref sig .tc := ⟨.hbm, 78, rfl⟩
abbrev main_c_10 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_c_11 : Ref sig .tc := ⟨.hbm, 85, rfl⟩
abbrev main_v59 : Ref sig .tc := ⟨.hbm, 86, rfl⟩
abbrev main_v60 : Ref sig .tc := ⟨.hbm, 87, rfl⟩
abbrev main_c_12 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_13 : Ref sig .tc := ⟨.hbm, 99, rfl⟩
abbrev main_call1_cst : Ref sig .tc := ⟨.hbm, 100, rfl⟩
abbrev main_call1_v0 : Ref sig .tc := ⟨.hbm, 101, rfl⟩
abbrev main_call1_v1 : Ref sig .tc := ⟨.hbm, 102, rfl⟩
abbrev main_call1_v2 : Ref sig .tc := ⟨.hbm, 103, rfl⟩
abbrev main_call1_v3 : Ref sig .tc := ⟨.hbm, 104, rfl⟩
abbrev main_call1_v4 : Ref sig .tc := ⟨.hbm, 105, rfl⟩
abbrev main_v71 : Ref sig .tc := ⟨.hbm, 106, rfl⟩
abbrev main_cst_14 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_cst_15 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_cst_16 : Ref sig .tc := ⟨.hbm, 116, rfl⟩
abbrev main_v79 : Ref sig .tc := ⟨.hbm, 117, rfl⟩
abbrev main_v80 : Ref sig .tc := ⟨.hbm, 118, rfl⟩
abbrev main_c_17 : Ref sig .tc := ⟨.hbm, 119, rfl⟩
abbrev main_v81 : Ref sig .tc := ⟨.hbm, 120, rfl⟩
abbrev main_v82 : Ref sig .tc := ⟨.hbm, 121, rfl⟩
abbrev main_c_18 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_cst_19 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_call2_cst : Ref sig .tc := ⟨.hbm, 136, rfl⟩
abbrev main_call2_v0 : Ref sig .tc := ⟨.hbm, 137, rfl⟩
abbrev main_call2_v1 : Ref sig .tc := ⟨.hbm, 138, rfl⟩
abbrev main_call2_cst_0 : Ref sig .tc := ⟨.hbm, 139, rfl⟩
abbrev main_call2_v2 : Ref sig .tc := ⟨.hbm, 140, rfl⟩
abbrev main_call2_v3 : Ref sig .tc := ⟨.hbm, 141, rfl⟩
abbrev main_call2_cst_1 : Ref sig .tc := ⟨.hbm, 142, rfl⟩
abbrev main_call2_call0_v0 : Ref sig .tc := ⟨.hbm, 143, rfl⟩
abbrev main_call2_call0_v1 : Ref sig .tc := ⟨.hbm, 144, rfl⟩
abbrev main_call2_v4 : Ref sig .tc := ⟨.hbm, 145, rfl⟩
abbrev main_call2_v5 : Ref sig .tc := ⟨.hbm, 146, rfl⟩
abbrev main_call2_cst_2 : Ref sig .tc := ⟨.hbm, 147, rfl⟩
abbrev main_call2_v6 : Ref sig .tc := ⟨.hbm, 148, rfl⟩
abbrev main_call2_v7 : Ref sig .tc := ⟨.hbm, 149, rfl⟩
abbrev main_v95 : Ref sig .tc := ⟨.hbm, 150, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S64x1_S32x1_0_0 : S64x1.Slices ![0, 0] S32x1
  slices_S64x1_S32x1_32_0 : S64x1.Slices ![32, 0] S32x1
  bcast_S_S1600000x1 : S_.BroadcastsInDim S1600000x1 (![] : Fin 0 → Fin S1600000x1.rank)
  reducesTo_S1600000x1_S_d0_1 : S1600000x1.ReducesTo [0, 1] S_
  h_S_ : 0 < S_.numel
  bcast_S_S100000x1 : S_.BroadcastsInDim S100000x1 (![] : Fin 0 → Fin S100000x1.rank)
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  dot_S100000x32_S32x32_S100000x32_1_0_0_1_n_n_wf : DotDims.WF S100000x32 S32x32 S100000x32 [1] [0] [0] [1] [] []
  gather_S100000x32_S1600000x1_S1600000x32_1_0_n_n_0_1_132_wf : GatherDims.WF S100000x32 S1600000x1 S1600000x32 [1] [0] [] [0] [] 1 ![1, 32]
  dot_S1600000x32_S32x1_S1600000x1_1_0_0_1_n_n_wf : DotDims.WF S1600000x32 S32x1 S1600000x1 [1] [0] [0] [1] [] []
  scatter_S100000x1_S1600000x1_S1600000x1_1_0_0_1_wf : ScatterDims.WF S100000x1 S1600000x1 S1600000x1 [1] [0] [0] 1
  gather_S100000x1_S1600000x1_S1600000x1_1_0_n_n_0_1_11_wf : GatherDims.WF S100000x1 S1600000x1 S1600000x1 [1] [0] [] [0] [] 1 ![1, 1]
  scatter_S100000x32_S1600000x1_S1600000x32_1_0_0_1_wf : ScatterDims.WF S100000x32 S1600000x1 S1600000x32 [1] [0] [0] 1

variable [Facts₀]

def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def dot_S1600000x32_S32x1_S1600000x1_1_0_0_1_n_n : DotDims S1600000x32 S32x1 S1600000x1 where
  lhsContracting := [1]
  rhsContracting := [0]
  lhsNonContracting := [0]
  rhsNonContracting := [1]
  lhsBatch := []
  rhsBatch := []
  wf := dot_S1600000x32_S32x1_S1600000x1_1_0_0_1_n_n_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def gather_S100000x1_S1600000x1_S1600000x1_1_0_n_n_0_1_11 : GatherDims S100000x1 S1600000x1 S1600000x1 where
  offsetDims := [1]
  collapsedSliceDims := [0]
  operandBatchingDims := []
  startIndicesBatchingDims := []
  startIndexMap := [0]
  indexVectorDim := 1
  sliceSizes := ![1, 1]
  wf := gather_S100000x1_S1600000x1_S1600000x1_1_0_n_n_0_1_11_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

class Facts : Prop extends Facts₀ where

variable [Facts]
-- ==== Proof.K.Reg0.lean ====
import proofs.«400307_j79207786873545_3_alg».proof.Proof.Gen.Kernel.Launch
import proofs.«400307_j79207786873545_3_alg».proof.Proof.Gen.Kernel.Skeleton
import proofs.«400307_j79207786873545_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rx0 : Rect S10000x32 := Rect.unit (s := S10000x32) ![0, 0] S10000x32.size inb_S10000x32_S10000x32_0_0
abbrev rw0 : Rect S32x68 := Rect.unit (s := S32x68) ![0, 0] S32x68.size inb_S32x68_S32x68_0_0
abbrev ro0 : Rect S10000x68 := Rect.unit (s := S10000x68) ![0, 0] S10000x68.size inb_S10000x68_S10000x68_0_0

def out0_2 (x0 : Vec F S10000x32 .f32) (x1 : Vec F S32x68 .f32) : Vec F S10000x68 .f32 :=
  View.canon [⟨ro0, k0_pay1 (View.ld x0 rx0) (View.ld x1 rw0)⟩]

theorem cover0_2 (p0 : Vec F S10000x68 .f32) (y : S10000x68.Idx) :
    ∃ pc ∈ ([⟨ro0, p0⟩] : List (View.Piece (Elt F) S10000x68 .f32)), y ∈ pc.1.set :=
  View.cover_of_tiled [⟨ro0, p0⟩] S10000x68.size (by rfl) y

set_option maxHeartbeats 1000000 in

theorem sound_kernel0 (c : Dev nD) (E : Set ℕ) (i : grid0.Coords)
    (arg1 : Memref sig .tc .vmem S10000x32 .f32) (harg1 : arg1.IsWhole)
    (arg2 : Memref sig .tc .vmem S32x68 .f32) (harg2 : arg2.IsWhole)
    (arg3 : Memref sig .tc .vmem S10000x68 .f32) (harg3 : arg3.IsWhole)
    (x0 : Vec F S10000x32 .f32) (x1 : Vec F S32x68 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem dat0_A (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d

theorem sound_body0 (c : Dev nD) (t : Fin cfg0.N) :
    iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))
      ⊢ wp frame (wpE (defs₀ (F := F)) Variants.none c none) Set.univ (bodyAt0 t) fun _ =>
        iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)) := by
  unfold bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem obligation0 (c : Dev nD) : BodyObligation (dat0 (F := F) V c) (defs₀ (F := F)) Variants.none () Set.univ := fun t => by
  rw [bigSep_W0, bigSep_W0]
  exact sound_body0 V c t

end Cert.Kernel.Hand
-- ==== Proof.K.Reg1.lean ====
import proofs.«400307_j79207786873545_3_alg».proof.Proof.Gen.Kernel.Launch
import proofs.«400307_j79207786873545_3_alg».proof.Proof.Gen.Kernel.Skeleton
import proofs.«400307_j79207786873545_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rect1 : Rect S12500x128 := Rect.unit (s := S12500x128) ![0, 0] S12500x128.size inb_S12500x128_S12500x128_0_0

def out1_2 (x0 : Vec F S12500x128 .f32) (x1 : Vec F S12500x128 .f32) : Vec F S12500x128 .f32 :=
  View.canon [⟨rect1, k1_pay1 (View.ld x0 rect1) (View.ld x1 rect1)⟩]

theorem cover1_2 (p0 : Vec F S12500x128 .f32) (y : S12500x128.Idx) :
    ∃ pc ∈ ([⟨rect1, p0⟩] : List (View.Piece (Elt F) S12500x128 .f32)), y ∈ pc.1.set :=
  View.cover_of_tiled [⟨rect1, p0⟩] S12500x128.size (by rfl) y

set_option maxHeartbeats 1000000 in

theorem sound_kernel1 (c : Dev nD) (E : Set ℕ) (i : grid1.Coords)
    (arg0 : Memref sig .tc .vmem S12500x128 .f32) (harg0 : arg0.IsWhole)
    (arg1 : Memref sig .tc .vmem S12500x128 .f32) (harg1 : arg1.IsWhole)
    (arg2 : Memref sig .tc .vmem S12500x128 .f32) (harg2 : arg2.IsWhole)
    (x0 : Vec F S12500x128 .f32) (x1 : Vec F S12500x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out1_2 x0 x1)) -∗ K ⟨⟩))
      ⊢ wp frame (wpE (defs₀ (F := F)) Variants.none c none) E (cc1__lrelu_kernel i arg0 harg0 arg1 harg1 arg2 harg2) K := by
  simp only [cc1__lrelu_kernel_eq_skeleton]; unfold cc1__lrelu_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem dat1_A (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d

theorem sound_body1 (c : Dev nD) (t : Fin cfg1.N) :
    iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))
      ⊢ wp frame (wpE (defs₀ (F := F)) Variants.none c none) Set.univ (bodyAt1 t) fun _ =>
        iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)) := by
  unfold bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Reg2.lean ====
import proofs.«400307_j79207786873545_3_alg».proof.Proof.Gen.Kernel.Launch
import proofs.«400307_j79207786873545_3_alg».proof.Proof.Gen.Kernel.Skeleton
import proofs.«400307_j79207786873545_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rect2 : Rect S12500x128 := Rect.unit (s := S12500x128) ![0, 0] S12500x128.size inb_S12500x128_S12500x128_0_0

abbrev cell2 : Rect S1x1 := Rect.unit (s := S1x1) ![0, 0] S1x1.size inb_S1x1_S1x1_0_0

def out2_2 (x0 : Vec F S12500x128 .f32) (x1 : Vec F S1x1 .f32) : Vec F S12500x128 .f32 :=
  View.canon [⟨rect2, k2_pay1 (View.ld x1 cell2) (View.ld x0 rect2)⟩]

theorem cover2_2 (p0 : Vec F S12500x128 .f32) (y : S12500x128.Idx) :
    ∃ pc ∈ ([⟨rect2, p0⟩] : List (View.Piece (Elt F) S12500x128 .f32)), y ∈ pc.1.set :=
  View.cover_of_tiled [⟨rect2, p0⟩] S12500x128.size (by rfl) y

set_option maxHeartbeats 1000000 in

theorem sound_kernel2 (c : Dev nD) (E : Set ℕ) (i : grid2.Coords)
    (arg0 : Memref sig .tc .vmem S12500x128 .f32) (harg0 : arg0.IsWhole)
    (arg1 : Memref sig .tc .vmem S1x1 .f32) (harg1 : arg1.IsWhole)
    (arg2 : Memref sig .tc .vmem S12500x128 .f32) (harg2 : arg2.IsWhole)
    (x0 : Vec F S12500x128 .f32) (x1 : Vec F S1x1 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2_2 x0 x1)) -∗ K ⟨⟩))
      ⊢ wp frame (wpE (defs₀ (F := F)) Variants.none c none) E (cc2__exp_kernel i arg0 harg0 arg1 harg1 arg2 harg2) K := by
  simp only [cc2__exp_kernel_eq_skeleton]; unfold cc2__exp_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem dat2_A (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d

theorem sound_body2 (c : Dev nD) (t : Fin cfg2.N) :
    iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))
      ⊢ wp frame (wpE (defs₀ (F := F)) Variants.none c none) Set.univ (bodyAt2 t) fun _ =>
        iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)) := by
  unfold bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Reg3.lean ====
import proofs.«400307_j79207786873545_3_alg».proof.Proof.Gen.Kernel.Launch
import proofs.«400307_j79207786873545_3_alg».proof.Proof.Gen.Kernel.Skeleton
import proofs.«400307_j79207786873545_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S8000x1 := Rect.unit (s := S8000x1) ![0, 0] S8000x1.size inb_S8000x1_S8000x1_0_0

abbrev r3_1 : Rect S8000x32 := Rect.unit (s := S8000x32) ![0, 0] S8000x32.size inb_S8000x32_S8000x32_0_0

def out3_3 (x0 : Vec F S8000x1 .f32) (x1 : Vec F S8000x1 .f32) (x2 : Vec F S8000x32 .f32) : Vec F S8000x32 .f32 :=
  View.canon [⟨r3_1, k3_pay1 (View.ld x0 r3_0) (View.ld x1 r3_0) (View.ld x2 r3_1)⟩]

theorem cover3_3 (p0 : Vec F S8000x32 .f32) (y : S8000x32.Idx) :
    ∃ pc ∈ ([⟨r3_1, p0⟩] : List (View.Piece (Elt F) S8000x32 .f32)), y ∈ pc.1.set :=
  View.cover_of_tiled [⟨r3_1, p0⟩] S8000x32.size (by rfl) y

set_option maxHeartbeats 1000000 in

theorem sound_kernel3 (c : Dev nD) (E : Set ℕ) (i : grid3.Coords)
    (arg1 : Memref sig .tc .vmem S8000x1 .f32) (harg1 : arg1.IsWhole) (arg2 : Memref sig .tc .vmem S8000x1 .f32) (harg2 : arg2.IsWhole)
    (arg3 : Memref sig .tc .vmem S8000x32 .f32) (harg3 : arg3.IsWhole) (arg4 : Memref sig .tc .vmem S8000x32 .f32) (harg4 : arg4.IsWhole)
    (x0 : Vec F S8000x1 .f32) (x1 : Vec F S8000x1 .f32) (x2 : Vec F S8000x32 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__weight_kernel i arg1 harg1 arg2 harg2 arg3 harg3 arg4 harg4) K := by
  simp only [cc3__weight_kernel_eq_skeleton]; unfold cc3__weight_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem dat3_A (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  (dat3 V c).before_in_eq_fetched 0 rfl (fun _ => rfl) (fun _ _ _ => rfl) (fun _ => rfl) t d
theorem before3_1 (c : Dev nD) (t : Fin cfg3.N) (d) : (dat3 V c).before 1 t d = iblk3 V c 1 t :=
  (dat3 V c).before_in_eq_fetched 1 rfl (fun _ => rfl) (fun _ _ _ => rfl) (fun _ => rfl) t d
theorem before3_2 (c : Dev nD) (t : Fin cfg3.N) (d) : (dat3 V c).before 2 t d = iblk3 V c 2 t :=
  (dat3 V c).before_in_eq_fetched 2 rfl (fun _ => rfl) (fun _ _ _ => rfl) (fun _ => rfl) t d

theorem sound_body3 (c : Dev nD) (t : Fin cfg3.N) :
    iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))
      ⊢ wp frame (wpE (defs₀ (F := F)) Variants.none c none) Set.univ (bodyAt3 t) fun _ =>
        iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)) := by
  unfold bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Reg4.lean ====
import proofs.«400307_j79207786873545_3_alg».proof.Proof.Gen.Kernel.Launch
import proofs.«400307_j79207786873545_3_alg».proof.Proof.Gen.Kernel.Skeleton
import proofs.«400307_j79207786873545_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev rect4 : Rect S12500x128 := Rect.unit (s := S12500x128) ![0, 0] S12500x128.size inb_S12500x128_S12500x128_0_0

def out4_2 (x0 : Vec F S12500x128 .f32) (x1 : Vec F S12500x128 .f32) : Vec F S12500x128 .f32 :=
  View.canon [⟨rect4, k4_pay1 (View.ld x0 rect4) (View.ld x1 rect4)⟩]

theorem cover4_2 (p0 : Vec F S12500x128 .f32) (y : S12500x128.Idx) :
    ∃ pc ∈ ([⟨rect4, p0⟩] : List (View.Piece (Elt F) S12500x128 .f32)), y ∈ pc.1.set :=
  View.cover_of_tiled [⟨rect4, p0⟩] S12500x128.size (by rfl) y

set_option maxHeartbeats 1000000 in

theorem sound_kernel4 (c : Dev nD) (E : Set ℕ) (i : grid4.Coords)
    (arg0 : Memref sig .tc .vmem S12500x128 .f32) (harg0 : arg0.IsWhole)
    (arg1 : Memref sig .tc .vmem S12500x128 .f32) (harg1 : arg1.IsWhole)
    (arg2 : Memref sig .tc .vmem S12500x128 .f32) (harg2 : arg2.IsWhole)
    (x0 : Vec F S12500x128 .f32) (x1 : Vec F S12500x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out4_2 x0 x1)) -∗ K ⟨⟩))
      ⊢ wp frame (wpE (defs₀ (F := F)) Variants.none c none) E (cc4__lrelu_kernel i arg0 harg0 arg1 harg1 arg2 harg2) K := by
  simp only [cc4__lrelu_kernel_eq_skeleton]; unfold cc4__lrelu_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem dat4_A (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

theorem before4_0 (c : Dev nD) (t : Fin cfg4.N) (d) : (dat4 V c).before 0 t d = iblk4 V c 0 t :=
  (dat4 V c).before_in_eq_fetched 0 rfl (fun _ => rfl) (fun _ _ _ => rfl) (fun _ => rfl) t d
theorem before4_1 (c : Dev nD) (t : Fin cfg4.N) (d) : (dat4 V c).before 1 t d = iblk4 V c 1 t :=
  (dat4 V c).before_in_eq_fetched 1 rfl (fun _ => rfl) (fun _ _ _ => rfl) (fun _ => rfl) t d

theorem sound_body4 (c : Dev nD) (t : Fin cfg4.N) :
    iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))
      ⊢ wp frame (wpE (defs₀ (F := F)) Variants.none c none) Set.univ (bodyAt4 t) fun _ =>
        iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)) := by
  unfold bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem obligation4 (c : Dev nD) : BodyObligation (dat4 (F := F) V c) (defs₀ (F := F)) Variants.none () Set.univ := fun t => by
  rw [bigSep_W4, bigSep_W4]
  exact sound_body4 V c t

end Cert.Kernel.Hand

end
-- ==== Proof.K.Reg5.lean ====
import proofs.«400307_j79207786873545_3_alg».proof.Proof.Gen.Kernel.Launch
import proofs.«400307_j79207786873545_3_alg».proof.Proof.Gen.Kernel.Skeleton
import proofs.«400307_j79207786873545_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev rect5 : Rect S12500x128 := Rect.unit (s := S12500x128) ![0, 0] S12500x128.size inb_S12500x128_S12500x128_0_0

abbrev cell5 : Rect S1x1 := Rect.unit (s := S1x1) ![0, 0] S1x1.size inb_S1x1_S1x1_0_0

def out5_2 (x0 : Vec F S12500x128 .f32) (x1 : Vec F S1x1 .f32) : Vec F S12500x128 .f32 :=
  View.canon [⟨rect5, k5_pay1 (View.ld x1 cell5) (View.ld x0 rect5)⟩]

theorem cover5_2 (p0 : Vec F S12500x128 .f32) (y : S12500x128.Idx) :
    ∃ pc ∈ ([⟨rect5, p0⟩] : List (View.Piece (Elt F) S12500x128 .f32)), y ∈ pc.1.set :=
  View.cover_of_tiled [⟨rect5, p0⟩] S12500x128.size (by rfl) y

set_option maxHeartbeats 1000000 in

theorem sound_kernel5 (c : Dev nD) (E : Set ℕ) (i : grid5.Coords)
    (arg0 : Memref sig .tc .vmem S12500x128 .f32) (harg0 : arg0.IsWhole)
    (arg1 : Memref sig .tc .vmem S1x1 .f32) (harg1 : arg1.IsWhole)
    (arg2 : Memref sig .tc .vmem S12500x128 .f32) (harg2 : arg2.IsWhole)
    (x0 : Vec F S12500x128 .f32) (x1 : Vec F S1x1 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out5_2 x0 x1)) -∗ K ⟨⟩))
      ⊢ wp frame (wpE (defs₀ (F := F)) Variants.none c none) E (cc5__exp_kernel i arg0 harg0 arg1 harg1 arg2 harg2) K := by
  simp only [cc5__exp_kernel_eq_skeleton]; unfold cc5__exp_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

theorem dat5_A (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]

theorem before5_0 (c : Dev nD) (t : Fin cfg5.N) (d) : (dat5 V c).before 0 t d = iblk5 V c 0 t :=
  (dat5 V c).before_in_eq_fetched 0 rfl (fun _ => rfl) (fun _ _ _ => rfl) (fun _ => rfl) t d
theorem before5_1 (c : Dev nD) (t : Fin cfg5.N) (d) : (dat5 V c).before 1 t d = iblk5 V c 1 t :=
  (dat5 V c).before_in_eq_fetched 1 rfl (fun _ => rfl) (fun _ _ _ => rfl) (fun _ => rfl) t d

theorem sound_body5 (c : Dev nD) (t : Fin cfg5.N) :
    iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))
      ⊢ wp frame (wpE (defs₀ (F := F)) Variants.none c none) Set.univ (bodyAt5 t) fun _ =>
        iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)) := by
  unfold bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem obligation5 (c : Dev nD) : BodyObligation (dat5 (F := F) V c) (defs₀ (F := F)) Variants.none () Set.univ := fun t => by
  rw [bigSep_W5, bigSep_W5]
  exact sound_body5 V c t

end Cert.Kernel.Hand

end
-- ==== Proof.K.Reg6.lean ====
import proofs.«400307_j79207786873545_3_alg».proof.Proof.Gen.Kernel.Launch
import proofs.«400307_j79207786873545_3_alg».proof.Proof.Gen.Kernel.Skeleton
import proofs.«400307_j79207786873545_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_0 : Rect S8000x1 := Rect.unit (s := S8000x1) ![0, 0] S8000x1.size inb_S8000x1_S8000x1_0_0

abbrev r6_1 : Rect S8000x32 := Rect.unit (s := S8000x32) ![0, 0] S8000x32.size inb_S8000x32_S8000x32_0_0

def out6_3 (x0 : Vec F S8000x1 .f32) (x1 : Vec F S8000x1 .f32) (x2 : Vec F S8000x32 .f32) : Vec F S8000x32 .f32 :=
  View.canon [⟨r6_1, k6_pay1 (View.ld x0 r6_0) (View.ld x1 r6_0) (View.ld x2 r6_1)⟩]

theorem cover6_3 (p0 : Vec F S8000x32 .f32) (y : S8000x32.Idx) :
    ∃ pc ∈ ([⟨r6_1, p0⟩] : List (View.Piece (Elt F) S8000x32 .f32)), y ∈ pc.1.set :=
  View.cover_of_tiled [⟨r6_1, p0⟩] S8000x32.size (by rfl) y

set_option maxHeartbeats 1000000 in

theorem sound_kernel6 (c : Dev nD) (E : Set ℕ) (i : grid6.Coords)
    (arg1 : Memref sig .tc .vmem S8000x1 .f32) (harg1 : arg1.IsWhole) (arg2 : Memref sig .tc .vmem S8000x1 .f32) (harg2 : arg2.IsWhole)
    (arg3 : Memref sig .tc .vmem S8000x32 .f32) (harg3 : arg3.IsWhole) (arg4 : Memref sig .tc .vmem S8000x32 .f32) (harg4 : arg4.IsWhole)
    (x0 : Vec F S8000x1 .f32) (x1 : Vec F S8000x1 .f32) (x2 : Vec F S8000x32 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out6_3 x0 x1 x2)) -∗ K ⟨⟩))
      ⊢ wp frame (wpE (defs₀ (F := F)) Variants.none c none) E (cc6__weight_kernel i arg1 harg1 arg2 harg2 arg3 harg3 arg4 harg4) K := by
  simp only [cc6__weight_kernel_eq_skeleton]; unfold cc6__weight_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

theorem dat6_A (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) :
    (dat6 V c).after 3 t = out6_3 (iblk6 V c 0 t) (iblk6 V c 1 t) (iblk6 V c 2 t) := by dsimp only [dat6]

theorem before6_0 (c : Dev nD) (t : Fin cfg6.N) (d) : (dat6 V c).before 0 t d = iblk6 V c 0 t :=
  (dat6 V c).before_in_eq_fetched 0 rfl (fun _ => rfl) (fun _ _ _ => rfl) (fun _ => rfl) t d
theorem before6_1 (c : Dev nD) (t : Fin cfg6.N) (d) : (dat6 V c).before 1 t d = iblk6 V c 1 t :=
  (dat6 V c).before_in_eq_fetched 1 rfl (fun _ => rfl) (fun _ _ _ => rfl) (fun _ => rfl) t d
theorem before6_2 (c : Dev nD) (t : Fin cfg6.N) (d) : (dat6 V c).before 2 t d = iblk6 V c 2 t :=
  (dat6 V c).before_in_eq_fetched 2 rfl (fun _ => rfl) (fun _ _ _ => rfl) (fun _ => rfl) t d

theorem sound_body6 (c : Dev nD) (t : Fin cfg6.N) :
    iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))
      ⊢ wp frame (wpE (defs₀ (F := F)) Variants.none c none) Set.univ (bodyAt6 t) fun _ =>
        iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)) := by
  unfold bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ _ _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem obligation6 (c : Dev nD) : BodyObligation (dat6 (F := F) V c) (defs₀ (F := F)) Variants.none () Set.univ := fun t => by
  rw [bigSep_W6, bigSep_W6]
  exact sound_body6 V c t

end Cert.Kernel.Hand

end
-- ==== Proof.K.Reg7.lean ====
import proofs.«400307_j79207786873545_3_alg».proof.Proof.Gen.Kernel.Launch
import proofs.«400307_j79207786873545_3_alg».proof.Proof.Gen.Kernel.Skeleton
import proofs.«400307_j79207786873545_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev r7 : Rect S5000x128 := Rect.unit (s := S5000x128) ![0, 0] S5000x128.size inb_S5000x128_S5000x128_0_0

def out7_2 (x0 x1 : Vec F S5000x128 .f32) : Vec F S5000x128 .f32 :=
  View.canon [⟨r7, k7_pay1 (View.ld x0 r7) (View.ld x1 r7)⟩]

theorem cover7_2 (p0 : Vec F S5000x128 .f32) (y : S5000x128.Idx) :
    ∃ pc ∈ ([⟨r7, p0⟩] : List (View.Piece (Elt F) S5000x128 .f32)), y ∈ pc.1.set :=
  View.cover_of_tiled [⟨r7, p0⟩] S5000x128.size (by rfl) y

set_option maxHeartbeats 1000000 in

theorem sound_kernel7 (c : Dev nD) (E : Set ℕ) (i : grid7.Coords)
    (arg1 : Memref sig .tc .vmem S5000x128 .f32) (harg1 : arg1.IsWhole)
    (arg2 : Memref sig .tc .vmem S5000x128 .f32) (harg2 : arg2.IsWhole)
    (arg3 : Memref sig .tc .vmem S5000x128 .f32) (harg3 : arg3.IsWhole)
    (x0 x1 : Vec F S5000x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out7_2 x0 x1)) -∗ K ⟨⟩))
      ⊢ wp frame (wpE (defs₀ (F := F)) Variants.none c none) E (cc7__elu_add_kernel i arg1 harg1 arg2 harg2 arg3 harg3) K := by
  simp only [cc7__elu_add_kernel_eq_skeleton]; unfold cc7__elu_add_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover7_2 _)

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => out7_2 (iblk7 V c 0 t) (iblk7 V c 1 t)
  Φ _ := Pipeline.ΦA spec7 c
  q _ := fullShare
  owed _ := 0

theorem dat7_A (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) :
    (dat7 V c).after 2 t = out7_2 (iblk7 V c 0 t) (iblk7 V c 1 t) := by dsimp only [dat7]

theorem before7_0 (c : Dev nD) (t : Fin cfg7.N) (d) : (dat7 V c).before 0 t d = iblk7 V c 0 t :=
  (dat7 V c).before_in_eq_fetched 0 rfl (fun _ => rfl) (fun _ _ _ => rfl) (fun _ => rfl) t d
theorem before7_1 (c : Dev nD) (t : Fin cfg7.N) (d) : (dat7 V c).before 1 t d = iblk7 V c 1 t :=
  (dat7 V c).before_in_eq_fetched 1 rfl (fun _ => rfl) (fun _ _ _ => rfl) (fun _ => rfl) t d

theorem sound_body7 (c : Dev nD) (t : Fin cfg7.N) :
    iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d)))
      ⊢ wp frame (wpE (defs₀ (F := F)) Variants.none c none) Set.univ (bodyAt7 t) fun _ =>
        iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)) := by
  unfold bodyAt7
  simp only [before7_0, before7_1]
  rw [show (dat7 V c).Φ t.succ = (dat7 V c).Φ t.castSucc from rfl,
    show (dat7 V c).owesAt () t.succ = (dat7 V c).owesAt () t.castSucc from rfl,
    after7_0, after7_1, after7_2]
  iintro ⟨HΦ, Ho, ⟨%d0, H0⟩, ⟨%d1, H1⟩, ⟨%d2, H2⟩⟩
  iapply (sound_kernel7 c Set.univ _ _ _ _ _ _ _ (iblk7 V c 0 t) (iblk7 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem obligation7 (c : Dev nD) : BodyObligation (dat7 (F := F) V c) (defs₀ (F := F)) Variants.none () Set.univ := fun t => by
  rw [bigSep_W7, bigSep_W7]
  exact sound_body7 V c t

end Cert.Kernel.Hand

end
-- ==== Proof.K.Chain.lean ====
import proofs.«400307_j79207786873545_3_alg».proof.Proof.K.Reg0
import proofs.«400307_j79207786873545_3_alg».proof.Proof.K.Reg1
import proofs.«400307_j79207786873545_3_alg».proof.Proof.K.Reg2
import proofs.«400307_j79207786873545_3_alg».proof.Proof.K.Reg3
import proofs.«400307_j79207786873545_3_alg».proof.Proof.K.Reg4
import proofs.«400307_j79207786873545_3_alg».proof.Proof.K.Reg5
import proofs.«400307_j79207786873545_3_alg».proof.Proof.K.Reg6
import proofs.«400307_j79207786873545_3_alg».proof.Proof.K.Reg7
import proofs.«400307_j79207786873545_3_alg».proof.Proof.Gen.Kernel.Regions
import Idealize.ShloMosaic.Lib.Pipeline.FrameBody
import Idealize.ShloMosaic.Lib.Pipeline.RegionsLoop
import Idealize.ShloMosaic.Lib.Pipeline.FrameSuffix

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]
variable (m : (ℓ : Loc nD τ sig) → Buf (Elt F) ℓ) (ρ : Dev nD → PrngReg)

abbrev B0 : Dev nD → Valuation τ sig (Elt F) := fun c b => (s₀ m ρ).mem ((c : Dev nD), b)

abbrev B1 : Dev nD → Valuation τ sig (Elt F) := fun c => StableHlo.after hostOps0 (B0 m ρ c)

abbrev E1 : (c : Dev nD) → (b : Ref sig .tc) → Buf (Elt F) ((c : Thread nD τ).loc b) := fun c b => B1 m ρ c b

def B2 (c : Dev nD) : Valuation τ sig (Elt F) :=
  Pipeline.withArrays spec0 c (B1 m ρ c) fun w => (dat0 (E1 m ρ) c).arrAt w cfg0.N
theorem B2_arr (c : Dev nD) (w : Fin cfg0.W) :
    B2 m ρ c (Proc.devRef .tc (Pipeline.arrRef spec0 w)) = (dat0 (E1 m ρ) c).arrAt w cfg0.N := by
  unfold B2; exact Pipeline.withArrays_arr spec0 launch0.win.arr_inj c _ _ w
theorem B2_keep (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb

theorem B1_keep (c : Dev nD) (r : Ref sig .tc) (h : r ∉ (hostOps0_W : List (Ref sig .tc))) :
    B1 m ρ c (Proc.devRef .tc r) = B0 m ρ c (Proc.devRef .tc r) :=
  StableHlo.after_of_writes_sub hostOps0 _ hostOps0_writes h

abbrev B3 : Dev nD → Valuation τ sig (Elt F) := fun c => StableHlo.after hostOps1 (B2 m ρ c)

abbrev E3 : (c : Dev nD) → (b : Ref sig .tc) → Buf (Elt F) ((c : Thread nD τ).loc b) := fun c b => B3 m ρ c b

def B4 (c : Dev nD) : Valuation τ sig (Elt F) :=
  Pipeline.withArrays spec1 c (B3 m ρ c) fun w => (dat1 (E3 m ρ) c).arrAt w cfg1.N
theorem B4_arr (c : Dev nD) (w : Fin cfg1.W) :
    B4 m ρ c (Proc.devRef .tc (Pipeline.arrRef spec1 w)) = (dat1 (E3 m ρ) c).arrAt w cfg1.N := by
  unfold B4; exact Pipeline.withArrays_arr spec1 launch1.win.arr_inj c _ _ w
theorem B4_keep (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb

theorem B3_keep (c : Dev nD) (r : Ref sig .tc) (h : r ∉ (hostOps1_W : List (Ref sig .tc))) :
    B3 m ρ c (Proc.devRef .tc r) = B2 m ρ c (Proc.devRef .tc r) :=
  StableHlo.after_of_writes_sub hostOps1 _ hostOps1_writes h

abbrev B5 : Dev nD → Valuation τ sig (Elt F) := fun c => StableHlo.after hostOps2 (B4 m ρ c)

abbrev E5 : (c : Dev nD) → (b : Ref sig .tc) → Buf (Elt F) ((c : Thread nD τ).loc b) := fun c b => B5 m ρ c b

def B6 (c : Dev nD) : Valuation τ sig (Elt F) :=
  Pipeline.withArrays spec2 c (B5 m ρ c) fun w => (dat2 (E5 m ρ) c).arrAt w cfg2.N
theorem B6_arr (c : Dev nD) (w : Fin cfg2.W) :
    B6 m ρ c (Proc.devRef .tc (Pipeline.arrRef spec2 w)) = (dat2 (E5 m ρ) c).arrAt w cfg2.N := by
  unfold B6; exact Pipeline.withArrays_arr spec2 launch2.win.arr_inj c _ _ w
theorem B6_keep (c : Dev nD) (b : Ref sig .tc) (hb : ∀ w, Pipeline.arrRef spec2 w ≠ b) :
    B6 m ρ c (Proc.devRef .tc b) = B5 m ρ c (Proc.devRef .tc b) := by
  unfold B6; exact Pipeline.withArrays_of_ne spec2 c _ _ b hb

theorem B5_keep (c : Dev nD) (r : Ref sig .tc) (h : r ∉ (hostOps2_W : List (Ref sig .tc))) :
    B5 m ρ c (Proc.devRef .tc r) = B4 m ρ c (Proc.devRef .tc r) :=
  StableHlo.after_of_writes_sub hostOps2 _ hostOps2_writes h

abbrev B7 : Dev nD → Valuation τ sig (Elt F) := fun c => StableHlo.after hostOps3 (B6 m ρ c)

abbrev E7 : (c : Dev nD) → (b : Ref sig .tc) → Buf (Elt F) ((c : Thread nD τ).loc b) := fun c b => B7 m ρ c b

def B8 (c : Dev nD) : Valuation τ sig (Elt F) :=
  Pipeline.withArrays spec3 c (B7 m ρ c) fun w => (dat3 (E7 m ρ) c).arrAt w cfg3.N
theorem B8_arr (c : Dev nD) (w : Fin cfg3.W) :
    B8 m ρ c (Proc.devRef .tc (Pipeline.arrRef spec3 w)) = (dat3 (E7 m ρ) c).arrAt w cfg3.N := by
  unfold B8; exact Pipeline.withArrays_arr spec3 launch3.win.arr_inj c _ _ w
theorem B8_keep (c : Dev nD) (b : Ref sig .tc) (hb : ∀ w, Pipeline.arrRef spec3 w ≠ b) :
    B8 m ρ c (Proc.devRef .tc b) = B7 m ρ c (Proc.devRef .tc b) := by
  unfold B8; exact Pipeline.withArrays_of_ne spec3 c _ _ b hb

theorem B7_keep (c : Dev nD) (r : Ref sig .tc) (h : r ∉ (hostOps3_W : List (Ref sig .tc))) :
    B7 m ρ c (Proc.devRef .tc r) = B6 m ρ c (Proc.devRef .tc r) :=
  StableHlo.after_of_writes_sub hostOps3 _ hostOps3_writes h

abbrev B9 : Dev nD → Valuation τ sig (Elt F) := fun c => StableHlo.after hostOps4 (B8 m ρ c)

abbrev E9 : (c : Dev nD) → (b : Ref sig .tc) → Buf (Elt F) ((c : Thread nD τ).loc b) := fun c b => B9 m ρ c b

def B10 (c : Dev nD) : Valuation τ sig (Elt F) :=
  Pipeline.withArrays spec4 c (B9 m ρ c) fun w => (dat4 (E9 m ρ) c).arrAt w cfg4.N
theorem B10_arr (c : Dev nD) (w : Fin cfg4.W) :
    B10 m ρ c (Proc.devRef .tc (Pipeline.arrRef spec4 w)) = (dat4 (E9 m ρ) c).arrAt w cfg4.N := by
  unfold B10; exact Pipeline.withArrays_arr spec4 launch4.win.arr_inj c _ _ w
theorem B10_keep (c : Dev nD) (b : Ref sig .tc) (hb : ∀ w, Pipeline.arrRef spec4 w ≠ b) :
    B10 m ρ c (Proc.devRef .tc b) = B9 m ρ c (Proc.devRef .tc b) := by
  unfold B10; exact Pipeline.withArrays_of_ne spec4 c _ _ b hb

theorem B9_keep (c : Dev nD) (r : Ref sig .tc) (h : r ∉ (hostOps4_W : List (Ref sig .tc))) :
    B9 m ρ c (Proc.devRef .tc r) = B8 m ρ c (Proc.devRef .tc r) :=
  StableHlo.after_of_writes_sub hostOps4 _ hostOps4_writes h

abbrev B11 : Dev nD → Valuation τ sig (Elt F) := fun c => StableHlo.after hostOps5 (B10 m ρ c)

abbrev E11 : (c : Dev nD) → (b : Ref sig .tc) → Buf (Elt F) ((c : Thread nD τ).loc b) := fun c b => B11 m ρ c b

def B12 (c : Dev nD) : Valuation τ sig (Elt F) :=
  Pipeline.withArrays spec5 c (B11 m ρ c) fun w => (dat5 (E11 m ρ) c).arrAt w cfg5.N
theorem B12_arr (c : Dev nD) (w : Fin cfg5.W) :
    B12 m ρ c (Proc.devRef .tc (Pipeline.arrRef spec5 w)) = (dat5 (E11 m ρ) c).arrAt w cfg5.N := by
  unfold B12; exact Pipeline.withArrays_arr spec5 launch5.win.arr_inj c _ _ w
theorem B12_keep (c : Dev nD) (b : Ref sig .tc) (hb : ∀ w, Pipeline.arrRef spec5 w ≠ b) :
    B12 m ρ c (Proc.devRef .tc b) = B11 m ρ c (Proc.devRef .tc b) := by
  unfold B12; exact Pipeline.withArrays_of_ne spec5 c _ _ b hb

theorem B11_keep (c : Dev nD) (r : Ref sig .tc) (h : r ∉ (hostOps5_W : List (Ref sig .tc))) :
    B11 m ρ c (Proc.devRef .tc r) = B10 m ρ c (Proc.devRef .tc r) :=
  StableHlo.after_of_writes_sub hostOps5 _ hostOps5_writes h

abbrev B13 : Dev nD → Valuation τ sig (Elt F) := fun c => StableHlo.after hostOps6 (B12 m ρ c)

abbrev E13 : (c : Dev nD) → (b : Ref sig .tc) → Buf (Elt F) ((c : Thread nD τ).loc b) := fun c b => B13 m ρ c b

def B14 (c : Dev nD) : Valuation τ sig (Elt F) :=
  Pipeline.withArrays spec6 c (B13 m ρ c) fun w => (dat6 (E13 m ρ) c).arrAt w cfg6.N
theorem B14_arr (c : Dev nD) (w : Fin cfg6.W) :
    B14 m ρ c (Proc.devRef .tc (Pipeline.arrRef spec6 w)) = (dat6 (E13 m ρ) c).arrAt w cfg6.N := by
  unfold B14; exact Pipeline.withArrays_arr spec6 launch6.win.arr_inj c _ _ w
theorem B14_keep (c : Dev nD) (b : Ref sig .tc) (hb : ∀ w, Pipeline.arrRef spec6 w ≠ b) :
    B14 m ρ c (Proc.devRef .tc b) = B13 m ρ c (Proc.devRef .tc b) := by
  unfold B14; exact Pipeline.withArrays_of_ne spec6 c _ _ b hb

theorem B13_keep (c : Dev nD) (r : Ref sig .tc) (h : r ∉ (hostOps6_W : List (Ref sig .tc))) :
    B13 m ρ c (Proc.devRef .tc r) = B12 m ρ c (Proc.devRef .tc r) :=
  StableHlo.after_of_writes_sub hostOps6 _ hostOps6_writes h

abbrev B15 : Dev nD → Valuation τ sig (Elt F) := fun c => StableHlo.after hostOps7 (B14 m ρ c)

abbrev E15 : (c : Dev nD) → (b : Ref sig .tc) → Buf (Elt F) ((c : Thread nD τ).loc b) := fun c b => B15 m ρ c b

def B16 (c : Dev nD) : Valuation τ sig (Elt F) :=
  Pipeline.withArrays spec7 c (B15 m ρ c) fun w => (dat7 (E15 m ρ) c).arrAt w cfg7.N
theorem B16_arr (c : Dev nD) (w : Fin cfg7.W) :
    B16 m ρ c (Proc.devRef .tc (Pipeline.arrRef spec7 w)) = (dat7 (E15 m ρ) c).arrAt w cfg7.N := by
  unfold B16; exact Pipeline.withArrays_arr spec7 launch7.win.arr_inj c _ _ w
theorem B16_keep (c : Dev nD) (b : Ref sig .tc) (hb : ∀ w, Pipeline.arrRef spec7 w ≠ b) :
    B16 m ρ c (Proc.devRef .tc b) = B15 m ρ c (Proc.devRef .tc b) := by
  unfold B16; exact Pipeline.withArrays_of_ne spec7 c _ _ b hb

theorem B15_keep (c : Dev nD) (r : Ref sig .tc) (h : r ∉ (hostOps7_W : List (Ref sig .tc))) :
    B15 m ρ c (Proc.devRef .tc r) = B14 m ρ c (Proc.devRef .tc r) :=
  StableHlo.after_of_writes_sub hostOps7 _ hostOps7_writes h

abbrev B17 : Dev nD → Valuation τ sig (Elt F) := fun c => StableHlo.after hostOps8 (B16 m ρ c)
theorem B17_keep (c : Dev nD) (r : Ref sig .tc) (h : r ∉ (hostOps8_W : List (Ref sig .tc))) :
    B17 m ρ c (Proc.devRef .tc r) = B16 m ρ c (Proc.devRef .tc r) :=
  StableHlo.after_of_writes_sub hostOps8 _ hostOps8_writes h

/-- No operation after the first stretch writes `r`, and `r` is no array of regions 1 to 7. -/
abbrev Apart (r : Ref sig .tc) : Prop :=
  (r ∉ (hostOps1_W : List (Ref sig .tc))) ∧ (∀ w, Pipeline.arrRef spec1 w ≠ r) ∧ (r ∉ (hostOps2_W : List (Ref sig .tc))) ∧ (∀ w, Pipeline.arrRef spec2 w ≠ r) ∧ (r ∉ (hostOps3_W : List (Ref sig .tc))) ∧ (∀ w, Pipeline.arrRef spec3 w ≠ r) ∧ (r ∉ (hostOps4_W : List (Ref sig .tc))) ∧ (∀ w, Pipeline.arrRef spec4 w ≠ r) ∧ (r ∉ (hostOps5_W : List (Ref sig .tc))) ∧ (∀ w, Pipeline.arrRef spec5 w ≠ r) ∧ (r ∉ (hostOps6_W : List (Ref sig .tc))) ∧ (∀ w, Pipeline.arrRef spec6 w ≠ r) ∧ (r ∉ (hostOps7_W : List (Ref sig .tc))) ∧ (∀ w, Pipeline.arrRef spec7 w ≠ r) ∧ (r ∉ (hostOps8_W : List (Ref sig .tc)))
/-- Such a buffer is at the return what it was after region 0: each later step keeps it. -/
theorem B17_eq_B2 (c : Dev nD) (r : Ref sig .tc)
    (h : Apart r) :
    B17 m ρ c (Proc.devRef .tc r) = B2 m ρ c (Proc.devRef .tc r) := by
  obtain ⟨h1, g1, h2, g2, h3, g3, h4, g4, h5, g5, h6, g6, h7, g7, h8⟩ := h
  exact (B17_keep m ρ c r h8).trans <| (B16_keep m ρ c r g7).trans <| (B15_keep m ρ c r h7).trans <| (B14_keep m ρ c r g6).trans <| (B13_keep m ρ c r h6).trans <| (B12_keep m ρ c r g5).trans <| (B11_keep m ρ c r h5).trans <| (B10_keep m ρ c r g4).trans <| (B9_keep m ρ c r h4).trans <| (B8_keep m ρ c r g3).trans <| (B7_keep m ρ c r h3).trans <| (B6_keep m ρ c r g2).trans <| (B5_keep m ρ c r h2).trans <| (B4_keep m ρ c r g1).trans <| (B3_keep m ρ c r h1)
/-- If the first stretch and region 0 leave it alone too, it ends as launched. -/
theorem B17_untouched (c : Dev nD) (r : Ref sig .tc) (h0 : r ∉ (hostOps0_W : List (Ref sig .tc))) (g0 : ∀ w, Pipeline.arrRef spec0 w ≠ r)
    (h : Apart r) :
    B17 m ρ c (Proc.devRef .tc r) = m ((c : Thread nD τ).loc r) :=
  (B17_eq_B2 m ρ c r h).trans <| (B2_keep m ρ c r g0).trans <| (B1_keep m ρ c r h0).trans rfl
theorem B17_main_arg0 (c : Dev nD) : B17 m ρ c (Proc.devRef .tc main_arg0) = m ((c : Thread nD τ).loc main_arg0) :=
  (B17_eq_B2 m ρ c main_arg0 (by decide)).trans <|
  ((B2_arr m ρ c 0).trans (((dat0 (E1 m ρ) c).arrAt_in 0 rfl _).trans (dat0_A (E1 m ρ) c 0))).trans <|
  (B1_keep m ρ c main_arg0 (by decide)).trans rfl
theorem B17_main_arg1 (c : Dev nD) : B17 m ρ c (Proc.devRef .tc main_arg1) = m ((c : Thread nD τ).loc main_arg1) :=
  B17_untouched m ρ c main_arg1 (by decide) (by decide) (by decide)
theorem B17_main_arg2 (c : Dev nD) : B17 m ρ c (Proc.devRef .tc main_arg2) = m ((c : Thread nD τ).loc main_arg2) :=
  B17_untouched m ρ c main_arg2 (by decide) (by decide) (by decide)
theorem B17_main_arg3 (c : Dev nD) : B17 m ρ c (Proc.devRef .tc main_arg3) = m ((c : Thread nD τ).loc main_arg3) :=
  B17_untouched m ρ c main_arg3 (by decide) (by decide) (by decide)
theorem B17_main_arg4 (c : Dev nD) : B17 m ρ c (Proc.devRef .tc main_arg4) = m ((c : Thread nD τ).loc main_arg4) :=
  B17_untouched m ρ c main_arg4 (by decide) (by decide) (by decide)
theorem B17_main_arg5 (c : Dev nD) : B17 m ρ c (Proc.devRef .tc main_arg5) = m ((c : Thread nD τ).loc main_arg5) :=
  B17_untouched m ρ c main_arg5 (by decide) (by decide) (by decide)
theorem B17_main_arg6 (c : Dev nD) : B17 m ρ c (Proc.devRef .tc main_arg6) = m ((c : Thread nD τ).loc main_arg6) :=
  B17_untouched m ρ c main_arg6 (by decide) (by decide) (by decide)

abbrev tables : (p : Fin 8) → (pcfgs (F := F) p).Adm := fun p => (cfgs p).toPCfg_adm

def pdats : (p : Fin 8) → (c : Dev nD) → Dat τ (Elt F) Unit ℕ (UR sig nD τ) ℕ (Pipeline.pin (pcfgs (F := F)) tables p) c
  | ⟨0, _⟩ => fun c => dat0 (E1 m ρ) c
  | ⟨1, _⟩ => fun c => dat1 (E3 m ρ) c
  | ⟨2, _⟩ => fun c => dat2 (E5 m ρ) c
  | ⟨3, _⟩ => fun c => dat3 (E7 m ρ) c
  | ⟨4, _⟩ => fun c => dat4 (E9 m ρ) c
  | ⟨5, _⟩ => fun c => dat5 (E11 m ρ) c
  | ⟨6, _⟩ => fun c => dat6 (E13 m ρ) c
  | ⟨7, _⟩ => fun c => dat7 (E15 m ρ) c
abbrev noVariants : Variants := Variants.none

abbrev noPairs : GSem nD τ sig → Finset Unit := fun _ => ∅
abbrev noLevel : GSem nD τ sig → Unit → ℕ := fun _ _ => 0
local notation "𝕄" => MT nD τ sig Unit (Elt F) ℕ (UR sig nD τ) ℕ

abbrev Beside (c : Dev nD) : sProp 𝕄 := iprop((∃ r, prngReg c r) ∗ ∃ W, owes (c : Thread nD τ) (0 : CellTallies nD τ sig Unit) W)

abbrev hostItem (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noPairs noLevel :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Beside

theorem mem_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev AtReturn (c : Dev nD) : sProp 𝕄 := iprop(StableHlo.held (c : Thread nD τ) (Pipeline.ucRefs τ sig) (B17 m ρ c) ∗ ∃ r, prngReg c r)

end Cert.Kernel.Hand

end
-- ==== Proof.LibRegionItem.lean ====
import Idealize.ShloMosaic.Lib.Pipeline.FrameBody
import Idealize.ShloMosaic.Lib.Pipeline.RegionsLoop
import Idealize.ShloMosaic.Lib.Pipeline.FrameSuffix

noncomputable section

namespace Cert.Lib

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline

variable {nD : Nat} {τ : Topo} {sig : RefSig} {Val : EltTy → Type}
variable {U : Type} [URA U]
variable {Λ₀ : Idealize.SL.Sem.Labels} {P : Type} [Fintype P]
variable (pcs : P → PCfg sig Λ₀ Val) (a : (p : P) → (pcs p).Adm)
  (pdats : (p : P) → (c : Dev nD) → Dat τ Val Unit ℕ U ℕ (pin pcs a p) c)
  (defs₀ : Defs nD τ sig Val Λ₀) (𝒱₀ : Variants)
  (L : GSem nD τ sig → Finset Unit) (lv : GSem nD τ sig → Unit → ℕ)

local notation "𝕄" => MT nD τ sig Unit Val ℕ U ℕ

/-- One construction for every region: its arrays end at what the region wrote (`hout`), every other buffer keeps its contents (`hrest`). -/
def heldItem (p : P) (win₀ : WinFacts₀ (pcs p).spec) (hw : WinFacts (pin pcs a p).spec)
    (harr : ∀ w, ((pin pcs a p).spec w).arr.IsWhole)
    (block_pos : ∀ w : Fin (pin pcs a p).W, 0 < ((pin pcs a p).spec w).block.numel)
    (stage_whole : ∀ (w : Fin (pin pcs a p).W) (s : Fin ((pin pcs a p).spec w).nbuf), (((pin pcs a p).spec w).stage s).IsWhole)
    (hbody : ∀ c, BodyObligationLoose (pdats p c) defs₀ 𝒱₀ () Set.univ)
    (Bin Bout : Dev nD → Valuation τ sig Val)
    (hK : (pcs p).pre.K = 0) (hq : ∀ c w, (pdats p c).q w = fullShare)
    (hA : ∀ c w, (pdats p c).A w = Bin c (arrRef (pin pcs a p).spec w))
    (howed : ∀ c t, (pdats p c).owed t = 0)
    (hrec : ∀ c t, (pdats p c).recorded t = Set.univ)
    (hΦ : ∀ c t, (pdats p c).Φ t = ΦA (pin pcs a p).spec c)
    (hout : ∀ c w, Bout c (arrRef (pin pcs a p).spec w) = (pdats p c).arrAt w (pin pcs a p).N)
    (hrest : ∀ c (b : Ref sig .tc), (∀ w, arrRef (pin pcs a p).spec w ≠ b) → Bout c b = Bin c b) :
    RegionSeg pcs a pdats () defs₀ 𝒱₀ L lv p where
  win := win₀
  block_pos := block_pos
  stage_whole := stage_whole
  K := PEmpty
  osem k := k.elim
  ho := OwnSemFacts.none _
  hbody := hbody
  hwaits := hwaits_of_owed_zero pcs a pdats () L lv p howed
  pre c := iprop(StableHlo.held (c : Thread nD τ) (ucRefs τ sig) (Bin c) ∗ (∃ r, prngReg c r) ∗ ∃ W, owes (c : Thread nD τ) (0 : CellTallies nD τ sig Unit) W)
  post c := iprop(StableHlo.held (c : Thread nD τ) (ucRefs τ sig) (Bout c) ∗ (∃ r, prngReg c r) ∗ ∃ W, owes (c : Thread nD τ) (0 : CellTallies nD τ sig Unit) W)
  X c := iprop(∃ r, prngReg c r)
  Y c := iprop(∃ r, prngReg c r)
  Z c := unscopedRest (Ix := Unit) (Name := ℕ) (U := U) (Lvl := ℕ) (pin pcs a p).spec c (fun b => Bin c b)
  hentry c := by
    rw [ownSems0_none]
    have hsplit := arrays_of_unscopedBufs pcs a pdats hw harr c ((pdats p c).share_full (hq c)) (fun b => Bin c b) (hA c)
    rw [unscopedBufs_held] at hsplit
    iintro ⟨⟨Hub, Hp, HO⟩, -, -⟩
    ihave H := hsplit $$ Hub
    icases H with ⟨Ha, Hrest⟩
    imodintro
    isplitl [Ha]; · iexact Ha
    isplitr
    · haveI : IsEmpty (Fin (pcs p).pre.K) := hK ▸ Fin.isEmpty'
      unfold prefHeld; rw [Finset.univ_eq_empty, BI.bigSep_empty]; iempintro
    isplitl [HO]
    · unfold Dat.owesAt owesWithin Dat.bound; rw [howed, hrec]
      icases HO with ⟨%W, HO⟩; iexists W; isplitr; · ipureintro; exact fun _ _ => Or.inl trivial
      iexact HO
    isplitl [Hp]; · iexact Hp
    iexact Hrest
  hin c := by
    rw [hΦ]; unfold ΦA
    iintro ⟨Hp, -, Hr⟩
    isplitl [Hr]; · iexact Hr
    iexact Hp
  hout c := by
    rw [ownSems0_none, hΦ]; unfold ΦA
    iintro ⟨Hr, Hp⟩
    isplitl [Hp]; · iexact Hp
    isplitr; · iempintro
    iexact Hr
  hexit c := by
    have hjoin := unscopedBufs_of_arrays pcs a (Ix := Unit) (Name := ℕ) (U := U) (Lvl := ℕ) hw harr c pdats
      ((pdats p c).share_full (hq c)) (fun b => Bin c b) (fun b => Bout c b) ((pdats p c).arrAt · (pin pcs a p).N) (fun w => (hout c w).symm)
      fun b hb => hrest c b fun w e => hb (Finset.mem_image.mpr ⟨w, Finset.mem_univ _, e⟩)
    rw [unscopedBufs_held] at hjoin
    iintro ⟨Ha, HO, HY, Hrest⟩
    imodintro
    isplitl [Ha Hrest]
    · iapply hjoin; isplitl [Ha] <;> iassumption
    isplitl [HY]; · iexact HY
    unfold Dat.owesAt owesWithin; rw [howed]
    icases HO with ⟨%W, -, HO⟩; iexists W; iexact HO

end Cert.Lib

end
-- ==== Proof.K.Run.lean ====
import proofs.«400307_j79207786873545_3_alg».proof.Proof.K.Chain
import proofs.«400307_j79207786873545_3_alg».proof.Proof.LibRegionItem

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]
variable (m : (ℓ : Loc nD τ sig) → Buf (Elt F) ℓ) (ρ : Dev nD → PrngReg)
local notation "𝕄" => MT nD τ sig Unit (Elt F) ℕ (UR sig nD τ) ℕ

set_option backward.isDefEq.respectTransparency.types false in
def item0 : Pipeline.RegionSeg (pcfgs (F := F)) tables (pdats m ρ) () defs₀ noVariants noPairs noLevel 0 :=
  Cert.Lib.heldItem _ _ _ _ _ _ _ 0 launch0.win.to₀ launch0.win launch0.arr_whole launch0.block_pos launch0.stage_whole
    (fun c => (obligation0 (E1 m ρ) c).loose) (B1 m ρ) (B2 m ρ) rfl (fun _ _ => rfl) (fun _ _ => rfl) (fun _ _ => rfl)
    (fun _ _ => rfl) (fun _ _ => rfl) (B2_arr m ρ) (B2_keep m ρ)
set_option backward.isDefEq.respectTransparency.types false in
def item1 : Pipeline.RegionSeg (pcfgs (F := F)) tables (pdats m ρ) () defs₀ noVariants noPairs noLevel 1 :=
  Cert.Lib.heldItem _ _ _ _ _ _ _ 1 launch1.win.to₀ launch1.win launch1.arr_whole launch1.block_pos launch1.stage_whole
    (fun c => (obligation1 (E3 m ρ) c).loose) (B3 m ρ) (B4 m ρ) rfl (fun _ _ => rfl) (fun _ _ => rfl) (fun _ _ => rfl)
    (fun _ _ => rfl) (fun _ _ => rfl) (B4_arr m ρ) (B4_keep m ρ)
set_option backward.isDefEq.respectTransparency.types false in
def item2 : Pipeline.RegionSeg (pcfgs (F := F)) tables (pdats m ρ) () defs₀ noVariants noPairs noLevel 2 :=
  Cert.Lib.heldItem _ _ _ _ _ _ _ 2 launch2.win.to₀ launch2.win launch2.arr_whole launch2.block_pos launch2.stage_whole
    (fun c => (obligation2 (E5 m ρ) c).loose) (B5 m ρ) (B6 m ρ) rfl (fun _ _ => rfl) (fun _ _ => rfl) (fun _ _ => rfl)
    (fun _ _ => rfl) (fun _ _ => rfl) (B6_arr m ρ) (B6_keep m ρ)
set_option backward.isDefEq.respectTransparency.types false in
def item3 : Pipeline.RegionSeg (pcfgs (F := F)) tables (pdats m ρ) () defs₀ noVariants noPairs noLevel 3 :=
  Cert.Lib.heldItem _ _ _ _ _ _ _ 3 launch3.win.to₀ launch3.win launch3.arr_whole launch3.block_pos launch3.stage_whole
    (fun c => (obligation3 (E7 m ρ) c).loose) (B7 m ρ) (B8 m ρ) rfl (fun _ _ => rfl) (fun _ _ => rfl) (fun _ _ => rfl)
    (fun _ _ => rfl) (fun _ _ => rfl) (B8_arr m ρ) (B8_keep m ρ)
set_option backward.isDefEq.respectTransparency.types false in
def item4 : Pipeline.RegionSeg (pcfgs (F := F)) tables (pdats m ρ) () defs₀ noVariants noPairs noLevel 4 :=
  Cert.Lib.heldItem _ _ _ _ _ _ _ 4 launch4.win.to₀ launch4.win launch4.arr_whole launch4.block_pos launch4.stage_whole
    (fun c => (obligation4 (E9 m ρ) c).loose) (B9 m ρ) (B10 m ρ) rfl (fun _ _ => rfl) (fun _ _ => rfl) (fun _ _ => rfl)
    (fun _ _ => rfl) (fun _ _ => rfl) (B10_arr m ρ) (B10_keep m ρ)
set_option backward.isDefEq.respectTransparency.types false in
def item5 : Pipeline.RegionSeg (pcfgs (F := F)) tables (pdats m ρ) () defs₀ noVariants noPairs noLevel 5 :=
  Cert.Lib.heldItem _ _ _ _ _ _ _ 5 launch5.win.to₀ launch5.win launch5.arr_whole launch5.block_pos launch5.stage_whole
    (fun c => (obligation5 (E11 m ρ) c).loose) (B11 m ρ) (B12 m ρ) rfl (fun _ _ => rfl) (fun _ _ => rfl) (fun _ _ => rfl)
    (fun _ _ => rfl) (fun _ _ => rfl) (B12_arr m ρ) (B12_keep m ρ)
set_option backward.isDefEq.respectTransparency.types false in
def item6 : Pipeline.RegionSeg (pcfgs (F := F)) tables (pdats m ρ) () defs₀ noVariants noPairs noLevel 6 :=
  Cert.Lib.heldItem _ _ _ _ _ _ _ 6 launch6.win.to₀ launch6.win launch6.arr_whole launch6.block_pos launch6.stage_whole
    (fun c => (obligation6 (E13 m ρ) c).loose) (B13 m ρ) (B14 m ρ) rfl (fun _ _ => rfl) (fun _ _ => rfl) (fun _ _ => rfl)
    (fun _ _ => rfl) (fun _ _ => rfl) (B14_arr m ρ) (B14_keep m ρ)
set_option backward.isDefEq.respectTransparency.types false in
def item7 : Pipeline.RegionSeg (pcfgs (F := F)) tables (pdats m ρ) () defs₀ noVariants noPairs noLevel 7 :=
  Cert.Lib.heldItem _ _ _ _ _ _ _ 7 launch7.win.to₀ launch7.win launch7.arr_whole launch7.block_pos launch7.stage_whole
    (fun c => (obligation7 (E15 m ρ) c).loose) (B15 m ρ) (B16 m ρ) rfl (fun _ _ => rfl) (fun _ _ => rfl) (fun _ _ => rfl)
    (fun _ _ => rfl) (fun _ _ => rfl) (B16_arr m ρ) (B16_keep m ρ)

abbrev items : List (Pipeline.Seg (pcfgs (F := F)) tables (pdats m ρ) () defs₀ noVariants noPairs noLevel) :=
  [ .host (hostItem hostOps0 hostOps0_sub hostOps0_fresh (B0 m ρ)),
    .region (item0 m ρ),
    .host (hostItem hostOps1 hostOps1_sub hostOps1_fresh (B2 m ρ)),
    .region (item1 m ρ),
    .host (hostItem hostOps2 hostOps2_sub hostOps2_fresh (B4 m ρ)),
    .region (item2 m ρ),
    .host (hostItem hostOps3 hostOps3_sub hostOps3_fresh (B6 m ρ)),
    .region (item3 m ρ),
    .host (hostItem hostOps4 hostOps4_sub hostOps4_fresh (B8 m ρ)),
    .region (item4 m ρ),
    .host (hostItem hostOps5 hostOps5_sub hostOps5_fresh (B10 m ρ)),
    .region (item5 m ρ),
    .host (hostItem hostOps6 hostOps6_sub hostOps6_fresh (B12 m ρ)),
    .region (item6 m ρ),
    .host (hostItem hostOps7 hostOps7_sub hostOps7_fresh (B14 m ρ)),
    .region (item7 m ρ),
    .host (hostItem hostOps8 hostOps8_sub hostOps8_fresh (B16 m ρ)) ]

theorem main_items (c : Dev nD) : main (F := F) c = Pipeline.Seg.run (items m ρ) := (main_chain c).trans (by chain_rfl)

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = B17 m ρ c b) :=
  Pipeline.θ_run_regions_kit (pcfgs (F := F)) tables (pdats m ρ) () cellOf_inj emb₁ defs₀ noVariants noPairs noLevel m ρ main (items m ρ)
    (fun c Q => by rw [main_items m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ Beside c)) (Tₙ := AtReturn m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (B17 m ρ c) ∗ Beside c) ⊢ _
      iintro ⟨Hh, Hp, HO⟩
      isplitl [Hh Hp]
      · isplitl [Hh]; · iexact Hh
        iexact Hp
      iexact HO⟩)
    (hinit := by
      refine Pipeline.initEach noPairs noLevel fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B17 m ρ c b)
    (hfin := fun c s' => by
      iintro ⟨⟨Hh, -⟩, HSI⟩
      unfold StableHlo.held
      imodintro
      iapply (pointsTo_read_all (Pipeline.ucRefs τ sig) (fun b => (((c : Thread nD τ)).1, b)) (B17 m ρ c) s')
      isplitl [Hh] <;> iassumption)
    (hQ := fun s h c => h c)

theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_unscoped main_arg0 (by decide))).trans (B17_main_arg0 m ρ c),
     (h c _ (mem_unscoped main_arg1 (by decide))).trans (B17_main_arg1 m ρ c),
     (h c _ (mem_unscoped main_arg2 (by decide))).trans (B17_main_arg2 m ρ c),
     (h c _ (mem_unscoped main_arg3 (by decide))).trans (B17_main_arg3 m ρ c),
     (h c _ (mem_unscoped main_arg4 (by decide))).trans (B17_main_arg4 m ρ c),
     (h c _ (mem_unscoped main_arg5 (by decide))).trans (B17_main_arg5 m ρ c),
     (h c _ (mem_unscoped main_arg6 (by decide))).trans (B17_main_arg6 m ρ c)⟩)
    (run_all m ρ)

end Cert.Kernel.Hand

end
-- ==== Proof.KI.Reg0.lean ====
import proofs.«400307_j79207786873545_3_alg».proof.Proof.Gen.KernelIdeal.Launch
import proofs.«400307_j79207786873545_3_alg».proof.Proof.Gen.KernelIdeal.Skeleton
import proofs.«400307_j79207786873545_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rx0 : Rect S10000x32 := Rect.unit (s := S10000x32) ![0, 0] S10000x32.size inb_S10000x32_S10000x32_0_0
abbrev rw0 : Rect S32x68 := Rect.unit (s := S32x68) ![0, 0] S32x68.size inb_S32x68_S32x68_0_0
abbrev ro0 : Rect S10000x68 := Rect.unit (s := S10000x68) ![0, 0] S10000x68.size inb_S10000x68_S10000x68_0_0

def out0_2 (x0 : Vec F S10000x32 .f32) (x1 : Vec F S32x68 .f32) : Vec F S10000x68 .f32 :=
  View.canon [⟨ro0, k0_pay1 (View.ld x0 rx0) (View.ld x1 rw0)⟩]

theorem cover0_2 (p0 : Vec F S10000x68 .f32) (y : S10000x68.Idx) :
    ∃ pc ∈ ([⟨ro0, p0⟩] : List (View.Piece (Elt F) S10000x68 .f32)), y ∈ pc.1.set :=
  View.cover_of_tiled [⟨ro0, p0⟩] S10000x68.size (by rfl) y

set_option maxHeartbeats 1000000 in

theorem sound_kernel0 (c : Dev nD) (E : Set ℕ) (i : grid0.Coords)
    (arg1 : Memref sig .tc .vmem S10000x32 .f32) (harg1 : arg1.IsWhole)
    (arg2 : Memref sig .tc .vmem S32x68 .f32) (harg2 : arg2.IsWhole)
    (arg3 : Memref sig .tc .vmem S10000x68 .f32) (harg3 : arg3.IsWhole)
    (x0 : Vec F S10000x32 .f32) (x1 : Vec F S32x68 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem dat0_A (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d

theorem sound_body0 (c : Dev nD) (t : Fin cfg0.N) :
    iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))
      ⊢ wp frame (wpE (defs₀ (F := F)) Variants.none c none) Set.univ (bodyAt0 t) fun _ =>
        iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)) := by
  unfold bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem obligation0 (c : Dev nD) : BodyObligation (dat0 (F := F) V c) (defs₀ (F := F)) Variants.none () Set.univ := fun t => by
  rw [bigSep_W0, bigSep_W0]
  exact sound_body0 V c t

end Cert.KernelIdeal.Hand
-- ==== Proof.KI.Reg1.lean ====
import proofs.«400307_j79207786873545_3_alg».proof.Proof.Gen.KernelIdeal.Launch
import proofs.«400307_j79207786873545_3_alg».proof.Proof.Gen.KernelIdeal.Skeleton
import proofs.«400307_j79207786873545_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rect1 : Rect S12500x128 := Rect.unit (s := S12500x128) ![0, 0] S12500x128.size inb_S12500x128_S12500x128_0_0

def out1_2 (x0 : Vec F S12500x128 .f32) (x1 : Vec F S12500x128 .f32) : Vec F S12500x128 .f32 :=
  View.canon [⟨rect1, k1_pay1 (View.ld x0 rect1) (View.ld x1 rect1)⟩]

theorem cover1_2 (p0 : Vec F S12500x128 .f32) (y : S12500x128.Idx) :
    ∃ pc ∈ ([⟨rect1, p0⟩] : List (View.Piece (Elt F) S12500x128 .f32)), y ∈ pc.1.set :=
  View.cover_of_tiled [⟨rect1, p0⟩] S12500x128.size (by rfl) y

set_option maxHeartbeats 1000000 in

theorem sound_kernel1 (c : Dev nD) (E : Set ℕ) (i : grid1.Coords)
    (arg0 : Memref sig .tc .vmem S12500x128 .f32) (harg0 : arg0.IsWhole)
    (arg1 : Memref sig .tc .vmem S12500x128 .f32) (harg1 : arg1.IsWhole)
    (arg2 : Memref sig .tc .vmem S12500x128 .f32) (harg2 : arg2.IsWhole)
    (x0 : Vec F S12500x128 .f32) (x1 : Vec F S12500x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out1_2 x0 x1)) -∗ K ⟨⟩))
      ⊢ wp frame (wpE (defs₀ (F := F)) Variants.none c none) E (cc1__lrelu_kernel i arg0 harg0 arg1 harg1 arg2 harg2) K := by
  simp only [cc1__lrelu_kernel_eq_skeleton]; unfold cc1__lrelu_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem dat1_A (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d

theorem sound_body1 (c : Dev nD) (t : Fin cfg1.N) :
    iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))
      ⊢ wp frame (wpE (defs₀ (F := F)) Variants.none c none) Set.univ (bodyAt1 t) fun _ =>
        iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)) := by
  unfold bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2.lean ====
import proofs.«400307_j79207786873545_3_alg».proof.Proof.Gen.KernelIdeal.Launch
import proofs.«400307_j79207786873545_3_alg».proof.Proof.Gen.KernelIdeal.Skeleton
import proofs.«400307_j79207786873545_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rect2 : Rect S12500x128 := Rect.unit (s := S12500x128) ![0, 0] S12500x128.size inb_S12500x128_S12500x128_0_0

abbrev cell2 : Rect S1x1 := Rect.unit (s := S1x1) ![0, 0] S1x1.size inb_S1x1_S1x1_0_0

def out2_2 (x0 : Vec F S12500x128 .f32) (x1 : Vec F S1x1 .f32) : Vec F S12500x128 .f32 :=
  View.canon [⟨rect2, k2_pay1 (View.ld x1 cell2) (View.ld x0 rect2)⟩]

theorem cover2_2 (p0 : Vec F S12500x128 .f32) (y : S12500x128.Idx) :
    ∃ pc ∈ ([⟨rect2, p0⟩] : List (View.Piece (Elt F) S12500x128 .f32)), y ∈ pc.1.set :=
  View.cover_of_tiled [⟨rect2, p0⟩] S12500x128.size (by rfl) y

set_option maxHeartbeats 1000000 in

theorem sound_kernel2 (c : Dev nD) (E : Set ℕ) (i : grid2.Coords)
    (arg0 : Memref sig .tc .vmem S12500x128 .f32) (harg0 : arg0.IsWhole)
    (arg1 : Memref sig .tc .vmem S1x1 .f32) (harg1 : arg1.IsWhole)
    (arg2 : Memref sig .tc .vmem S12500x128 .f32) (harg2 : arg2.IsWhole)
    (x0 : Vec F S12500x128 .f32) (x1 : Vec F S1x1 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2_2 x0 x1)) -∗ K ⟨⟩))
      ⊢ wp frame (wpE (defs₀ (F := F)) Variants.none c none) E (cc2__exp_kernel i arg0 harg0 arg1 harg1 arg2 harg2) K := by
  simp only [cc2__exp_kernel_eq_skeleton]; unfold cc2__exp_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem dat2_A (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d

theorem sound_body2 (c : Dev nD) (t : Fin cfg2.N) :
    iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))
      ⊢ wp frame (wpE (defs₀ (F := F)) Variants.none c none) Set.univ (bodyAt2 t) fun _ =>
        iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)) := by
  unfold bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Reg3.lean ====
import proofs.«400307_j79207786873545_3_alg».proof.Proof.Gen.KernelIdeal.Launch
import proofs.«400307_j79207786873545_3_alg».proof.Proof.Gen.KernelIdeal.Skeleton
import proofs.«400307_j79207786873545_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S8000x1 := Rect.unit (s := S8000x1) ![0, 0] S8000x1.size inb_S8000x1_S8000x1_0_0

abbrev r3_1 : Rect S8000x32 := Rect.unit (s := S8000x32) ![0, 0] S8000x32.size inb_S8000x32_S8000x32_0_0

def out3_3 (x0 : Vec F S8000x1 .f32) (x1 : Vec F S8000x1 .f32) (x2 : Vec F S8000x32 .f32) : Vec F S8000x32 .f32 :=
  View.canon [⟨r3_1, k3_pay1 (View.ld x0 r3_0) (View.ld x1 r3_0) (View.ld x2 r3_1)⟩]

theorem cover3_3 (p0 : Vec F S8000x32 .f32) (y : S8000x32.Idx) :
    ∃ pc ∈ ([⟨r3_1, p0⟩] : List (View.Piece (Elt F) S8000x32 .f32)), y ∈ pc.1.set :=
  View.cover_of_tiled [⟨r3_1, p0⟩] S8000x32.size (by rfl) y

set_option maxHeartbeats 1000000 in

theorem sound_kernel3 (c : Dev nD) (E : Set ℕ) (i : grid3.Coords)
    (arg1 : Memref sig .tc .vmem S8000x1 .f32) (harg1 : arg1.IsWhole) (arg2 : Memref sig .tc .vmem S8000x1 .f32) (harg2 : arg2.IsWhole)
    (arg3 : Memref sig .tc .vmem S8000x32 .f32) (harg3 : arg3.IsWhole) (arg4 : Memref sig .tc .vmem S8000x32 .f32) (harg4 : arg4.IsWhole)
    (x0 : Vec F S8000x1 .f32) (x1 : Vec F S8000x1 .f32) (x2 : Vec F S8000x32 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__weight_kernel i arg1 harg1 arg2 harg2 arg3 harg3 arg4 harg4) K := by
  simp only [cc3__weight_kernel_eq_skeleton]; unfold cc3__weight_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem dat3_A (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  (dat3 V c).before_in_eq_fetched 0 rfl (fun _ => rfl) (fun _ _ _ => rfl) (fun _ => rfl) t d
theorem before3_1 (c : Dev nD) (t : Fin cfg3.N) (d) : (dat3 V c).before 1 t d = iblk3 V c 1 t :=
  (dat3 V c).before_in_eq_fetched 1 rfl (fun _ => rfl) (fun _ _ _ => rfl) (fun _ => rfl) t d
theorem before3_2 (c : Dev nD) (t : Fin cfg3.N) (d) : (dat3 V c).before 2 t d = iblk3 V c 2 t :=
  (dat3 V c).before_in_eq_fetched 2 rfl (fun _ => rfl) (fun _ _ _ => rfl) (fun _ => rfl) t d

theorem sound_body3 (c : Dev nD) (t : Fin cfg3.N) :
    iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))
      ⊢ wp frame (wpE (defs₀ (F := F)) Variants.none c none) Set.univ (bodyAt3 t) fun _ =>
        iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)) := by
  unfold bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Reg4.lean ====
import proofs.«400307_j79207786873545_3_alg».proof.Proof.Gen.KernelIdeal.Launch
import proofs.«400307_j79207786873545_3_alg».proof.Proof.Gen.KernelIdeal.Skeleton
import proofs.«400307_j79207786873545_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev rect4 : Rect S12500x128 := Rect.unit (s := S12500x128) ![0, 0] S12500x128.size inb_S12500x128_S12500x128_0_0

def out4_2 (x0 : Vec F S12500x128 .f32) (x1 : Vec F S12500x128 .f32) : Vec F S12500x128 .f32 :=
  View.canon [⟨rect4, k4_pay1 (View.ld x0 rect4) (View.ld x1 rect4)⟩]

theorem cover4_2 (p0 : Vec F S12500x128 .f32) (y : S12500x128.Idx) :
    ∃ pc ∈ ([⟨rect4, p0⟩] : List (View.Piece (Elt F) S12500x128 .f32)), y ∈ pc.1.set :=
  View.cover_of_tiled [⟨rect4, p0⟩] S12500x128.size (by rfl) y

set_option maxHeartbeats 1000000 in

theorem sound_kernel4 (c : Dev nD) (E : Set ℕ) (i : grid4.Coords)
    (arg0 : Memref sig .tc .vmem S12500x128 .f32) (harg0 : arg0.IsWhole)
    (arg1 : Memref sig .tc .vmem S12500x128 .f32) (harg1 : arg1.IsWhole)
    (arg2 : Memref sig .tc .vmem S12500x128 .f32) (harg2 : arg2.IsWhole)
    (x0 : Vec F S12500x128 .f32) (x1 : Vec F S12500x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out4_2 x0 x1)) -∗ K ⟨⟩))
      ⊢ wp frame (wpE (defs₀ (F := F)) Variants.none c none) E (cc4__lrelu_kernel i arg0 harg0 arg1 harg1 arg2 harg2) K := by
  simp only [cc4__lrelu_kernel_eq_skeleton]; unfold cc4__lrelu_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem dat4_A (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

theorem before4_0 (c : Dev nD) (t : Fin cfg4.N) (d) : (dat4 V c).before 0 t d = iblk4 V c 0 t :=
  (dat4 V c).before_in_eq_fetched 0 rfl (fun _ => rfl) (fun _ _ _ => rfl) (fun _ => rfl) t d
theorem before4_1 (c : Dev nD) (t : Fin cfg4.N) (d) : (dat4 V c).before 1 t d = iblk4 V c 1 t :=
  (dat4 V c).before_in_eq_fetched 1 rfl (fun _ => rfl) (fun _ _ _ => rfl) (fun _ => rfl) t d

theorem sound_body4 (c : Dev nD) (t : Fin cfg4.N) :
    iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))
      ⊢ wp frame (wpE (defs₀ (F := F)) Variants.none c none) Set.univ (bodyAt4 t) fun _ =>
        iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)) := by
  unfold bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Reg5.lean ====
import proofs.«400307_j79207786873545_3_alg».proof.Proof.Gen.KernelIdeal.Launch
import proofs.«400307_j79207786873545_3_alg».proof.Proof.Gen.KernelIdeal.Skeleton
import proofs.«400307_j79207786873545_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev rect5 : Rect S12500x128 := Rect.unit (s := S12500x128) ![0, 0] S12500x128.size inb_S12500x128_S12500x128_0_0

abbrev cell5 : Rect S1x1 := Rect.unit (s := S1x1) ![0, 0] S1x1.size inb_S1x1_S1x1_0_0

def out5_2 (x0 : Vec F S12500x128 .f32) (x1 : Vec F S1x1 .f32) : Vec F S12500x128 .f32 :=
  View.canon [⟨rect5, k5_pay1 (View.ld x1 cell5) (View.ld x0 rect5)⟩]

theorem cover5_2 (p0 : Vec F S12500x128 .f32) (y : S12500x128.Idx) :
    ∃ pc ∈ ([⟨rect5, p0⟩] : List (View.Piece (Elt F) S12500x128 .f32)), y ∈ pc.1.set :=
  View.cover_of_tiled [⟨rect5, p0⟩] S12500x128.size (by rfl) y

set_option maxHeartbeats 1000000 in

theorem sound_kernel5 (c : Dev nD) (E : Set ℕ) (i : grid5.Coords)
    (arg0 : Memref sig .tc .vmem S12500x128 .f32) (harg0 : arg0.IsWhole)
    (arg1 : Memref sig .tc .vmem S1x1 .f32) (harg1 : arg1.IsWhole)
    (arg2 : Memref sig .tc .vmem S12500x128 .f32) (harg2 : arg2.IsWhole)
    (x0 : Vec F S12500x128 .f32) (x1 : Vec F S1x1 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out5_2 x0 x1)) -∗ K ⟨⟩))
      ⊢ wp frame (wpE (defs₀ (F := F)) Variants.none c none) E (cc5__exp_kernel i arg0 harg0 arg1 harg1 arg2 harg2) K := by
  simp only [cc5__exp_kernel_eq_skeleton]; unfold cc5__exp_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

theorem dat5_A (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]

theorem before5_0 (c : Dev nD) (t : Fin cfg5.N) (d) : (dat5 V c).before 0 t d = iblk5 V c 0 t :=
  (dat5 V c).before_in_eq_fetched 0 rfl (fun _ => rfl) (fun _ _ _ => rfl) (fun _ => rfl) t d
theorem before5_1 (c : Dev nD) (t : Fin cfg5.N) (d) : (dat5 V c).before 1 t d = iblk5 V c 1 t :=
  (dat5 V c).before_in_eq_fetched 1 rfl (fun _ => rfl) (fun _ _ _ => rfl) (fun _ => rfl) t d

theorem sound_body5 (c : Dev nD) (t : Fin cfg5.N) :
    iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))
      ⊢ wp frame (wpE (defs₀ (F := F)) Variants.none c none) Set.univ (bodyAt5 t) fun _ =>
        iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)) := by
  unfold bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.Reg6.lean ====
import proofs.«400307_j79207786873545_3_alg».proof.Proof.Gen.KernelIdeal.Launch
import proofs.«400307_j79207786873545_3_alg».proof.Proof.Gen.KernelIdeal.Skeleton
import proofs.«400307_j79207786873545_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_0 : Rect S8000x1 := Rect.unit (s := S8000x1) ![0, 0] S8000x1.size inb_S8000x1_S8000x1_0_0

abbrev r6_1 : Rect S8000x32 := Rect.unit (s := S8000x32) ![0, 0] S8000x32.size inb_S8000x32_S8000x32_0_0

def out6_3 (x0 : Vec F S8000x1 .f32) (x1 : Vec F S8000x1 .f32) (x2 : Vec F S8000x32 .f32) : Vec F S8000x32 .f32 :=
  View.canon [⟨r6_1, k6_pay1 (View.ld x0 r6_0) (View.ld x1 r6_0) (View.ld x2 r6_1)⟩]

theorem cover6_3 (p0 : Vec F S8000x32 .f32) (y : S8000x32.Idx) :
    ∃ pc ∈ ([⟨r6_1, p0⟩] : List (View.Piece (Elt F) S8000x32 .f32)), y ∈ pc.1.set :=
  View.cover_of_tiled [⟨r6_1, p0⟩] S8000x32.size (by rfl) y

set_option maxHeartbeats 1000000 in

theorem sound_kernel6 (c : Dev nD) (E : Set ℕ) (i : grid6.Coords)
    (arg1 : Memref sig .tc .vmem S8000x1 .f32) (harg1 : arg1.IsWhole) (arg2 : Memref sig .tc .vmem S8000x1 .f32) (harg2 : arg2.IsWhole)
    (arg3 : Memref sig .tc .vmem S8000x32 .f32) (harg3 : arg3.IsWhole) (arg4 : Memref sig .tc .vmem S8000x32 .f32) (harg4 : arg4.IsWhole)
    (x0 : Vec F S8000x1 .f32) (x1 : Vec F S8000x1 .f32) (x2 : Vec F S8000x32 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out6_3 x0 x1 x2)) -∗ K ⟨⟩))
      ⊢ wp frame (wpE (defs₀ (F := F)) Variants.none c none) E (cc6__weight_kernel i arg1 harg1 arg2 harg2 arg3 harg3 arg4 harg4) K := by
  simp only [cc6__weight_kernel_eq_skeleton]; unfold cc6__weight_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

theorem dat6_A (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) :
    (dat6 V c).after 3 t = out6_3 (iblk6 V c 0 t) (iblk6 V c 1 t) (iblk6 V c 2 t) := by dsimp only [dat6]

theorem before6_0 (c : Dev nD) (t : Fin cfg6.N) (d) : (dat6 V c).before 0 t d = iblk6 V c 0 t :=
  (dat6 V c).before_in_eq_fetched 0 rfl (fun _ => rfl) (fun _ _ _ => rfl) (fun _ => rfl) t d
theorem before6_1 (c : Dev nD) (t : Fin cfg6.N) (d) : (dat6 V c).before 1 t d = iblk6 V c 1 t :=
  (dat6 V c).before_in_eq_fetched 1 rfl (fun _ => rfl) (fun _ _ _ => rfl) (fun _ => rfl) t d
theorem before6_2 (c : Dev nD) (t : Fin cfg6.N) (d) : (dat6 V c).before 2 t d = iblk6 V c 2 t :=
  (dat6 V c).before_in_eq_fetched 2 rfl (fun _ => rfl) (fun _ _ _ => rfl) (fun _ => rfl) t d

theorem sound_body6 (c : Dev nD) (t : Fin cfg6.N) :
    iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))
      ⊢ wp frame (wpE (defs₀ (F := F)) Variants.none c none) Set.univ (bodyAt6 t) fun _ =>
        iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)) := by
  unfold bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ _ _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.KI.Reg7.lean ====
import proofs.«400307_j79207786873545_3_alg».proof.Proof.Gen.KernelIdeal.Launch
import proofs.«400307_j79207786873545_3_alg».proof.Proof.Gen.KernelIdeal.Skeleton
import proofs.«400307_j79207786873545_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev r7 : Rect S5000x128 := Rect.unit (s := S5000x128) ![0, 0] S5000x128.size inb_S5000x128_S5000x128_0_0

def out7_2 (x0 x1 : Vec F S5000x128 .f32) : Vec F S5000x128 .f32 :=
  View.canon [⟨r7, k7_pay1 (View.ld x0 r7) (View.ld x1 r7)⟩]

theorem cover7_2 (p0 : Vec F S5000x128 .f32) (y : S5000x128.Idx) :
    ∃ pc ∈ ([⟨r7, p0⟩] : List (View.Piece (Elt F) S5000x128 .f32)), y ∈ pc.1.set :=
  View.cover_of_tiled [⟨r7, p0⟩] S5000x128.size (by rfl) y

set_option maxHeartbeats 1000000 in

theorem sound_kernel7 (c : Dev nD) (E : Set ℕ) (i : grid7.Coords)
    (arg1 : Memref sig .tc .vmem S5000x128 .f32) (harg1 : arg1.IsWhole)
    (arg2 : Memref sig .tc .vmem S5000x128 .f32) (harg2 : arg2.IsWhole)
    (arg3 : Memref sig .tc .vmem S5000x128 .f32) (harg3 : arg3.IsWhole)
    (x0 x1 : Vec F S5000x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out7_2 x0 x1)) -∗ K ⟨⟩))
      ⊢ wp frame (wpE (defs₀ (F := F)) Variants.none c none) E (cc7__elu_add_kernel i arg1 harg1 arg2 harg2 arg3 harg3) K := by
  simp only [cc7__elu_add_kernel_eq_skeleton]; unfold cc7__elu_add_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover7_2 _)

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => out7_2 (iblk7 V c 0 t) (iblk7 V c 1 t)
  Φ _ := Pipeline.ΦA spec7 c
  q _ := fullShare
  owed _ := 0

theorem dat7_A (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) :
    (dat7 V c).after 2 t = out7_2 (iblk7 V c 0 t) (iblk7 V c 1 t) := by dsimp only [dat7]

theorem before7_0 (c : Dev nD) (t : Fin cfg7.N) (d) : (dat7 V c).before 0 t d = iblk7 V c 0 t :=
  (dat7 V c).before_in_eq_fetched 0 rfl (fun _ => rfl) (fun _ _ _ => rfl) (fun _ => rfl) t d
theorem before7_1 (c : Dev nD) (t : Fin cfg7.N) (d) : (dat7 V c).before 1 t d = iblk7 V c 1 t :=
  (dat7 V c).before_in_eq_fetched 1 rfl (fun _ => rfl) (fun _ _ _ => rfl) (fun _ => rfl) t d

theorem sound_body7 (c : Dev nD) (t : Fin cfg7.N) :
    iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d)))
      ⊢ wp frame (wpE (defs₀ (F := F)) Variants.none c none) Set.univ (bodyAt7 t) fun _ =>
        iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)) := by
  unfold bodyAt7
  simp only [before7_0, before7_1]
  rw [show (dat7 V c).Φ t.succ = (dat7 V c).Φ t.castSucc from rfl,
    show (dat7 V c).owesAt () t.succ = (dat7 V c).owesAt () t.castSucc from rfl,
    after7_0, after7_1, after7_2]
  iintro ⟨HΦ, Ho, ⟨%d0, H0⟩, ⟨%d1, H1⟩, ⟨%d2, H2⟩⟩
  iapply (sound_kernel7 c Set.univ _ _ _ _ _ _ _ (iblk7 V c 0 t) (iblk7 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem obligation7 (c : Dev nD) : BodyObligation (dat7 (F := F) V c) (defs₀ (F := F)) Variants.none () Set.univ := fun t => by
  rw [bigSep_W7, bigSep_W7]
  exact sound_body7 V c t

end Cert.KernelIdeal.Hand

end
-- ==== Proof.KI.Chain.lean ====
import proofs.«400307_j79207786873545_3_alg».proof.Proof.KI.Reg0
import proofs.«400307_j79207786873545_3_alg».proof.Proof.KI.Reg1
import proofs.«400307_j79207786873545_3_alg».proof.Proof.KI.Reg2
import proofs.«400307_j79207786873545_3_alg».proof.Proof.KI.Reg3
import proofs.«400307_j79207786873545_3_alg».proof.Proof.KI.Reg4
import proofs.«400307_j79207786873545_3_alg».proof.Proof.KI.Reg5
import proofs.«400307_j79207786873545_3_alg».proof.Proof.KI.Reg6
import proofs.«400307_j79207786873545_3_alg».proof.Proof.KI.Reg7
import proofs.«400307_j79207786873545_3_alg».proof.Proof.Gen.KernelIdeal.Regions
import Idealize.ShloMosaic.Lib.Pipeline.FrameBody
import Idealize.ShloMosaic.Lib.Pipeline.RegionsLoop
import Idealize.ShloMosaic.Lib.Pipeline.FrameSuffix

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]
variable (m : (ℓ : Loc nD τ sig) → Buf (Elt F) ℓ) (ρ : Dev nD → PrngReg)

abbrev B0 : Dev nD → Valuation τ sig (Elt F) := fun c b => (s₀ m ρ).mem ((c : Dev nD), b)

abbrev B1 : Dev nD → Valuation τ sig (Elt F) := fun c => StableHlo.after hostOps0 (B0 m ρ c)

abbrev E1 : (c : Dev nD) → (b : Ref sig .tc) → Buf (Elt F) ((c : Thread nD τ).loc b) := fun c b => B1 m ρ c b

def B2 (c : Dev nD) : Valuation τ sig (Elt F) :=
  Pipeline.withArrays spec0 c (B1 m ρ c) fun w => (dat0 (E1 m ρ) c).arrAt w cfg0.N
theorem B2_arr (c : Dev nD) (w : Fin cfg0.W) :
    B2 m ρ c (Proc.devRef .tc (Pipeline.arrRef spec0 w)) = (dat0 (E1 m ρ) c).arrAt w cfg0.N := by
  unfold B2; exact Pipeline.withArrays_arr spec0 launch0.win.arr_inj c _ _ w
theorem B2_keep (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb

theorem B1_keep (c : Dev nD) (r : Ref sig .tc) (h : r ∉ (hostOps0_W : List (Ref sig .tc))) :
    B1 m ρ c (Proc.devRef .tc r) = B0 m ρ c (Proc.devRef .tc r) :=
  StableHlo.after_of_writes_sub hostOps0 _ hostOps0_writes h

abbrev B3 : Dev nD → Valuation τ sig (Elt F) := fun c => StableHlo.after hostOps1 (B2 m ρ c)

abbrev E3 : (c : Dev nD) → (b : Ref sig .tc) → Buf (Elt F) ((c : Thread nD τ).loc b) := fun c b => B3 m ρ c b

def B4 (c : Dev nD) : Valuation τ sig (Elt F) :=
  Pipeline.withArrays spec1 c (B3 m ρ c) fun w => (dat1 (E3 m ρ) c).arrAt w cfg1.N
theorem B4_arr (c : Dev nD) (w : Fin cfg1.W) :
    B4 m ρ c (Proc.devRef .tc (Pipeline.arrRef spec1 w)) = (dat1 (E3 m ρ) c).arrAt w cfg1.N := by
  unfold B4; exact Pipeline.withArrays_arr spec1 launch1.win.arr_inj c _ _ w
theorem B4_keep (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb

theorem B3_keep (c : Dev nD) (r : Ref sig .tc) (h : r ∉ (hostOps1_W : List (Ref sig .tc))) :
    B3 m ρ c (Proc.devRef .tc r) = B2 m ρ c (Proc.devRef .tc r) :=
  StableHlo.after_of_writes_sub hostOps1 _ hostOps1_writes h

abbrev B5 : Dev nD → Valuation τ sig (Elt F) := fun c => StableHlo.after hostOps2 (B4 m ρ c)

abbrev E5 : (c : Dev nD) → (b : Ref sig .tc) → Buf (Elt F) ((c : Thread nD τ).loc b) := fun c b => B5 m ρ c b

def B6 (c : Dev nD) : Valuation τ sig (Elt F) :=
  Pipeline.withArrays spec2 c (B5 m ρ c) fun w => (dat2 (E5 m ρ) c).arrAt w cfg2.N
theorem B6_arr (c : Dev nD) (w : Fin cfg2.W) :
    B6 m ρ c (Proc.devRef .tc (Pipeline.arrRef spec2 w)) = (dat2 (E5 m ρ) c).arrAt w cfg2.N := by
  unfold B6; exact Pipeline.withArrays_arr spec2 launch2.win.arr_inj c _ _ w
theorem B6_keep (c : Dev nD) (b : Ref sig .tc) (hb : ∀ w, Pipeline.arrRef spec2 w ≠ b) :
    B6 m ρ c (Proc.devRef .tc b) = B5 m ρ c (Proc.devRef .tc b) := by
  unfold B6; exact Pipeline.withArrays_of_ne spec2 c _ _ b hb

theorem B5_keep (c : Dev nD) (r : Ref sig .tc) (h : r ∉ (hostOps2_W : List (Ref sig .tc))) :
    B5 m ρ c (Proc.devRef .tc r) = B4 m ρ c (Proc.devRef .tc r) :=
  StableHlo.after_of_writes_sub hostOps2 _ hostOps2_writes h

abbrev B7 : Dev nD → Valuation τ sig (Elt F) := fun c => StableHlo.after hostOps3 (B6 m ρ c)

abbrev E7 : (c : Dev nD) → (b : Ref sig .tc) → Buf (Elt F) ((c : Thread nD τ).loc b) := fun c b => B7 m ρ c b

def B8 (c : Dev nD) : Valuation τ sig (Elt F) :=
  Pipeline.withArrays spec3 c (B7 m ρ c) fun w => (dat3 (E7 m ρ) c).arrAt w cfg3.N
theorem B8_arr (c : Dev nD) (w : Fin cfg3.W) :
    B8 m ρ c (Proc.devRef .tc (Pipeline.arrRef spec3 w)) = (dat3 (E7 m ρ) c).arrAt w cfg3.N := by
  unfold B8; exact Pipeline.withArrays_arr spec3 launch3.win.arr_inj c _ _ w
theorem B8_keep (c : Dev nD) (b : Ref sig .tc) (hb : ∀ w, Pipeline.arrRef spec3 w ≠ b) :
    B8 m ρ c (Proc.devRef .tc b) = B7 m ρ c (Proc.devRef .tc b) := by
  unfold B8; exact Pipeline.withArrays_of_ne spec3 c _ _ b hb

theorem B7_keep (c : Dev nD) (r : Ref sig .tc) (h : r ∉ (hostOps3_W : List (Ref sig .tc))) :
    B7 m ρ c (Proc.devRef .tc r) = B6 m ρ c (Proc.devRef .tc r) :=
  StableHlo.after_of_writes_sub hostOps3 _ hostOps3_writes h

abbrev B9 : Dev nD → Valuation τ sig (Elt F) := fun c => StableHlo.after hostOps4 (B8 m ρ c)

abbrev E9 : (c : Dev nD) → (b : Ref sig .tc) → Buf (Elt F) ((c : Thread nD τ).loc b) := fun c b => B9 m ρ c b

def B10 (c : Dev nD) : Valuation τ sig (Elt F) :=
  Pipeline.withArrays spec4 c (B9 m ρ c) fun w => (dat4 (E9 m ρ) c).arrAt w cfg4.N
theorem B10_arr (c : Dev nD) (w : Fin cfg4.W) :
    B10 m ρ c (Proc.devRef .tc (Pipeline.arrRef spec4 w)) = (dat4 (E9 m ρ) c).arrAt w cfg4.N := by
  unfold B10; exact Pipeline.withArrays_arr spec4 launch4.win.arr_inj c _ _ w
theorem B10_keep (c : Dev nD) (b : Ref sig .tc) (hb : ∀ w, Pipeline.arrRef spec4 w ≠ b) :
    B10 m ρ c (Proc.devRef .tc b) = B9 m ρ c (Proc.devRef .tc b) := by
  unfold B10; exact Pipeline.withArrays_of_ne spec4 c _ _ b hb

theorem B9_keep (c : Dev nD) (r : Ref sig .tc) (h : r ∉ (hostOps4_W : List (Ref sig .tc))) :
    B9 m ρ c (Proc.devRef .tc r) = B8 m ρ c (Proc.devRef .tc r) :=
  StableHlo.after_of_writes_sub hostOps4 _ hostOps4_writes h

abbrev B11 : Dev nD → Valuation τ sig (Elt F) := fun c => StableHlo.after hostOps5 (B10 m ρ c)

abbrev E11 : (c : Dev nD) → (b : Ref sig .tc) → Buf (Elt F) ((c : Thread nD τ).loc b) := fun c b => B11 m ρ c b

def B12 (c : Dev nD) : Valuation τ sig (Elt F) :=
  Pipeline.withArrays spec5 c (B11 m ρ c) fun w => (dat5 (E11 m ρ) c).arrAt w cfg5.N
theorem B12_arr (c : Dev nD) (w : Fin cfg5.W) :
    B12 m ρ c (Proc.devRef .tc (Pipeline.arrRef spec5 w)) = (dat5 (E11 m ρ) c).arrAt w cfg5.N := by
  unfold B12; exact Pipeline.withArrays_arr spec5 launch5.win.arr_inj c _ _ w
theorem B12_keep (c : Dev nD) (b : Ref sig .tc) (hb : ∀ w, Pipeline.arrRef spec5 w ≠ b) :
    B12 m ρ c (Proc.devRef .tc b) = B11 m ρ c (Proc.devRef .tc b) := by
  unfold B12; exact Pipeline.withArrays_of_ne spec5 c _ _ b hb

theorem B11_keep (c : Dev nD) (r : Ref sig .tc) (h : r ∉ (hostOps5_W : List (Ref sig .tc))) :
    B11 m ρ c (Proc.devRef .tc r) = B10 m ρ c (Proc.devRef .tc r) :=
  StableHlo.after_of_writes_sub hostOps5 _ hostOps5_writes h

abbrev B13 : Dev nD → Valuation τ sig (Elt F) := fun c => StableHlo.after hostOps6 (B12 m ρ c)

abbrev E13 : (c : Dev nD) → (b : Ref sig .tc) → Buf (Elt F) ((c : Thread nD τ).loc b) := fun c b => B13 m ρ c b

def B14 (c : Dev nD) : Valuation τ sig (Elt F) :=
  Pipeline.withArrays spec6 c (B13 m ρ c) fun w => (dat6 (E13 m ρ) c).arrAt w cfg6.N
theorem B14_arr (c : Dev nD) (w : Fin cfg6.W) :
    B14 m ρ c (Proc.devRef .tc (Pipeline.arrRef spec6 w)) = (dat6 (E13 m ρ) c).arrAt w cfg6.N := by
  unfold B14; exact Pipeline.withArrays_arr spec6 launch6.win.arr_inj c _ _ w
theorem B14_keep (c : Dev nD) (b : Ref sig .tc) (hb : ∀ w, Pipeline.arrRef spec6 w ≠ b) :
    B14 m ρ c (Proc.devRef .tc b) = B13 m ρ c (Proc.devRef .tc b) := by
  unfold B14; exact Pipeline.withArrays_of_ne spec6 c _ _ b hb

theorem B13_keep (c : Dev nD) (r : Ref sig .tc) (h : r ∉ (hostOps6_W : List (Ref sig .tc))) :
    B13 m ρ c (Proc.devRef .tc r) = B12 m ρ c (Proc.devRef .tc r) :=
  StableHlo.after_of_writes_sub hostOps6 _ hostOps6_writes h

abbrev B15 : Dev nD → Valuation τ sig (Elt F) := fun c => StableHlo.after hostOps7 (B14 m ρ c)

abbrev E15 : (c : Dev nD) → (b : Ref sig .tc) → Buf (Elt F) ((c : Thread nD τ).loc b) := fun c b => B15 m ρ c b

def B16 (c : Dev nD) : Valuation τ sig (Elt F) :=
  Pipeline.withArrays spec7 c (B15 m ρ c) fun w => (dat7 (E15 m ρ) c).arrAt w cfg7.N
theorem B16_arr (c : Dev nD) (w : Fin cfg7.W) :
    B16 m ρ c (Proc.devRef .tc (Pipeline.arrRef spec7 w)) = (dat7 (E15 m ρ) c).arrAt w cfg7.N := by
  unfold B16; exact Pipeline.withArrays_arr spec7 launch7.win.arr_inj c _ _ w
theorem B16_keep (c : Dev nD) (b : Ref sig .tc) (hb : ∀ w, Pipeline.arrRef spec7 w ≠ b) :
    B16 m ρ c (Proc.devRef .tc b) = B15 m ρ c (Proc.devRef .tc b) := by
  unfold B16; exact Pipeline.withArrays_of_ne spec7 c _ _ b hb

theorem B15_keep (c : Dev nD) (r : Ref sig .tc) (h : r ∉ (hostOps7_W : List (Ref sig .tc))) :
    B15 m ρ c (Proc.devRef .tc r) = B14 m ρ c (Proc.devRef .tc r) :=
  StableHlo.after_of_writes_sub hostOps7 _ hostOps7_writes h

abbrev B17 : Dev nD → Valuation τ sig (Elt F) := fun c => StableHlo.after hostOps8 (B16 m ρ c)
theorem B17_keep (c : Dev nD) (r : Ref sig .tc) (h : r ∉ (hostOps8_W : List (Ref sig .tc))) :
    B17 m ρ c (Proc.devRef .tc r) = B16 m ρ c (Proc.devRef .tc r) :=
  StableHlo.after_of_writes_sub hostOps8 _ hostOps8_writes h

/-- No operation after the first stretch writes `r`, and `r` is no array of regions 1 to 7. -/
abbrev Apart (r : Ref sig .tc) : Prop :=
  (r ∉ (hostOps1_W : List (Ref sig .tc))) ∧ (∀ w, Pipeline.arrRef spec1 w ≠ r) ∧ (r ∉ (hostOps2_W : List (Ref sig .tc))) ∧ (∀ w, Pipeline.arrRef spec2 w ≠ r) ∧ (r ∉ (hostOps3_W : List (Ref sig .tc))) ∧ (∀ w, Pipeline.arrRef spec3 w ≠ r) ∧ (r ∉ (hostOps4_W : List (Ref sig .tc))) ∧ (∀ w, Pipeline.arrRef spec4 w ≠ r) ∧ (r ∉ (hostOps5_W : List (Ref sig .tc))) ∧ (∀ w, Pipeline.arrRef spec5 w ≠ r) ∧ (r ∉ (hostOps6_W : List (Ref sig .tc))) ∧ (∀ w, Pipeline.arrRef spec6 w ≠ r) ∧ (r ∉ (hostOps7_W : List (Ref sig .tc))) ∧ (∀ w, Pipeline.arrRef spec7 w ≠ r) ∧ (r ∉ (hostOps8_W : List (Ref sig .tc)))
/-- Such a buffer is at the return what it was after region 0: each later step keeps it. -/
theorem B17_eq_B2 (c : Dev nD) (r : Ref sig .tc)
    (h : Apart r) :
    B17 m ρ c (Proc.devRef .tc r) = B2 m ρ c (Proc.devRef .tc r) := by
  obtain ⟨h1, g1, h2, g2, h3, g3, h4, g4, h5, g5, h6, g6, h7, g7, h8⟩ := h
  exact (B17_keep m ρ c r h8).trans <| (B16_keep m ρ c r g7).trans <| (B15_keep m ρ c r h7).trans <| (B14_keep m ρ c r g6).trans <| (B13_keep m ρ c r h6).trans <| (B12_keep m ρ c r g5).trans <| (B11_keep m ρ c r h5).trans <| (B10_keep m ρ c r g4).trans <| (B9_keep m ρ c r h4).trans <| (B8_keep m ρ c r g3).trans <| (B7_keep m ρ c r h3).trans <| (B6_keep m ρ c r g2).trans <| (B5_keep m ρ c r h2).trans <| (B4_keep m ρ c r g1).trans <| (B3_keep m ρ c r h1)
/-- If the first stretch and region 0 leave it alone too, it ends as launched. -/
theorem B17_untouched (c : Dev nD) (r : Ref sig .tc) (h0 : r ∉ (hostOps0_W : List (Ref sig .tc))) (g0 : ∀ w, Pipeline.arrRef spec0 w ≠ r)
    (h : Apart r) :
    B17 m ρ c (Proc.devRef .tc r) = m ((c : Thread nD τ).loc r) :=
  (B17_eq_B2 m ρ c r h).trans <| (B2_keep m ρ c r g0).trans <| (B1_keep m ρ c r h0).trans rfl
theorem B17_main_arg0 (c : Dev nD) : B17 m ρ c (Proc.devRef .tc main_arg0) = m ((c : Thread nD τ).loc main_arg0) :=
  (B17_eq_B2 m ρ c main_arg0 (by decide)).trans <|
  ((B2_arr m ρ c 0).trans (((dat0 (E1 m ρ) c).arrAt_in 0 rfl _).trans (dat0_A (E1 m ρ) c 0))).trans <|
  (B1_keep m ρ c main_arg0 (by decide)).trans rfl
theorem B17_main_arg1 (c : Dev nD) : B17 m ρ c (Proc.devRef .tc main_arg1) = m ((c : Thread nD τ).loc main_arg1) :=
  B17_untouched m ρ c main_arg1 (by decide) (by decide) (by decide)
theorem B17_main_arg2 (c : Dev nD) : B17 m ρ c (Proc.devRef .tc main_arg2) = m ((c : Thread nD τ).loc main_arg2) :=
  B17_untouched m ρ c main_arg2 (by decide) (by decide) (by decide)
theorem B17_main_arg3 (c : Dev nD) : B17 m ρ c (Proc.devRef .tc main_arg3) = m ((c : Thread nD τ).loc main_arg3) :=
  B17_untouched m ρ c main_arg3 (by decide) (by decide) (by decide)
theorem B17_main_arg4 (c : Dev nD) : B17 m ρ c (Proc.devRef .tc main_arg4) = m ((c : Thread nD τ).loc main_arg4) :=
  B17_untouched m ρ c main_arg4 (by decide) (by decide) (by decide)
theorem B17_main_arg5 (c : Dev nD) : B17 m ρ c (Proc.devRef .tc main_arg5) = m ((c : Thread nD τ).loc main_arg5) :=
  B17_untouched m ρ c main_arg5 (by decide) (by decide) (by decide)
theorem B17_main_arg6 (c : Dev nD) : B17 m ρ c (Proc.devRef .tc main_arg6) = m ((c : Thread nD τ).loc main_arg6) :=
  B17_untouched m ρ c main_arg6 (by decide) (by decide) (by decide)

abbrev tables : (p : Fin 8) → (pcfgs (F := F) p).Adm := fun p => (cfgs p).toPCfg_adm

def pdats : (p : Fin 8) → (c : Dev nD) → Dat τ (Elt F) Unit ℕ (UR sig nD τ) ℕ (Pipeline.pin (pcfgs (F := F)) tables p) c
  | ⟨0, _⟩ => fun c => dat0 (E1 m ρ) c
  | ⟨1, _⟩ => fun c => dat1 (E3 m ρ) c
  | ⟨2, _⟩ => fun c => dat2 (E5 m ρ) c
  | ⟨3, _⟩ => fun c => dat3 (E7 m ρ) c
  | ⟨4, _⟩ => fun c => dat4 (E9 m ρ) c
  | ⟨5, _⟩ => fun c => dat5 (E11 m ρ) c
  | ⟨6, _⟩ => fun c => dat6 (E13 m ρ) c
  | ⟨7, _⟩ => fun c => dat7 (E15 m ρ) c
abbrev noVariants : Variants := Variants.none

abbrev noPairs : GSem nD τ sig → Finset Unit := fun _ => ∅
abbrev noLevel : GSem nD τ sig → Unit → ℕ := fun _ _ => 0
local notation "𝕄" => MT nD τ sig Unit (Elt F) ℕ (UR sig nD τ) ℕ

abbrev Beside (c : Dev nD) : sProp 𝕄 := iprop((∃ r, prngReg c r) ∗ ∃ W, owes (c : Thread nD τ) (0 : CellTallies nD τ sig Unit) W)

abbrev hostItem (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noPairs noLevel :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Beside

theorem mem_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev AtReturn (c : Dev nD) : sProp 𝕄 := iprop(StableHlo.held (c : Thread nD τ) (Pipeline.ucRefs τ sig) (B17 m ρ c) ∗ ∃ r, prngReg c r)

end Cert.KernelIdeal.Hand

end
-- ==== Proof.KI.Run.lean ====
import proofs.«400307_j79207786873545_3_alg».proof.Proof.KI.Chain
import proofs.«400307_j79207786873545_3_alg».proof.Proof.LibRegionItem

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]
variable (m : (ℓ : Loc nD τ sig) → Buf (Elt F) ℓ) (ρ : Dev nD → PrngReg)
local notation "𝕄" => MT nD τ sig Unit (Elt F) ℕ (UR sig nD τ) ℕ

set_option backward.isDefEq.respectTransparency.types false in
def item0 : Pipeline.RegionSeg (pcfgs (F := F)) tables (pdats m ρ) () defs₀ noVariants noPairs noLevel 0 :=
  Cert.Lib.heldItem _ _ _ _ _ _ _ 0 launch0.win.to₀ launch0.win launch0.arr_whole launch0.block_pos launch0.stage_whole
    (fun c => (obligation0 (E1 m ρ) c).loose) (B1 m ρ) (B2 m ρ) rfl (fun _ _ => rfl) (fun _ _ => rfl) (fun _ _ => rfl)
    (fun _ _ => rfl) (fun _ _ => rfl) (B2_arr m ρ) (B2_keep m ρ)
set_option backward.isDefEq.respectTransparency.types false in
def item1 : Pipeline.RegionSeg (pcfgs (F := F)) tables (pdats m ρ) () defs₀ noVariants noPairs noLevel 1 :=
  Cert.Lib.heldItem _ _ _ _ _ _ _ 1 launch1.win.to₀ launch1.win launch1.arr_whole launch1.block_pos launch1.stage_whole
    (fun c => (obligation1 (E3 m ρ) c).loose) (B3 m ρ) (B4 m ρ) rfl (fun _ _ => rfl) (fun _ _ => rfl) (fun _ _ => rfl)
    (fun _ _ => rfl) (fun _ _ => rfl) (B4_arr m ρ) (B4_keep m ρ)
set_option backward.isDefEq.respectTransparency.types false in
def item2 : Pipeline.RegionSeg (pcfgs (F := F)) tables (pdats m ρ) () defs₀ noVariants noPairs noLevel 2 :=
  Cert.Lib.heldItem _ _ _ _ _ _ _ 2 launch2.win.to₀ launch2.win launch2.arr_whole launch2.block_pos launch2.stage_whole
    (fun c => (obligation2 (E5 m ρ) c).loose) (B5 m ρ) (B6 m ρ) rfl (fun _ _ => rfl) (fun _ _ => rfl) (fun _ _ => rfl)
    (fun _ _ => rfl) (fun _ _ => rfl) (B6_arr m ρ) (B6_keep m ρ)
set_option backward.isDefEq.respectTransparency.types false in
def item3 : Pipeline.RegionSeg (pcfgs (F := F)) tables (pdats m ρ) () defs₀ noVariants noPairs noLevel 3 :=
  Cert.Lib.heldItem _ _ _ _ _ _ _ 3 launch3.win.to₀ launch3.win launch3.arr_whole launch3.block_pos launch3.stage_whole
    (fun c => (obligation3 (E7 m ρ) c).loose) (B7 m ρ) (B8 m ρ) rfl (fun _ _ => rfl) (fun _ _ => rfl) (fun _ _ => rfl)
    (fun _ _ => rfl) (fun _ _ => rfl) (B8_arr m ρ) (B8_keep m ρ)
set_option backward.isDefEq.respectTransparency.types false in
def item4 : Pipeline.RegionSeg (pcfgs (F := F)) tables (pdats m ρ) () defs₀ noVariants noPairs noLevel 4 :=
  Cert.Lib.heldItem _ _ _ _ _ _ _ 4 launch4.win.to₀ launch4.win launch4.arr_whole launch4.block_pos launch4.stage_whole
    (fun c => (obligation4 (E9 m ρ) c).loose) (B9 m ρ) (B10 m ρ) rfl (fun _ _ => rfl) (fun _ _ => rfl) (fun _ _ => rfl)
    (fun _ _ => rfl) (fun _ _ => rfl) (B10_arr m ρ) (B10_keep m ρ)
set_option backward.isDefEq.respectTransparency.types false in
def item5 : Pipeline.RegionSeg (pcfgs (F := F)) tables (pdats m ρ) () defs₀ noVariants noPairs noLevel 5 :=
  Cert.Lib.heldItem _ _ _ _ _ _ _ 5 launch5.win.to₀ launch5.win launch5.arr_whole launch5.block_pos launch5.stage_whole
    (fun c => (obligation5 (E11 m ρ) c).loose) (B11 m ρ) (B12 m ρ) rfl (fun _ _ => rfl) (fun _ _ => rfl) (fun _ _ => rfl)
    (fun _ _ => rfl) (fun _ _ => rfl) (B12_arr m ρ) (B12_keep m ρ)
set_option backward.isDefEq.respectTransparency.types false in
def item6 : Pipeline.RegionSeg (pcfgs (F := F)) tables (pdats m ρ) () defs₀ noVariants noPairs noLevel 6 :=
  Cert.Lib.heldItem _ _ _ _ _ _ _ 6 launch6.win.to₀ launch6.win launch6.arr_whole launch6.block_pos launch6.stage_whole
    (fun c => (obligation6 (E13 m ρ) c).loose) (B13 m ρ) (B14 m ρ) rfl (fun _ _ => rfl) (fun _ _ => rfl) (fun _ _ => rfl)
    (fun _ _ => rfl) (fun _ _ => rfl) (B14_arr m ρ) (B14_keep m ρ)
set_option backward.isDefEq.respectTransparency.types false in
def item7 : Pipeline.RegionSeg (pcfgs (F := F)) tables (pdats m ρ) () defs₀ noVariants noPairs noLevel 7 :=
  Cert.Lib.heldItem _ _ _ _ _ _ _ 7 launch7.win.to₀ launch7.win launch7.arr_whole launch7.block_pos launch7.stage_whole
    (fun c => (obligation7 (E15 m ρ) c).loose) (B15 m ρ) (B16 m ρ) rfl (fun _ _ => rfl) (fun _ _ => rfl) (fun _ _ => rfl)
    (fun _ _ => rfl) (fun _ _ => rfl) (B16_arr m ρ) (B16_keep m ρ)

abbrev items : List (Pipeline.Seg (pcfgs (F := F)) tables (pdats m ρ) () defs₀ noVariants noPairs noLevel) :=
  [ .host (hostItem hostOps0 hostOps0_sub hostOps0_fresh (B0 m ρ)),
    .region (item0 m ρ),
    .host (hostItem hostOps1 hostOps1_sub hostOps1_fresh (B2 m ρ)),
    .region (item1 m ρ),
    .host (hostItem hostOps2 hostOps2_sub hostOps2_fresh (B4 m ρ)),
    .region (item2 m ρ),
    .host (hostItem hostOps3 hostOps3_sub hostOps3_fresh (B6 m ρ)),
    .region (item3 m ρ),
    .host (hostItem hostOps4 hostOps4_sub hostOps4_fresh (B8 m ρ)),
    .region (item4 m ρ),
    .host (hostItem hostOps5 hostOps5_sub hostOps5_fresh (B10 m ρ)),
    .region (item5 m ρ),
    .host (hostItem hostOps6 hostOps6_sub hostOps6_fresh (B12 m ρ)),
    .region (item6 m ρ),
    .host (hostItem hostOps7 hostOps7_sub hostOps7_fresh (B14 m ρ)),
    .region (item7 m ρ),
    .host (hostItem hostOps8 hostOps8_sub hostOps8_fresh (B16 m ρ)) ]

theorem main_items (c : Dev nD) : main (F := F) c = Pipeline.Seg.run (items m ρ) := (main_chain c).trans (by chain_rfl)

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = B17 m ρ c b) :=
  Pipeline.θ_run_regions_kit (pcfgs (F := F)) tables (pdats m ρ) () cellOf_inj emb₁ defs₀ noVariants noPairs noLevel m ρ main (items m ρ)
    (fun c Q => by rw [main_items m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ Beside c)) (Tₙ := AtReturn m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (B17 m ρ c) ∗ Beside c) ⊢ _
      iintro ⟨Hh, Hp, HO⟩
      isplitl [Hh Hp]
      · isplitl [Hh]; · iexact Hh
        iexact Hp
      iexact HO⟩)
    (hinit := by
      refine Pipeline.initEach noPairs noLevel fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B17 m ρ c b)
    (hfin := fun c s' => by
      iintro ⟨⟨Hh, -⟩, HSI⟩
      unfold StableHlo.held
      imodintro
      iapply (pointsTo_read_all (Pipeline.ucRefs τ sig) (fun b => (((c : Thread nD τ)).1, b)) (B17 m ρ c) s')
      isplitl [Hh] <;> iassumption)
    (hQ := fun s h c => h c)

theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_unscoped main_arg0 (by decide))).trans (B17_main_arg0 m ρ c),
     (h c _ (mem_unscoped main_arg1 (by decide))).trans (B17_main_arg1 m ρ c),
     (h c _ (mem_unscoped main_arg2 (by decide))).trans (B17_main_arg2 m ρ c),
     (h c _ (mem_unscoped main_arg3 (by decide))).trans (B17_main_arg3 m ρ c),
     (h c _ (mem_unscoped main_arg4 (by decide))).trans (B17_main_arg4 m ρ c),
     (h c _ (mem_unscoped main_arg5 (by decide))).trans (B17_main_arg5 m ρ c),
     (h c _ (mem_unscoped main_arg6 (by decide))).trans (B17_main_arg6 m ρ c)⟩)
    (run_all m ρ)

end Cert.KernelIdeal.Hand

end
-- ==== Proof.LibPlainDot.lean ====
import Idealize.ShloMosaic.Lib.StackMember
import Idealize.ShloMosaic.PureOps.Ideal.Laws

noncomputable section

namespace Cert.Lib.PlainDot

open Idealize.ShloMosaic Idealize.ShloMosaic.ValueIdx

theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  refine Eq.trans ?_ (StackMember.dotGeneral_plain_apply prec A B a b)
  show FloatOps.matmul _ prec A B _ (ix2 a b) = FloatOps.dotGeneral _ prec _ A B (ix2 a b)
  rw [Ideal.matmul_constant_zero_apply, Ideal.dotGeneral_apply]

end Cert.Lib.PlainDot

end
-- ==== Proof.KI.Val0.lean ====
import proofs.«400307_j79207786873545_3_alg».proof.Proof.KI.Reg0
import proofs.«400307_j79207786873545_3_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

theorem hz0 : (![0, 0] : Fin 2 → Nat) = fun _ => 0 := funext fun a => by fin_cases a <;> rfl

theorem pay0_apply (x0 : Vec Ideal S10000x32 .f32) (x1 : Vec Ideal S32x68 .f32) (p : Fin 10000) (q : Fin 68) :
    k0_pay1 (F := Ideal) x0 x1 (ix2 p q) = ∑ k : Fin 32, x0 (ix2 p k) * x1 (ix2 k q) := by
  have hd : dot_S10000x32_S32x68_S10000x68_1_0_0_1_n_n = DotDims.plain 10000 32 68 := rfl
  show matmul dot_S10000x32_S32x68_S10000x68_1_0_0_1_n_n none (truncf .bf16 x0 bitsLt_bf16_f32)
      (truncf .bf16 (shapeCast S32x68 x1 shapeCasts_S32x68_S32x68) bitsLt_bf16_f32)
      (constant (F := Ideal) S10000x68 .f32 0x00000000#32) (ix2 p q) = _
  rw [hd, shapeCast_self]
  exact Cert.Lib.PlainDot.matmul_plain_zero_apply (m := 10000) (k := 32) (n := 68) none
    (truncf .bf16 x0 bitsLt_bf16_f32) (truncf .bf16 x1 bitsLt_bf16_f32) p q

def prod0 (a : S100000x32.Idx → Elt Ideal .f32) (b : S32x68.Idx → Elt Ideal .f32) : S100000x68.Idx → Elt Ideal .f32 :=
  fun i => ∑ k : Fin 32, a (ix2 (n0 := 100000) (n1 := 32) (i 0) k) * b (ix2 (n0 := 32) (n1 := 68) k (i 1))

theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

theorem idx_onto0 : ∀ (q0 : Fin 10), ∃ t : Fin cfg0.N, win0_2.index t = ![q0.val, 0] :=
  (by decide +kernel : ∀ (q0 : Fin 10), ∃ t : Fin grid0.N, win0_2.index t = ![q0.val, 0])

variable (V : (c : Dev nD) → (b : Ref sig .tc) → Buf (Elt Ideal) ((c : Thread nD τ).loc b))

theorem flushed0_eq (c : Dev nD) (t : Fin cfg0.N) :
    (dat0 V c).flushed 2 t = ((cfg0.win 2).blk t).view.read (Elt Ideal) (prod0 (V c main_arg0) (V c main_v8)) := by
  show (cfg0.win 2).cut (grid0.coords t) ((dat0 V c).after 2 t) = _
  rw [after0_2]
  unfold out0_2
  rw [View.canon_unit_zero hz0]
  simp only [View.ld_unit_zero (S := S10000x32) hz0, View.ld_unit_zero (S := S32x68) hz0]
  obtain ⟨e0, e1, e2, e3, e4, e5⟩ := idx_facts0 t
  funext j
  obtain ⟨p, q, rfl⟩ : ∃ (p : Fin 10000) (q : Fin 68), j = ix2 p q := ⟨j 0, j 1, eq_ix2 j⟩
  refine (pay0_apply _ _ p q).trans ?_
  have h0 : ∀ k : Fin 32, ((cfg0.win 0).blk t).view.emb (ix2 p k)
      = ix2 (n0 := 100000) (n1 := 32) ((((cfg0.win 2).blk t).view.emb (ix2 p q)) 0) k := fun k => by
    funext a; apply Fin.ext
    match a with
    | ⟨0, _⟩ => show win0_0.index t (0 : Fin 2) * 10000 + 1 * p.val = win0_2.index t (0 : Fin 2) * 10000 + 1 * p.val; omega
    | ⟨1, _⟩ => show win0_0.index t (1 : Fin 2) * 32 + 1 * k.val = k.val; omega
  have h1 : ∀ k : Fin 32, ((cfg0.win 1).blk t).view.emb (ix2 k q)
      = ix2 (n0 := 32) (n1 := 68) k ((((cfg0.win 2).blk t).view.emb (ix2 p q)) 1) := fun k => by
    funext a; apply Fin.ext
    match a with
    | ⟨0, _⟩ => show win0_1.index t (0 : Fin 2) * 32 + 1 * k.val = k.val; omega
    | ⟨1, _⟩ => show win0_1.index t (1 : Fin 2) * 68 + 1 * q.val = win0_2.index t (1 : Fin 2) * 68 + 1 * q.val; omega

  have key : ∀ (a : S100000x32.Idx → Elt Ideal .f32) (b : S32x68.Idx → Elt Ideal .f32),
      (∑ k : Fin 32, a (((cfg0.win 0).blk t).view.emb (ix2 p k)) * b (((cfg0.win 1).blk t).view.emb (ix2 k q)))
        = prod0 a b (((cfg0.win 2).blk t).view.emb (ix2 p q)) := fun a b => by
    unfold prod0
    refine Finset.sum_congr rfl fun k _ => ?_
    rw [h0 k, h1 k]
  exact key (V c main_arg0) (V c main_v8)

theorem mem_blk0 (t : Fin cfg0.N) (i : S100000x68.Idx) :
    i ∈ ((cfg0.win 2).blk t).view.set ↔ ∀ a : Fin 2, win0_2.index t a * S10000x68.size a ≤ (i a).val ∧ (i a).val < win0_2.index t a * S10000x68.size a + S10000x68.size a := by
  show i ∈ ((View.whole main_v9).slice (win0_2.rect t)).set ↔ _
  rw [View.set_slice_whole, Rect.mem_set_unit]
  exact Iff.rfl

theorem cover0 (i : S100000x68.Idx) :
    ∃ t : Fin cfg0.N, (cfg0.win 2).flush t = true ∧ i ∈ ((cfg0.win 2).blk t).view.set := by
  have hi0 : (i 0).val < 100000 := (i 0).isLt
  have hi1 : (i 1).val < 68 := (i 1).isLt
  obtain ⟨t, ht⟩ := idx_onto0 ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 68 ≤ (i 1).val ∧ (i 1).val < win0_2.index t (1 : Fin 2) * 68 + 68; omega

theorem final0 (c : Dev nD) : (dat0 V c).arrAt 2 cfg0.N = prod0 (V c main_arg0) (V c main_v8) :=
  (dat0 V c).arrAt_eq_of_cover 2 (prod0 (V c main_arg0) (V c main_v8)) (fun t _ => flushed0_eq V c t) cover0

theorem prod0_apply (a : S100000x32.Idx → Elt Ideal .f32) (b : S32x68.Idx → Elt Ideal .f32) (p : Fin 100000) (q : Fin 68) :
    prod0 a b (ix2 p q) = ∑ k : Fin 32, a (ix2 p k) * b (ix2 k q) := rfl

theorem result0 (V : (c : Dev nD) → (b : Ref sig .tc) → Buf (Elt Ideal) ((c : Thread nD τ).loc b)) (c : Dev nD) (p : Fin 100000) (q : Fin 68) :
    (dat0 V c).arrAt 2 cfg0.N (ValueIdx.ix2 p q) = prod0 (V c main_arg0) (V c main_v8) (ValueIdx.ix2 p q) :=
  congrFun (final0 V c) (ValueIdx.ix2 p q)

theorem result0_sum (V : (c : Dev nD) → (b : Ref sig .tc) → Buf (Elt Ideal) ((c : Thread nD τ).loc b)) (c : Dev nD)
    (x : S100000x32.Idx → Elt Ideal .f32) (w : S32x68.Idx → Elt Ideal .f32) (hx : V c main_arg0 = x) (hw : V c main_v8 = w)
    (p : Fin 100000) (q : Fin 68) :
    (dat0 V c).arrAt 2 cfg0.N (ValueIdx.ix2 p q) = ∑ k : Fin 32, x (ValueIdx.ix2 p k) * w (ValueIdx.ix2 k q) := by
  subst hx hw
  exact result0 V c p q

end Cert.KernelIdeal.Hand
-- ==== Proof.KI.Val1.lean ====
import proofs.«400307_j79207786873545_3_alg».proof.Proof.KI.Reg1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem zero1 : (![0, 0] : Fin 2 → Nat) = fun _ => 0 := funext fun a => by fin_cases a <;> rfl

theorem out1_2_eq (x0 : Vec F S12500x128 .f32) (x1 : Vec F S12500x128 .f32) : out1_2 x0 x1 = k1_pay1 x0 x1 := by
  unfold out1_2
  rw [View.canon_unit_zero zero1]
  simp only [View.ld_unit_zero (S := S12500x128) zero1]

theorem idx1 : ∀ t : Fin cfg1.N, win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

theorem emb1_0 (t : Fin cfg1.N) (j : S12500x128.Idx) : ((cfg1.win 0).blk t).view.emb j = j := by
  obtain ⟨e0, e1, -, -, -, -⟩ := idx1 t
  funext a; apply Fin.ext
  match a with
  | ⟨0, _⟩ => show win1_0.index t (0 : Fin 2) * 12500 + 1 * (j 0).val = (j 0).val; omega
  | ⟨1, _⟩ => show win1_0.index t (1 : Fin 2) * 128 + 1 * (j 1).val = (j 1).val; omega
theorem emb1_1 (t : Fin cfg1.N) (j : S12500x128.Idx) : ((cfg1.win 1).blk t).view.emb j = j := by
  obtain ⟨-, -, e0, e1, -, -⟩ := idx1 t
  funext a; apply Fin.ext
  match a with
  | ⟨0, _⟩ => show win1_1.index t (0 : Fin 2) * 12500 + 1 * (j 0).val = (j 0).val; omega
  | ⟨1, _⟩ => show win1_1.index t (1 : Fin 2) * 128 + 1 * (j 1).val = (j 1).val; omega
theorem emb1_2 (t : Fin cfg1.N) (j : S12500x128.Idx) : ((cfg1.win 2).blk t).view.emb j = j := by
  obtain ⟨-, -, -, -, e0, e1⟩ := idx1 t
  funext a; apply Fin.ext
  match a with
  | ⟨0, _⟩ => show win1_2.index t (0 : Fin 2) * 12500 + 1 * (j 0).val = (j 0).val; omega
  | ⟨1, _⟩ => show win1_2.index t (1 : Fin 2) * 128 + 1 * (j 1).val = (j 1).val; omega

theorem iblk1_0_eq (c : Dev nD) (t : Fin cfg1.N) : iblk1 V c 0 t = V c main_v42 := by
  funext j
  show V c main_v42 (((cfg1.win 0).blk t).view.emb j) = V c main_v42 j
  rw [emb1_0]
theorem iblk1_1_eq (c : Dev nD) (t : Fin cfg1.N) : iblk1 V c 1 t = V c main_v44 := by
  funext j
  show V c main_v44 (((cfg1.win 1).blk t).view.emb j) = V c main_v44 j
  rw [emb1_1]

theorem flushed1_2 (c : Dev nD) (t : Fin cfg1.N) :
    (dat1 V c).flushed 2 t = ((cfg1.win 2).blk t).view.read (Elt F) (k1_pay1 (V c main_v42) (V c main_v44)) := by
  show (cfg1.win 2).cut (grid1.coords t) ((dat1 V c).after 2 t) = _
  rw [after1_2, out1_2_eq, iblk1_0_eq, iblk1_1_eq]
  funext j
  show k1_pay1 (V c main_v42) (V c main_v44) j = k1_pay1 (V c main_v42) (V c main_v44) (((cfg1.win 2).blk t).view.emb j)
  rw [emb1_2]

theorem covered1_2 (i : S12500x128.Idx) :
    ∃ t : Fin cfg1.N, (cfg1.win 2).flush t = true ∧ i ∈ ((cfg1.win 2).blk t).view.set := by
  refine ⟨t1_0, flush1_2 t1_0, ?_⟩
  have h := ((cfg1.win 2).blk t1_0).view.emb_mem_set i
  rwa [emb1_2] at h

theorem result1 (c : Dev nD) : (dat1 V c).arrAt 2 cfg1.N = k1_pay1 (V c main_v42) (V c main_v44) :=
  (dat1 V c).arrAt_eq_of_cover 2 _ (fun t _ => flushed1_2 V c t) covered1_2

end Cert.KernelIdeal.Hand

end
-- ==== Proof.KI.Val2.lean ====
import proofs.«400307_j79207786873545_3_alg».proof.Proof.KI.Reg2
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem zero2 : (![0, 0] : Fin 2 → Nat) = fun _ => 0 := funext fun a => by fin_cases a <;> rfl

theorem out2_2_eq (x0 : Vec F S12500x128 .f32) (x1 : Vec F S1x1 .f32) : out2_2 x0 x1 = k2_pay1 x1 x0 := by
  unfold out2_2
  rw [View.canon_unit_zero zero2]
  simp only [View.ld_unit_zero (S := S12500x128) zero2, View.ld_unit_zero (S := S1x1) zero2]

theorem idx2 : ∀ t : Fin cfg2.N, win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0 :=
  (by decide +kernel : ∀ t : Fin grid2.N, _)

theorem emb2_0 (t : Fin cfg2.N) (j : S12500x128.Idx) : ((cfg2.win 0).blk t).view.emb j = j := by
  obtain ⟨e0, e1, -, -, -, -⟩ := idx2 t
  funext a; apply Fin.ext
  match a with
  | ⟨0, _⟩ => show win2_0.index t (0 : Fin 2) * 12500 + 1 * (j 0).val = (j 0).val; omega
  | ⟨1, _⟩ => show win2_0.index t (1 : Fin 2) * 128 + 1 * (j 1).val = (j 1).val; omega
theorem emb2_1 (t : Fin cfg2.N) (j : S1x1.Idx) : ((cfg2.win 1).blk t).view.emb j = j := by
  obtain ⟨-, -, e0, e1, -, -⟩ := idx2 t
  funext a; apply Fin.ext
  match a with
  | ⟨0, _⟩ => show win2_1.index t (0 : Fin 2) * 1 + 1 * (j 0).val = (j 0).val; omega
  | ⟨1, _⟩ => show win2_1.index t (1 : Fin 2) * 1 + 1 * (j 1).val = (j 1).val; omega
theorem emb2_2 (t : Fin cfg2.N) (j : S12500x128.Idx) : ((cfg2.win 2).blk t).view.emb j = j := by
  obtain ⟨-, -, -, -, e0, e1⟩ := idx2 t
  funext a; apply Fin.ext
  match a with
  | ⟨0, _⟩ => show win2_2.index t (0 : Fin 2) * 12500 + 1 * (j 0).val = (j 0).val; omega
  | ⟨1, _⟩ => show win2_2.index t (1 : Fin 2) * 128 + 1 * (j 1).val = (j 1).val; omega

theorem iblk2_0_eq (c : Dev nD) (t : Fin cfg2.N) : iblk2 V c 0 t = V c main_v45 := by
  funext j
  show V c main_v45 (((cfg2.win 0).blk t).view.emb j) = V c main_v45 j
  rw [emb2_0]
theorem iblk2_1_eq (c : Dev nD) (t : Fin cfg2.N) : iblk2 V c 1 t = V c main_v47 := by
  funext j
  show V c main_v47 (((cfg2.win 1).blk t).view.emb j) = V c main_v47 j
  rw [emb2_1]

theorem flushed2_2 (c : Dev nD) (t : Fin cfg2.N) :
    (dat2 V c).flushed 2 t = ((cfg2.win 2).blk t).view.read (Elt F) (k2_pay1 (V c main_v47) (V c main_v45)) := by
  show (cfg2.win 2).cut (grid2.coords t) ((dat2 V c).after 2 t) = _
  rw [after2_2, out2_2_eq, iblk2_0_eq, iblk2_1_eq]
  funext j
  show k2_pay1 (V c main_v47) (V c main_v45) j = k2_pay1 (V c main_v47) (V c main_v45) (((cfg2.win 2).blk t).view.emb j)
  rw [emb2_2]

theorem covered2_2 (i : S12500x128.Idx) :
    ∃ t : Fin cfg2.N, (cfg2.win 2).flush t = true ∧ i ∈ ((cfg2.win 2).blk t).view.set := by
  refine ⟨t2_0, flush2_2 t2_0, ?_⟩
  have h := ((cfg2.win 2).blk t2_0).view.emb_mem_set i
  rwa [emb2_2] at h

theorem result2 (c : Dev nD) : (dat2 V c).arrAt 2 cfg2.N = k2_pay1 (V c main_v47) (V c main_v45) :=
  (dat2 V c).arrAt_eq_of_cover 2 _ (fun t _ => flushed2_2 V c t) covered2_2

end Cert.KernelIdeal.Hand

end
-- ==== Proof.LibRowOps.lean ====
import Idealize.ShloMosaic.Lib.ValueLayout
import Idealize.ShloMosaic.Lib.Pipeline.FrameBody
import Idealize.ShloMosaic.PureOps.Ideal.Laws

noncomputable section

namespace Cert.RowOps

open Idealize.ShloMosaic Idealize.ShloMosaic.ValueIdx

variable {α : Type}

theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem laneSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ n : Fin b, src (ix2 p n) := by
  refine (Ideal.multiReduction_add_single src 0x00000000#32 h hφ hacc (ix1 p)).trans ?_
  refine Finset.sum_congr rfl fun n _ => congrArg src (funext fun c => Fin.ext ?_)
  show h.liftVal (ix1 p) n.val c = _
  match c with
  | ⟨0, _⟩ => simp [Shape.Reduces.liftVal]
  | ⟨1, _⟩ => simp [Shape.Reduces.liftVal]

theorem ld_unit_apply {S : Shape} {Val : EltTy → Type} {e : EltTy} (X : S.Idx → Val e)
    (off size : Fin S.rank → Nat) (inb : ∀ a, off a + size a ≤ S.size a)
    (j : (Rect.unit off size inb).shape.Idx) (k : S.Idx) (hk : ∀ a, (k a).val = off a + (j a).val) :
    View.ld X (Rect.unit off size inb) j = X k := by
  show X ((Rect.unit off size inb).idx j) = X k
  refine congrArg X (funext fun a => Fin.ext ?_)
  rw [hk a]
  show off a + 1 * (j a).val = off a + (j a).val
  rw [Nat.one_mul]

end Cert.RowOps

end
-- ==== Proof.KI.Val3.lean ====
import proofs.«400307_j79207786873545_3_alg».proof.Proof.KI.Reg3
import proofs.«400307_j79207786873545_3_alg».proof.Proof.LibRowOps
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem pay3_apply (x0 x1 : Vec Ideal S8000x1 .f32) (x2 : Vec Ideal S8000x32 .f32) (p : Fin 8000) (q : Fin 32) :
    k3_pay1 x0 x1 x2 (ix2 p q) = Ideal.div (x0 (ix2 p (0 : Fin 1))) (x1 (ix2 p (0 : Fin 1))) * x2 (ix2 p q) := by
  unfold k3_pay1
  simp only [shapeCast_self]
  rw [mulf_apply, Cert.RowOps.broadcastTo_a1_ab_apply, divf_apply]

theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

theorem pt_lt3 (t : Fin cfg3.N) : t.val < 200 :=
  Nat.lt_of_lt_of_eq t.isLt N_3

theorem iblk3_0_apply (c : Dev nD) (t : Fin cfg3.N) (p : Fin 8000) (k : Fin 1600000) (hk : k.val = 8000 * t.val + p.val) :
    iblk3 V c 0 t (ix2 p (0 : Fin 1)) = V c main_v49 (ix2 k (0 : Fin 1)) := by
  obtain ⟨e00, e01, -⟩ := idx_facts3 t
  unfold iblk3
  rw [View.read_apply]
  show V c main_v49 _ = V c main_v49 _
  congr 1
  funext a
  apply Fin.ext
  match a with
  | ⟨0, _⟩ => show win3_0.index t (0 : Fin 2) * 8000 + 1 * p.val = k.val; rw [e00, hk]; omega
  | ⟨1, _⟩ => show win3_0.index t (1 : Fin 2) * 1 + 1 * 0 = 0; rw [e01]

theorem iblk3_1_apply (c : Dev nD) (t : Fin cfg3.N) (p : Fin 8000) (k : Fin 1600000) (hk : k.val = 8000 * t.val + p.val) :
    iblk3 V c 1 t (ix2 p (0 : Fin 1)) = V c main_v61 (ix2 k (0 : Fin 1)) := by
  obtain ⟨-, -, e10, e11, -⟩ := idx_facts3 t
  unfold iblk3
  rw [View.read_apply]
  show V c main_v61 _ = V c main_v61 _
  congr 1
  funext a
  apply Fin.ext
  match a with
  | ⟨0, _⟩ => show win3_1.index t (0 : Fin 2) * 8000 + 1 * p.val = k.val; rw [e10, hk]; omega
  | ⟨1, _⟩ => show win3_1.index t (1 : Fin 2) * 1 + 1 * 0 = 0; rw [e11]

theorem iblk3_2_apply (c : Dev nD) (t : Fin cfg3.N) (p : Fin 8000) (q : Fin 32) (k : Fin 1600000) (hk : k.val = 8000 * t.val + p.val) :
    iblk3 V c 2 t (ix2 p q) = V c main_v40 (ix2 k q) := by
  obtain ⟨-, -, -, -, e20, e21, -⟩ := idx_facts3 t
  unfold iblk3
  rw [View.read_apply]
  show V c main_v40 _ = V c main_v40 _
  congr 1
  funext a
  apply Fin.ext
  match a with
  | ⟨0, _⟩ => show win3_2.index t (0 : Fin 2) * 8000 + 1 * p.val = k.val; rw [e20, hk]; omega
  | ⟨1, _⟩ => show win3_2.index t (1 : Fin 2) * 32 + 1 * q.val = q.val; rw [e21]; omega

def G3 (a0 a1 : S1600000x1.Idx → Elt Ideal .f32) (a2 : S1600000x32.Idx → Elt Ideal .f32) : S1600000x32.Idx → Elt Ideal .f32 :=
  fun i => Ideal.div (a0 (ix2 (i 0 : Fin 1600000) (0 : Fin 1))) (a1 (ix2 (i 0 : Fin 1600000) (0 : Fin 1))) * a2 i

theorem emb3_3 (t : Fin cfg3.N) (p : Fin 8000) (q : Fin 32) (k : Fin 1600000) (hk : k.val = 8000 * t.val + p.val) :
    ((cfg3.win 3).blk t).view.emb (ix2 p q) = (ix2 k q : S1600000x32.Idx) := by
  obtain ⟨-, -, -, -, -, -, e30, e31⟩ := idx_facts3 t
  funext a
  apply Fin.ext
  match a with
  | ⟨0, _⟩ => show win3_3.index t (0 : Fin 2) * 8000 + 1 * p.val = k.val; rw [e30, hk]; omega
  | ⟨1, _⟩ => show win3_3.index t (1 : Fin 2) * 32 + 1 * q.val = q.val; rw [e31]; omega

theorem flushed3_eq (c : Dev nD) (t : Fin cfg3.N) :
    (dat3 V c).flushed 3 t = ((cfg3.win 3).blk t).view.read (Elt Ideal) (G3 (V c main_v49) (V c main_v61) (V c main_v40)) := by
  show (cfg3.win 3).cut (grid3.coords t) ((dat3 V c).after 3 t) = _
  rw [after3_3]
  unfold out3_3
  have hz : (![0, 0] : Fin 2 → Nat) = fun _ => 0 := funext fun a => by fin_cases a <;> rfl
  rw [View.canon_unit_zero hz]
  simp only [View.ld_unit_zero (S := S8000x1) hz, View.ld_unit_zero (S := S8000x32) hz]
  funext j
  obtain ⟨p, q, rfl⟩ : ∃ (p : Fin 8000) (q : Fin 32), j = ix2 p q := ⟨j 0, j 1, eq_ix2 j⟩
  have hk : 8000 * t.val + p.val < 1600000 := by have := pt_lt3 t; have := p.isLt; omega
  refine (pay3_apply _ _ _ p q).trans ?_
  rw [iblk3_0_apply V c t p ⟨_, hk⟩ rfl, iblk3_1_apply V c t p ⟨_, hk⟩ rfl, iblk3_2_apply V c t p q ⟨_, hk⟩ rfl]
  show _ = G3 (V c main_v49) (V c main_v61) (V c main_v40) (((cfg3.win 3).blk t).view.emb (ix2 p q))
  rw [emb3_3 t p q ⟨_, hk⟩ rfl]
  rfl

theorem mem_blk3 (t : Fin cfg3.N) (i : S1600000x32.Idx) :
    i ∈ ((cfg3.win 3).blk t).view.set ↔ ∀ a : Fin 2, win3_3.index t a * S8000x32.size a ≤ (i a).val ∧ (i a).val < win3_3.index t a * S8000x32.size a + S8000x32.size a := by
  show i ∈ ((View.whole main_v62).slice (win3_3.rect t)).set ↔ _
  rw [View.set_slice_whole, Rect.mem_set_unit]
  exact Iff.rfl

theorem cover3 (i : S1600000x32.Idx) :
    ∃ t : Fin cfg3.N, (cfg3.win 3).flush t = true ∧ i ∈ ((cfg3.win 3).blk t).view.set := by
  have hi0 : (i 0).val < 1600000 := (i 0).isLt
  have hi1 : (i 1).val < 32 := (i 1).isLt
  have ht : (i 0).val / 8000 < cfg3.N := Nat.lt_of_lt_of_eq (by omega : (i 0).val / 8000 < 200) N_3.symm
  refine ⟨⟨(i 0).val / 8000, ht⟩, flush3_3 _, ?_⟩
  obtain ⟨-, -, -, -, -, -, e30, e31⟩ := idx_facts3 ⟨(i 0).val / 8000, ht⟩
  have e30' : win3_3.index ⟨(i 0).val / 8000, ht⟩ (0 : Fin 2) = (i 0).val / 8000 := e30
  rw [mem_blk3]
  intro a
  match a with
  | ⟨0, _⟩ =>
    show win3_3.index ⟨(i 0).val / 8000, ht⟩ (0 : Fin 2) * 8000 ≤ (i 0).val ∧ (i 0).val < win3_3.index ⟨(i 0).val / 8000, ht⟩ (0 : Fin 2) * 8000 + 8000
    rw [e30']; omega
  | ⟨1, _⟩ =>
    show win3_3.index ⟨(i 0).val / 8000, ht⟩ (1 : Fin 2) * 32 ≤ (i 1).val ∧ (i 1).val < win3_3.index ⟨(i 0).val / 8000, ht⟩ (1 : Fin 2) * 32 + 32
    rw [e31]; omega

theorem final3 (c : Dev nD) : (dat3 V c).arrAt 3 cfg3.N = G3 (V c main_v49) (V c main_v61) (V c main_v40) :=
  (dat3 V c).arrAt_eq_of_cover 3 (G3 (V c main_v49) (V c main_v61) (V c main_v40)) (fun t _ => flushed3_eq V c t) cover3

theorem result3 (V : (c : Dev nD) → (b : Ref sig .tc) → Buf (Elt Ideal) ((c : Thread nD τ).loc b)) (c : Dev nD) (p : Fin 1600000) (q : Fin 32) :
    (dat3 V c).arrAt 3 cfg3.N (ValueIdx.ix2 p q) = Ideal.div ((V c main_v49) (ValueIdx.ix2 p (0 : Fin 1))) ((V c main_v61) (ValueIdx.ix2 p (0 : Fin 1))) * (V c main_v40) (ValueIdx.ix2 p q) :=
  congrFun (final3 V c) (ix2 p q)

end Cert.KernelIdeal.Hand

end
-- ==== Proof.KI.Val4.lean ====
import proofs.«400307_j79207786873545_3_alg».proof.Proof.KI.Reg4
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem zero4 : (![0, 0] : Fin 2 → Nat) = fun _ => 0 := funext fun a => by fin_cases a <;> rfl

theorem out4_2_eq (x0 : Vec F S12500x128 .f32) (x1 : Vec F S12500x128 .f32) : out4_2 x0 x1 = k4_pay1 x0 x1 := by
  unfold out4_2
  rw [View.canon_unit_zero zero4]
  simp only [View.ld_unit_zero (S := S12500x128) zero4]

theorem idx4 : ∀ t : Fin cfg4.N, win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0 :=
  (by decide +kernel : ∀ t : Fin grid4.N, _)

theorem emb4_0 (t : Fin cfg4.N) (j : S12500x128.Idx) : ((cfg4.win 0).blk t).view.emb j = j := by
  obtain ⟨e0, e1, -, -, -, -⟩ := idx4 t
  funext a; apply Fin.ext
  match a with
  | ⟨0, _⟩ => show win4_0.index t (0 : Fin 2) * 12500 + 1 * (j 0).val = (j 0).val; omega
  | ⟨1, _⟩ => show win4_0.index t (1 : Fin 2) * 128 + 1 * (j 1).val = (j 1).val; omega
theorem emb4_1 (t : Fin cfg4.N) (j : S12500x128.Idx) : ((cfg4.win 1).blk t).view.emb j = j := by
  obtain ⟨-, -, e0, e1, -, -⟩ := idx4 t
  funext a; apply Fin.ext
  match a with
  | ⟨0, _⟩ => show win4_1.index t (0 : Fin 2) * 12500 + 1 * (j 0).val = (j 0).val; omega
  | ⟨1, _⟩ => show win4_1.index t (1 : Fin 2) * 128 + 1 * (j 1).val = (j 1).val; omega
theorem emb4_2 (t : Fin cfg4.N) (j : S12500x128.Idx) : ((cfg4.win 2).blk t).view.emb j = j := by
  obtain ⟨-, -, -, -, e0, e1⟩ := idx4 t
  funext a; apply Fin.ext
  match a with
  | ⟨0, _⟩ => show win4_2.index t (0 : Fin 2) * 12500 + 1 * (j 0).val = (j 0).val; omega
  | ⟨1, _⟩ => show win4_2.index t (1 : Fin 2) * 128 + 1 * (j 1).val = (j 1).val; omega

theorem iblk4_0_eq (c : Dev nD) (t : Fin cfg4.N) : iblk4 V c 0 t = V c main_v92 := by
  funext j
  show V c main_v92 (((cfg4.win 0).blk t).view.emb j) = V c main_v92 j
  rw [emb4_0]
theorem iblk4_1_eq (c : Dev nD) (t : Fin cfg4.N) : iblk4 V c 1 t = V c main_v94 := by
  funext j
  show V c main_v94 (((cfg4.win 1).blk t).view.emb j) = V c main_v94 j
  rw [emb4_1]

theorem flushed4_2 (c : Dev nD) (t : Fin cfg4.N) :
    (dat4 V c).flushed 2 t = ((cfg4.win 2).blk t).view.read (Elt F) (k4_pay1 (V c main_v92) (V c main_v94)) := by
  show (cfg4.win 2).cut (grid4.coords t) ((dat4 V c).after 2 t) = _
  rw [after4_2, out4_2_eq, iblk4_0_eq, iblk4_1_eq]
  funext j
  show k4_pay1 (V c main_v92) (V c main_v94) j = k4_pay1 (V c main_v92) (V c main_v94) (((cfg4.win 2).blk t).view.emb j)
  rw [emb4_2]

theorem covered4_2 (i : S12500x128.Idx) :
    ∃ t : Fin cfg4.N, (cfg4.win 2).flush t = true ∧ i ∈ ((cfg4.win 2).blk t).view.set := by
  refine ⟨t4_0, flush4_2 t4_0, ?_⟩
  have h := ((cfg4.win 2).blk t4_0).view.emb_mem_set i
  rwa [emb4_2] at h

theorem result4 (c : Dev nD) : (dat4 V c).arrAt 2 cfg4.N = k4_pay1 (V c main_v92) (V c main_v94) :=
  (dat4 V c).arrAt_eq_of_cover 2 _ (fun t _ => flushed4_2 V c t) covered4_2

end Cert.KernelIdeal.Hand

end
-- ==== Proof.KI.Val5.lean ====
import proofs.«400307_j79207786873545_3_alg».proof.Proof.KI.Reg5
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem zero5 : (![0, 0] : Fin 2 → Nat) = fun _ => 0 := funext fun a => by fin_cases a <;> rfl

theorem out5_2_eq (x0 : Vec F S12500x128 .f32) (x1 : Vec F S1x1 .f32) : out5_2 x0 x1 = k5_pay1 x1 x0 := by
  unfold out5_2
  rw [View.canon_unit_zero zero5]
  simp only [View.ld_unit_zero (S := S12500x128) zero5, View.ld_unit_zero (S := S1x1) zero5]

theorem idx5 : ∀ t : Fin cfg5.N, win5_0.index t (0 : Fin 2) = 0 ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0 :=
  (by decide +kernel : ∀ t : Fin grid5.N, _)

theorem emb5_0 (t : Fin cfg5.N) (j : S12500x128.Idx) : ((cfg5.win 0).blk t).view.emb j = j := by
  obtain ⟨e0, e1, -, -, -, -⟩ := idx5 t
  funext a; apply Fin.ext
  match a with
  | ⟨0, _⟩ => show win5_0.index t (0 : Fin 2) * 12500 + 1 * (j 0).val = (j 0).val; omega
  | ⟨1, _⟩ => show win5_0.index t (1 : Fin 2) * 128 + 1 * (j 1).val = (j 1).val; omega
theorem emb5_1 (t : Fin cfg5.N) (j : S1x1.Idx) : ((cfg5.win 1).blk t).view.emb j = j := by
  obtain ⟨-, -, e0, e1, -, -⟩ := idx5 t
  funext a; apply Fin.ext
  match a with
  | ⟨0, _⟩ => show win5_1.index t (0 : Fin 2) * 1 + 1 * (j 0).val = (j 0).val; omega
  | ⟨1, _⟩ => show win5_1.index t (1 : Fin 2) * 1 + 1 * (j 1).val = (j 1).val; omega
theorem emb5_2 (t : Fin cfg5.N) (j : S12500x128.Idx) : ((cfg5.win 2).blk t).view.emb j = j := by
  obtain ⟨-, -, -, -, e0, e1⟩ := idx5 t
  funext a; apply Fin.ext
  match a with
  | ⟨0, _⟩ => show win5_2.index t (0 : Fin 2) * 12500 + 1 * (j 0).val = (j 0).val; omega
  | ⟨1, _⟩ => show win5_2.index t (1 : Fin 2) * 128 + 1 * (j 1).val = (j 1).val; omega

theorem iblk5_0_eq (c : Dev nD) (t : Fin cfg5.N) : iblk5 V c 0 t = V c main_v95 := by
  funext j
  show V c main_v95 (((cfg5.win 0).blk t).view.emb j) = V c main_v95 j
  rw [emb5_0]
theorem iblk5_1_eq (c : Dev nD) (t : Fin cfg5.N) : iblk5 V c 1 t = V c main_v97 := by
  funext j
  show V c main_v97 (((cfg5.win 1).blk t).view.emb j) = V c main_v97 j
  rw [emb5_1]

theorem flushed5_2 (c : Dev nD) (t : Fin cfg5.N) :
    (dat5 V c).flushed 2 t = ((cfg5.win 2).blk t).view.read (Elt F) (k5_pay1 (V c main_v97) (V c main_v95)) := by
  show (cfg5.win 2).cut (grid5.coords t) ((dat5 V c).after 2 t) = _
  rw [after5_2, out5_2_eq, iblk5_0_eq, iblk5_1_eq]
  funext j
  show k5_pay1 (V c main_v97) (V c main_v95) j = k5_pay1 (V c main_v97) (V c main_v95) (((cfg5.win 2).blk t).view.emb j)
  rw [emb5_2]

theorem covered5_2 (i : S12500x128.Idx) :
    ∃ t : Fin cfg5.N, (cfg5.win 2).flush t = true ∧ i ∈ ((cfg5.win 2).blk t).view.set := by
  refine ⟨t5_0, flush5_2 t5_0, ?_⟩
  have h := ((cfg5.win 2).blk t5_0).view.emb_mem_set i
  rwa [emb5_2] at h

theorem result5 (c : Dev nD) : (dat5 V c).arrAt 2 cfg5.N = k5_pay1 (V c main_v97) (V c main_v95) :=
  (dat5 V c).arrAt_eq_of_cover 2 _ (fun t _ => flushed5_2 V c t) covered5_2

end Cert.KernelIdeal.Hand

end
-- ==== Proof.KI.Val6.lean ====
import proofs.«400307_j79207786873545_3_alg».proof.Proof.KI.Reg6
import proofs.«400307_j79207786873545_3_alg».proof.Proof.LibRowOps
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem pay6_apply (x0 x1 : Vec Ideal S8000x1 .f32) (x2 : Vec Ideal S8000x32 .f32) (p : Fin 8000) (q : Fin 32) :
    k6_pay1 x0 x1 x2 (ix2 p q) = Ideal.div (x0 (ix2 p (0 : Fin 1))) (x1 (ix2 p (0 : Fin 1))) * x2 (ix2 p q) := by
  unfold k6_pay1
  simp only [shapeCast_self]
  rw [mulf_apply, Cert.RowOps.broadcastTo_a1_ab_apply, divf_apply]

theorem idx_facts6 : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0
    ∧ win6_3.index t (0 : Fin 2) = t.val ∧ win6_3.index t (1 : Fin 2) = 0 :=
  (by decide +kernel : ∀ t : Fin grid6.N, _)

theorem pt_lt6 (t : Fin cfg6.N) : t.val < 200 :=
  Nat.lt_of_lt_of_eq t.isLt N_6

theorem iblk6_0_apply (c : Dev nD) (t : Fin cfg6.N) (p : Fin 8000) (k : Fin 1600000) (hk : k.val = 8000 * t.val + p.val) :
    iblk6 V c 0 t (ix2 p (0 : Fin 1)) = V c main_v99 (ix2 k (0 : Fin 1)) := by
  obtain ⟨e00, e01, -⟩ := idx_facts6 t
  unfold iblk6
  rw [View.read_apply]
  show V c main_v99 _ = V c main_v99 _
  congr 1
  funext a
  apply Fin.ext
  match a with
  | ⟨0, _⟩ => show win6_0.index t (0 : Fin 2) * 8000 + 1 * p.val = k.val; rw [e00, hk]; omega
  | ⟨1, _⟩ => show win6_0.index t (1 : Fin 2) * 1 + 1 * 0 = 0; rw [e01]

theorem iblk6_1_apply (c : Dev nD) (t : Fin cfg6.N) (p : Fin 8000) (k : Fin 1600000) (hk : k.val = 8000 * t.val + p.val) :
    iblk6 V c 1 t (ix2 p (0 : Fin 1)) = V c main_v111 (ix2 k (0 : Fin 1)) := by
  obtain ⟨-, -, e10, e11, -⟩ := idx_facts6 t
  unfold iblk6
  rw [View.read_apply]
  show V c main_v111 _ = V c main_v111 _
  congr 1
  funext a
  apply Fin.ext
  match a with
  | ⟨0, _⟩ => show win6_1.index t (0 : Fin 2) * 8000 + 1 * p.val = k.val; rw [e10, hk]; omega
  | ⟨1, _⟩ => show win6_1.index t (1 : Fin 2) * 1 + 1 * 0 = 0; rw [e11]

theorem iblk6_2_apply (c : Dev nD) (t : Fin cfg6.N) (p : Fin 8000) (q : Fin 32) (k : Fin 1600000) (hk : k.val = 8000 * t.val + p.val) :
    iblk6 V c 2 t (ix2 p q) = V c main_v90 (ix2 k q) := by
  obtain ⟨-, -, -, -, e20, e21, -⟩ := idx_facts6 t
  unfold iblk6
  rw [View.read_apply]
  show V c main_v90 _ = V c main_v90 _
  congr 1
  funext a
  apply Fin.ext
  match a with
  | ⟨0, _⟩ => show win6_2.index t (0 : Fin 2) * 8000 + 1 * p.val = k.val; rw [e20, hk]; omega
  | ⟨1, _⟩ => show win6_2.index t (1 : Fin 2) * 32 + 1 * q.val = q.val; rw [e21]; omega

def G6 (a0 a1 : S1600000x1.Idx → Elt Ideal .f32) (a2 : S1600000x32.Idx → Elt Ideal .f32) : S1600000x32.Idx → Elt Ideal .f32 :=
  fun i => Ideal.div (a0 (ix2 (i 0 : Fin 1600000) (0 : Fin 1))) (a1 (ix2 (i 0 : Fin 1600000) (0 : Fin 1))) * a2 i

theorem emb6_3 (t : Fin cfg6.N) (p : Fin 8000) (q : Fin 32) (k : Fin 1600000) (hk : k.val = 8000 * t.val + p.val) :
    ((cfg6.win 3).blk t).view.emb (ix2 p q) = (ix2 k q : S1600000x32.Idx) := by
  obtain ⟨-, -, -, -, -, -, e30, e31⟩ := idx_facts6 t
  funext a
  apply Fin.ext
  match a with
  | ⟨0, _⟩ => show win6_3.index t (0 : Fin 2) * 8000 + 1 * p.val = k.val; rw [e30, hk]; omega
  | ⟨1, _⟩ => show win6_3.index t (1 : Fin 2) * 32 + 1 * q.val = q.val; rw [e31]; omega

theorem flushed6_eq (c : Dev nD) (t : Fin cfg6.N) :
    (dat6 V c).flushed 3 t = ((cfg6.win 3).blk t).view.read (Elt Ideal) (G6 (V c main_v99) (V c main_v111) (V c main_v90)) := by
  show (cfg6.win 3).cut (grid6.coords t) ((dat6 V c).after 3 t) = _
  rw [after6_3]
  unfold out6_3
  have hz : (![0, 0] : Fin 2 → Nat) = fun _ => 0 := funext fun a => by fin_cases a <;> rfl
  rw [View.canon_unit_zero hz]
  simp only [View.ld_unit_zero (S := S8000x1) hz, View.ld_unit_zero (S := S8000x32) hz]
  funext j
  obtain ⟨p, q, rfl⟩ : ∃ (p : Fin 8000) (q : Fin 32), j = ix2 p q := ⟨j 0, j 1, eq_ix2 j⟩
  have hk : 8000 * t.val + p.val < 1600000 := by have := pt_lt6 t; have := p.isLt; omega
  refine (pay6_apply _ _ _ p q).trans ?_
  rw [iblk6_0_apply V c t p ⟨_, hk⟩ rfl, iblk6_1_apply V c t p ⟨_, hk⟩ rfl, iblk6_2_apply V c t p q ⟨_, hk⟩ rfl]
  show _ = G6 (V c main_v99) (V c main_v111) (V c main_v90) (((cfg6.win 3).blk t).view.emb (ix2 p q))
  rw [emb6_3 t p q ⟨_, hk⟩ rfl]
  rfl

theorem mem_blk6 (t : Fin cfg6.N) (i : S1600000x32.Idx) :
    i ∈ ((cfg6.win 3).blk t).view.set ↔ ∀ a : Fin 2, win6_3.index t a * S8000x32.size a ≤ (i a).val ∧ (i a).val < win6_3.index t a * S8000x32.size a + S8000x32.size a := by
  show i ∈ ((View.whole main_v112).slice (win6_3.rect t)).set ↔ _
  rw [View.set_slice_whole, Rect.mem_set_unit]
  exact Iff.rfl

theorem cover6 (i : S1600000x32.Idx) :
    ∃ t : Fin cfg6.N, (cfg6.win 3).flush t = true ∧ i ∈ ((cfg6.win 3).blk t).view.set := by
  have hi0 : (i 0).val < 1600000 := (i 0).isLt
  have hi1 : (i 1).val < 32 := (i 1).isLt
  have ht : (i 0).val / 8000 < cfg6.N := Nat.lt_of_lt_of_eq (by omega : (i 0).val / 8000 < 200) N_6.symm
  refine ⟨⟨(i 0).val / 8000, ht⟩, flush6_3 _, ?_⟩
  obtain ⟨-, -, -, -, -, -, e30, e31⟩ := idx_facts6 ⟨(i 0).val / 8000, ht⟩
  have e30' : win6_3.index ⟨(i 0).val / 8000, ht⟩ (0 : Fin 2) = (i 0).val / 8000 := e30
  rw [mem_blk6]
  intro a
  match a with
  | ⟨0, _⟩ =>
    show win6_3.index ⟨(i 0).val / 8000, ht⟩ (0 : Fin 2) * 8000 ≤ (i 0).val ∧ (i 0).val < win6_3.index ⟨(i 0).val / 8000, ht⟩ (0 : Fin 2) * 8000 + 8000
    rw [e30']; omega
  | ⟨1, _⟩ =>
    show win6_3.index ⟨(i 0).val / 8000, ht⟩ (1 : Fin 2) * 32 ≤ (i 1).val ∧ (i 1).val < win6_3.index ⟨(i 0).val / 8000, ht⟩ (1 : Fin 2) * 32 + 32
    rw [e31]; omega

theorem final6 (c : Dev nD) : (dat6 V c).arrAt 3 cfg6.N = G6 (V c main_v99) (V c main_v111) (V c main_v90) :=
  (dat6 V c).arrAt_eq_of_cover 3 (G6 (V c main_v99) (V c main_v111) (V c main_v90)) (fun t _ => flushed6_eq V c t) cover6

theorem result6 (V : (c : Dev nD) → (b : Ref sig .tc) → Buf (Elt Ideal) ((c : Thread nD τ).loc b)) (c : Dev nD) (p : Fin 1600000) (q : Fin 32) :
    (dat6 V c).arrAt 3 cfg6.N (ValueIdx.ix2 p q) = Ideal.div ((V c main_v99) (ValueIdx.ix2 p (0 : Fin 1))) ((V c main_v111) (ValueIdx.ix2 p (0 : Fin 1))) * (V c main_v90) (ValueIdx.ix2 p q) :=
  congrFun (final6 V c) (ix2 p q)

end Cert.KernelIdeal.Hand

end
-- ==== Proof.KI.Val7.lean ====
import proofs.«400307_j79207786873545_3_alg».proof.Proof.KI.Reg7
import Idealize.ShloMosaic.Lib.Pipeline.Value
import Idealize.ShloMosaic.Lib.ValueIdx
import Idealize.ShloMosaic.Lib.IdealHost
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

def eluSum (a b : EReal) : EReal :=
  if Ideal.cmp .ogt (a + b) (Ideal.ofBits .f32 0x00000000#32) = 1 then a + b
  else Ideal.exp (a + b) - Ideal.ofBits .f32 0x3F800000#32

theorem eluSum_eq (a b : EReal) : eluSum a b = if 0 < a + b then a + b else Ideal.exp (a + b) - 1 := by
  unfold eluSum
  rw [Ideal.ofBits_zero_f32, Ideal.ofBits_one_f32]
  by_cases h : 0 < a + b
  · rw [if_pos h, if_pos]
    show BitVec.ofBool (decide (0 < a + b)) = 1
    rw [decide_eq_true h]; rfl
  · rw [if_neg h, if_neg]
    show ¬ BitVec.ofBool (decide (0 < a + b)) = 1
    rw [decide_eq_false h]; decide

theorem pay7_apply (x0 x1 : Vec Ideal S5000x128 .f32) (j : S5000x128.Idx) :
    k7_pay1 (F := Ideal) x0 x1 j = eluSum (x0 j) (x1 j) := by
  unfold k7_pay1
  simp only [shapeCast_self]
  rfl

theorem hz7 : (![0, 0] : Fin 2 → Nat) = fun _ => 0 := funext fun a => by fin_cases a <;> rfl

theorem idx_facts7 : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0 :=
  (by decide +kernel : ∀ t : Fin grid7.N, _)

variable (V : (c : Dev nD) → (b : Ref sig .tc) → Buf (Elt Ideal) ((c : Thread nD τ).loc b))

abbrev G7 (a0 a1 : S25000x128.Idx → Elt Ideal .f32) : S25000x128.Idx → Elt Ideal .f32 :=
  fun i => eluSum (a0 i) (a1 i)

theorem flushed7_eq (c : Dev nD) (t : Fin cfg7.N) :
    (dat7 V c).flushed 2 t = ((cfg7.win 2).blk t).view.read (Elt Ideal) (G7 (V c main_v116) (V c main_v117)) := by
  show (cfg7.win 2).cut (grid7.coords t) ((dat7 V c).after 2 t) = _
  rw [after7_2]
  unfold out7_2
  rw [View.canon_unit_zero hz7]
  simp only [View.ld_unit_zero (S := S5000x128) hz7]
  obtain ⟨e0, e1, e2, e3, e4, e5⟩ := idx_facts7 t
  funext j
  refine (pay7_apply _ _ j).trans ?_
  show eluSum (V c main_v116 (((cfg7.win 0).blk t).view.emb j)) (V c main_v117 (((cfg7.win 1).blk t).view.emb j))
    = eluSum (V c main_v116 (((cfg7.win 2).blk t).view.emb j)) (V c main_v117 (((cfg7.win 2).blk t).view.emb j))
  have h0 : ((cfg7.win 0).blk t).view.emb j = ((cfg7.win 2).blk t).view.emb j := by
    funext a; apply Fin.ext
    match a with
    | ⟨0, _⟩ => show win7_0.index t (0 : Fin 2) * 5000 + 1 * (j 0).val = win7_2.index t (0 : Fin 2) * 5000 + 1 * (j 0).val; omega
    | ⟨1, _⟩ => show win7_0.index t (1 : Fin 2) * 128 + 1 * (j 1).val = win7_2.index t (1 : Fin 2) * 128 + 1 * (j 1).val; omega
  have h1 : ((cfg7.win 1).blk t).view.emb j = ((cfg7.win 2).blk t).view.emb j := by
    funext a; apply Fin.ext
    match a with
    | ⟨0, _⟩ => show win7_1.index t (0 : Fin 2) * 5000 + 1 * (j 0).val = win7_2.index t (0 : Fin 2) * 5000 + 1 * (j 0).val; omega
    | ⟨1, _⟩ => show win7_1.index t (1 : Fin 2) * 128 + 1 * (j 1).val = win7_2.index t (1 : Fin 2) * 128 + 1 * (j 1).val; omega
  rw [h0, h1]

theorem mem_blk7 (t : Fin cfg7.N) (i : S25000x128.Idx) :
    i ∈ ((cfg7.win 2).blk t).view.set ↔ ∀ a : Fin 2, win7_2.index t a * S5000x128.size a ≤ (i a).val ∧ (i a).val < win7_2.index t a * S5000x128.size a + S5000x128.size a := by
  show i ∈ ((View.whole main_v118).slice (win7_2.rect t)).set ↔ _
  rw [View.set_slice_whole, Rect.mem_set_unit]
  exact Iff.rfl

theorem cover7 (i : S25000x128.Idx) :
    ∃ t : Fin cfg7.N, (cfg7.win 2).flush t = true ∧ i ∈ ((cfg7.win 2).blk t).view.set := by
  have hi0 : (i 0).val < 25000 := (i 0).isLt
  have hi1 : (i 1).val < 128 := (i 1).isLt
  have hN : grid7.N = 5 := N_7
  let t : Fin cfg7.N := ⟨(i 0).val / 5000, by show (i 0).val / 5000 < grid7.N; omega⟩
  obtain ⟨-, -, -, -, e4, e5⟩ := idx_facts7 t
  have ht : t.val = (i 0).val / 5000 := rfl
  refine ⟨t, flush7_2 t, ?_⟩
  rw [mem_blk7]
  intro a
  match a with
  | ⟨0, _⟩ => show win7_2.index t (0 : Fin 2) * 5000 ≤ (i 0).val ∧ (i 0).val < win7_2.index t (0 : Fin 2) * 5000 + 5000; omega
  | ⟨1, _⟩ => show win7_2.index t (1 : Fin 2) * 128 ≤ (i 1).val ∧ (i 1).val < win7_2.index t (1 : Fin 2) * 128 + 128; omega

theorem final7 (c : Dev nD) : (dat7 V c).arrAt 2 cfg7.N = G7 (V c main_v116) (V c main_v117) :=
  (dat7 V c).arrAt_eq_of_cover 2 _ (fun t _ => flushed7_eq V c t) cover7

theorem result7 (V : (c : Dev nD) → (b : Ref sig .tc) → Buf (Elt Ideal) ((c : Thread nD τ).loc b)) (c : Dev nD) (p : Fin 25000) (q : Fin 128) :
    (dat7 V c).arrAt 2 cfg7.N (ValueIdx.ix2 p q) = eluSum ((V c main_v116) (ValueIdx.ix2 p q)) ((V c main_v117) (ValueIdx.ix2 p q)) :=
  congrFun (final7 V c) (ValueIdx.ix2 p q)

end Cert.KernelIdeal.Hand

end
-- ==== Proof.KI.Terms.lean ====
import proofs.«400307_j79207786873545_3_alg».proof.KernelIdeal

noncomputable section

namespace Cert.KernelIdeal.Hand

open Cert.KernelIdeal Idealize.ShloMosaic
open Cert.KernelIdeal.Facts₀

variable {F : FTy → Type} [FloatOps F] [Cert.KernelIdeal.Facts]

def attLo (a : FVec F S64x1 .f32) : FVec F S32x1 .f32 := extractStridedSlice S32x1 ![0, 0] a slices_S64x1_S32x1_0_0

def attHi (a : FVec F S64x1 .f32) : FVec F S32x1 .f32 := extractStridedSlice S32x1 ![32, 0] a slices_S64x1_S32x1_32_0

def foldAtt (W : FVec F S32x32 .f32) (v : FVec F S32x1 .f32) : FVec F S32x1 .f32 :=
  Host.dotGeneral dot_S32x32_S32x1_S32x1_1_0_0_1_n_n none W v

def wideTable (W1 W2 : FVec F S32x32 .f32) (a1 a2 : FVec F S64x1 .f32) : FVec F S32x68 .f32 :=
  concatenate S32x68 1 [⟨S32x32, W1⟩, ⟨S32x1, foldAtt W1 (attLo a1)⟩, ⟨S32x1, foldAtt W1 (attHi a1)⟩,
    ⟨S32x32, W2⟩, ⟨S32x1, foldAtt W2 (attLo a2)⟩, ⟨S32x1, foldAtt W2 (attHi a2)⟩]
    concatenates_S32x32_S32x1_S32x1_S32x32_S32x1_S32x1_S32x68_d1

def featA (g : FVec F S100000x68 .f32) : FVec F S100000x32 .f32 := extractStridedSlice S100000x32 ![0, 0] g slices_S100000x68_S100000x32_0_0

def srcScoreA (g : FVec F S100000x68 .f32) : FVec F S100000x1 .f32 := extractStridedSlice S100000x1 ![0, 32] g slices_S100000x68_S100000x1_0_32

def tgtScoreA (g : FVec F S100000x68 .f32) : FVec F S100000x1 .f32 := extractStridedSlice S100000x1 ![0, 33] g slices_S100000x68_S100000x1_0_33

def featB (g : FVec F S100000x68 .f32) : FVec F S100000x32 .f32 := extractStridedSlice S100000x32 ![0, 34] g slices_S100000x68_S100000x32_0_34

def srcScoreB (g : FVec F S100000x68 .f32) : FVec F S100000x1 .f32 := extractStridedSlice S100000x1 ![0, 66] g slices_S100000x68_S100000x1_0_66

def tgtScoreB (g : FVec F S100000x68 .f32) : FVec F S100000x1 .f32 := extractStridedSlice S100000x1 ![0, 67] g slices_S100000x68_S100000x1_0_67

def idxRow0 (a : IVec S2x1600000 32) : IVec S1600000 32 :=
  shapeCast S1600000 (extractStridedSlice S1x1600000 ![0, 0] a slices_S2x1600000_S1x1600000_0_0) shapeCasts_S1x1600000_S1600000

def idxRow1 (a : IVec S2x1600000 32) : IVec S1600000 32 :=
  shapeCast S1600000 (extractStridedSlice S1x1600000 ![1, 0] a slices_S2x1600000_S1x1600000_1_0) shapeCasts_S1x1600000_S1600000

def wrapCol (v : IVec S1600000 32) : IVec S1600000x1 32 :=
  broadcastInDim S1600000x1 ![0] bcast_S1600000_S1600000x1_0
    (select (cmpi .slt v (broadcastInDim S1600000 ![] bcast_S_S1600000 (constantI S_ 32 0#32)))
      (addi v (broadcastInDim S1600000 ![] bcast_S_S1600000 (constantI S_ 32 100000#32))) v)

def rawCol (v : IVec S1600000 32) : IVec S1600000x1 32 :=
  broadcastInDim S1600000x1 ![0] bcast_S1600000_S1600000x1_0 v

def edgeLanes (col : FVec F S100000x1 .f32) (v : IVec S1600000 32) : FVec F S12500x128 .f32 :=
  shapeCast S12500x128
    (shapeCast S1600000 (Host.gather gather_S100000x1_S1600000x1_S1600000x1_1_0_n_n_0_1_11 col (wrapCol v)) shapeCasts_S1600000x1_S1600000)
    shapeCasts_S1600000_S12500x128

def edgeRows (h : FVec F S100000x32 .f32) (v : IVec S1600000 32) : FVec F S1600000x32 .f32 :=
  Host.gather gather_S100000x32_S1600000x1_S1600000x32_1_0_n_n_0_1_132 h (wrapCol v)

def topScore (l : FVec F S12500x128 .f32) : FVec F S1x1 .f32 :=
  shapeCast S1x1 (Host.reduce FloatOps.maximumf l (constant S_ .f32 0xFF800000#32) reducesTo_S12500x128_S_d0_1 h_S_) shapeCasts_S_S1x1

def asColumn (p : FVec F S12500x128 .f32) : FVec F S1600000x1 .f32 := shapeCast S1600000x1 p shapeCasts_S12500x128_S1600000x1

def denom (p : FVec F S1600000x1 .f32) (src : IVec S1600000 32) : FVec F S100000x1 .f32 :=
  addf (Host.scatterAdd scatter_S100000x1_S1600000x1_S1600000x1_1_0_0_1
      (broadcastInDim S100000x1 ![] bcast_S_S100000x1 (constant S_ .f32 0x00000000#32)) (rawCol src) p)
    (broadcastInDim S100000x1 ![] bcast_S_S100000x1 (constant S_ .f32 0x2EDBE6FF#32))

def denomAt (p : FVec F S1600000x1 .f32) (src : IVec S1600000 32) : FVec F S1600000x1 .f32 :=
  Host.gather gather_S100000x1_S1600000x1_S1600000x1_1_0_n_n_0_1_11 (denom p src) (wrapCol src)

def aggregate (wt : FVec F S1600000x32 .f32) (src : IVec S1600000 32) : FVec F S100000x32 .f32 :=
  Host.scatterAdd scatter_S100000x32_S1600000x1_S1600000x32_1_0_0_1
    (broadcastInDim S100000x32 ![] bcast_S_S100000x32 (constant S_ .f32 0x00000000#32)) (rawCol src) wt

def lanes (o : FVec F S100000x32 .f32) : FVec F S25000x128 .f32 := shapeCast S25000x128 o shapeCasts_S100000x32_S25000x128
def unlanes (z : FVec F S25000x128 .f32) : FVec F S100000x32 .f32 := shapeCast S100000x32 z shapeCasts_S25000x128_S100000x32

end Cert.KernelIdeal.Hand

end
-- ==== Proof.LibNary6.lean ====
import Idealize.ShloMosaic.Lib.StableHlo.Run

noncomputable section

namespace Idealize.ShloMosaic.StableHlo

variable {τ : Topo} {sig : RefSig} {Val : EltTy → Type}

theorem nary6_result {x a b c d e y : Ref sig .tc}
    (f : ((k : Fin 6) → ((![x, a, b, c, d, e] : Fin 6 → Ref sig .tc) k).ty.Contents Val) → y.ty.Contents Val) (hxs hy)
    (F : Valuation τ sig Val) :
    (nary (τ := τ) ![x, a, b, c, d, e] y f hxs hy).result F (Proc.devRef .tc y)
      = f (Fin.cons (F (Proc.devRef .tc x)) (Fin.cons (F (Proc.devRef .tc a)) (Fin.cons (F (Proc.devRef .tc b))
          (Fin.cons (F (Proc.devRef .tc c)) (Fin.cons (F (Proc.devRef .tc d)) (Fin.cons (F (Proc.devRef .tc e))
            (fun i => i.elim0))))))) := by
  rw [nary_result]; congr 1; funext k; fin_cases k <;> rfl

end Idealize.ShloMosaic.StableHlo

end
-- ==== Proof.KI.HostA.lean ====
import proofs.«400307_j79207786873545_3_alg».proof.Proof.Gen.KernelIdeal.Launch
import proofs.«400307_j79207786873545_3_alg».proof.Proof.KI.Terms
import proofs.«400307_j79207786873545_3_alg».proof.Proof.LibNary6

set_option maxRecDepth 16384

noncomputable section

namespace Cert.KernelIdeal.Hand

open Idealize.ShloMosaic Idealize.ShloMosaic.TcCoe Idealize.ShloMosaic.StableHlo
open Cert.KernelIdeal Cert.KernelIdeal.Gen

variable {F : FTy → Type} [FloatOps F]
variable (W : Valuation τ sig (Elt F))

set_option maxHeartbeats 4000000 in
theorem table_after0 : (StableHlo.after hostOps0 W (Proc.devRef .tc main_v8) : FVec F S32x68 .f32) = wideTable (W (Proc.devRef .tc main_arg3)) (W (Proc.devRef .tc main_arg4)) (W (Proc.devRef .tc main_arg5)) (W (Proc.devRef .tc main_arg6)) := by
  simp only [hostOps0, StableHlo.after_cons, StableHlo.after_nil]
  rw [StableHlo.nary6_result]
  repeat (first
    | rw [unary_result] | rw [binary_result]
    | (rw [unary_result_ne]; rotate_left; decide)
    | (rw [binary_result_ne]; rotate_left; decide))
  rfl

set_option maxHeartbeats 4000000 in
theorem top_after2 : (StableHlo.after hostOps2 W (Proc.devRef .tc main_v47) : FVec F S1x1 .f32) = topScore (W (Proc.devRef .tc main_v45)) := by
  simp only [hostOps2]
  after_results
  rfl

set_option maxHeartbeats 4000000 in
theorem column_after3 : (StableHlo.after hostOps3 W (Proc.devRef .tc main_v49) : FVec F S1600000x1 .f32) = asColumn (W (Proc.devRef .tc main_v48)) := by
  simp only [hostOps3]
  after_results
  rfl

set_option maxHeartbeats 4000000 in
theorem denomAt_after3 : (StableHlo.after hostOps3 W (Proc.devRef .tc main_v61) : FVec F S1600000x1 .f32) = denomAt (asColumn (W (Proc.devRef .tc main_v48))) (W (Proc.devRef .tc main_v17)) := by
  simp only [hostOps3]
  after_results
  rfl

set_option maxHeartbeats 4000000 in
theorem top_after5 : (StableHlo.after hostOps5 W (Proc.devRef .tc main_v97) : FVec F S1x1 .f32) = topScore (W (Proc.devRef .tc main_v95)) := by
  simp only [hostOps5]
  after_results
  rfl

set_option maxHeartbeats 4000000 in
theorem column_after6 : (StableHlo.after hostOps6 W (Proc.devRef .tc main_v99) : FVec F S1600000x1 .f32) = asColumn (W (Proc.devRef .tc main_v98)) := by
  simp only [hostOps6]
  after_results
  rfl

set_option maxHeartbeats 4000000 in
theorem denomAt_after6 : (StableHlo.after hostOps6 W (Proc.devRef .tc main_v111) : FVec F S1600000x1 .f32) = denomAt (asColumn (W (Proc.devRef .tc main_v98))) (W (Proc.devRef .tc main_v67)) := by
  simp only [hostOps6]
  after_results
  rfl

set_option maxHeartbeats 4000000 in
theorem lanesA_after7 : (StableHlo.after hostOps7 W (Proc.devRef .tc main_v116) : FVec F S25000x128 .f32) = lanes (W (Proc.devRef .tc main_v65)) := by
  simp only [hostOps7]
  after_results
  rfl

set_option maxHeartbeats 4000000 in
theorem lanesB_after7 : (StableHlo.after hostOps7 W (Proc.devRef .tc main_v117) : FVec F S25000x128 .f32) = lanes (aggregate (W (Proc.devRef .tc main_v112)) (W (Proc.devRef .tc main_v67))) := by
  simp only [hostOps7]
  after_results
  rfl

set_option maxHeartbeats 4000000 in
theorem out_after8 : (StableHlo.after hostOps8 W (Proc.devRef .tc main_v119) : FVec F S100000x32 .f32) = unlanes (W (Proc.devRef .tc main_v118)) := by
  simp only [hostOps8]
  after_results
  rfl

end Cert.KernelIdeal.Hand

end
-- ==== Proof.KI.HostB.lean ====
import proofs.«400307_j79207786873545_3_alg».proof.Proof.Gen.KernelIdeal.Launch
import proofs.«400307_j79207786873545_3_alg».proof.Proof.KI.Terms
import proofs.«400307_j79207786873545_3_alg».proof.Proof.LibNary6

set_option maxRecDepth 16384

noncomputable section

namespace Cert.KernelIdeal.Hand

open Idealize.ShloMosaic Idealize.ShloMosaic.TcCoe Idealize.ShloMosaic.StableHlo
open Cert.KernelIdeal Cert.KernelIdeal.Gen

variable {F : FTy → Type} [FloatOps F]
variable (W : Valuation τ sig (Elt F))

set_option maxHeartbeats 4000000 in
theorem featA_after1 : (StableHlo.after hostOps1 W (Proc.devRef .tc main_v10) : FVec F S100000x32 .f32) = featA (W (Proc.devRef .tc main_v9)) := by
  simp only [hostOps1]
  after_results_simp
  rfl

set_option maxHeartbeats 4000000 in
theorem featB_after1 : (StableHlo.after hostOps1 W (Proc.devRef .tc main_v13) : FVec F S100000x32 .f32) = featB (W (Proc.devRef .tc main_v9)) := by
  simp only [hostOps1]
  after_results_simp
  rfl

set_option maxHeartbeats 4000000 in
theorem srcScoreB_after1 : (StableHlo.after hostOps1 W (Proc.devRef .tc main_v14) : FVec F S100000x1 .f32) = srcScoreB (W (Proc.devRef .tc main_v9)) := by
  simp only [hostOps1]
  after_results_simp
  rfl

set_option maxHeartbeats 4000000 in
theorem tgtScoreB_after1 : (StableHlo.after hostOps1 W (Proc.devRef .tc main_v15) : FVec F S100000x1 .f32) = tgtScoreB (W (Proc.devRef .tc main_v9)) := by
  simp only [hostOps1]
  after_results_simp
  rfl

set_option maxHeartbeats 4000000 in
theorem srcA_after1 : (StableHlo.after hostOps1 W (Proc.devRef .tc main_v17) : IVec S1600000 32) = idxRow0 (W (Proc.devRef .tc main_arg1)) := by
  simp only [hostOps1]
  after_results_simp
  rfl

set_option maxHeartbeats 4000000 in
theorem rowsA_after1 : (StableHlo.after hostOps1 W (Proc.devRef .tc main_v40) : FVec F S1600000x32 .f32) = edgeRows (featA (W (Proc.devRef .tc main_v9))) (idxRow1 (W (Proc.devRef .tc main_arg1))) := by
  simp only [hostOps1]
  after_results_simp
  rfl

set_option maxHeartbeats 4000000 in
theorem lanesSrcA_after1 : (StableHlo.after hostOps1 W (Proc.devRef .tc main_v42) : FVec F S12500x128 .f32) = edgeLanes (srcScoreA (W (Proc.devRef .tc main_v9))) (idxRow0 (W (Proc.devRef .tc main_arg1))) := by
  simp only [hostOps1]
  after_results_simp
  rfl

set_option maxHeartbeats 4000000 in
theorem lanesTgtA_after1 : (StableHlo.after hostOps1 W (Proc.devRef .tc main_v44) : FVec F S12500x128 .f32) = edgeLanes (tgtScoreA (W (Proc.devRef .tc main_v9))) (idxRow1 (W (Proc.devRef .tc main_arg1))) := by
  simp only [hostOps1]
  after_results_simp
  rfl

end Cert.KernelIdeal.Hand

end
-- ==== Proof.KI.HostC.lean ====
import proofs.«400307_j79207786873545_3_alg».proof.Proof.Gen.KernelIdeal.Launch
import proofs.«400307_j79207786873545_3_alg».proof.Proof.KI.Terms
import proofs.«400307_j79207786873545_3_alg».proof.Proof.LibNary6

set_option maxRecDepth 16384

noncomputable section

namespace Cert.KernelIdeal.Hand

open Idealize.ShloMosaic Idealize.ShloMosaic.TcCoe Idealize.ShloMosaic.StableHlo
open Cert.KernelIdeal Cert.KernelIdeal.Gen

variable {F : FTy → Type} [FloatOps F]
variable (W : Valuation τ sig (Elt F))

set_option maxHeartbeats 4000000 in
theorem sumA_after4 : (StableHlo.after hostOps4 W (Proc.devRef .tc main_v65) : FVec F S100000x32 .f32) = aggregate (W (Proc.devRef .tc main_v62)) (W (Proc.devRef .tc main_v17)) := by
  simp only [hostOps4]
  after_results_simp
  rfl

set_option maxHeartbeats 4000000 in
theorem srcB_after4 : (StableHlo.after hostOps4 W (Proc.devRef .tc main_v67) : IVec S1600000 32) = idxRow0 (W (Proc.devRef .tc main_arg2)) := by
  simp only [hostOps4]
  after_results_simp
  rfl

set_option maxHeartbeats 4000000 in
theorem rowsB_after4 : (StableHlo.after hostOps4 W (Proc.devRef .tc main_v90) : FVec F S1600000x32 .f32) = edgeRows (W (Proc.devRef .tc main_v13)) (idxRow1 (W (Proc.devRef .tc main_arg2))) := by
  simp only [hostOps4]
  after_results_simp
  rfl

set_option maxHeartbeats 4000000 in
theorem lanesSrcB_after4 : (StableHlo.after hostOps4 W (Proc.devRef .tc main_v92) : FVec F S12500x128 .f32) = edgeLanes (W (Proc.devRef .tc main_v14)) (idxRow0 (W (Proc.devRef .tc main_arg2))) := by
  simp only [hostOps4]
  after_results_simp
  rfl

set_option maxHeartbeats 4000000 in
theorem lanesTgtB_after4 : (StableHlo.after hostOps4 W (Proc.devRef .tc main_v94) : FVec F S12500x128 .f32) = edgeLanes (W (Proc.devRef .tc main_v15)) (idxRow1 (W (Proc.devRef .tc main_arg2))) := by
  simp only [hostOps4]
  after_results_simp
  rfl

end Cert.KernelIdeal.Hand

end
-- ==== Proof.Ref.Terms.lean ====
import proofs.«400307_j79207786873545_3_alg».proof.ReferenceIdeal

noncomputable section

namespace Cert.ReferenceIdeal.Hand

open Cert.ReferenceIdeal Idealize.ShloMosaic
open Cert.ReferenceIdeal.Facts₀

variable {F : FTy → Type} [FloatOps F] [Cert.ReferenceIdeal.Facts]

def idxRow0 (a : IVec S2x1600000 32) : IVec S1600000 32 :=
  shapeCast S1600000 (extractStridedSlice S1x1600000 ![0, 0] a slices_S2x1600000_S1x1600000_0_0) shapeCasts_S1x1600000_S1600000

def idxRow1 (a : IVec S2x1600000 32) : IVec S1600000 32 :=
  shapeCast S1600000 (extractStridedSlice S1x1600000 ![1, 0] a slices_S2x1600000_S1x1600000_1_0) shapeCasts_S1x1600000_S1600000

def wrapCol (v : IVec S1600000 32) : IVec S1600000x1 32 :=
  broadcastInDim S1600000x1 ![0] bcast_S1600000_S1600000x1_0
    (select (cmpi .slt v (broadcastInDim S1600000 ![] bcast_S_S1600000 (constantI S_ 32 0#32)))
      (addi v (broadcastInDim S1600000 ![] bcast_S_S1600000 (constantI S_ 32 100000#32))) v)

def rawCol (v : IVec S1600000 32) : IVec S1600000x1 32 :=
  broadcastInDim S1600000x1 ![0] bcast_S1600000_S1600000x1_0 v

def lrelu (e : FVec F S1600000x1 .f32) : FVec F S1600000x1 .f32 :=
  select (cmpf .oge e (broadcastInDim S1600000x1 ![] bcast_S_S1600000x1 (constant S_ .f32 0x00000000#32)))
    e
    (mulf (broadcastInDim S1600000x1 ![] bcast_S_S1600000x1 (id (constant S_ .f32 0x3E4CCCCD#32))) e)

def score (h : FVec F S100000x32 .f32) (att : FVec F S64x1 .f32) (src tgt : IVec S1600000 32) : FVec F S1600000x1 .f32 :=
  addf
    (Host.dotGeneral dot_S1600000x32_S32x1_S1600000x1_1_0_0_1_n_n none
      (Host.gather gather_S100000x32_S1600000x1_S1600000x32_1_0_n_n_0_1_132 h (wrapCol src))
      (extractStridedSlice S32x1 ![0, 0] att slices_S64x1_S32x1_0_0))
    (Host.dotGeneral dot_S1600000x32_S32x1_S1600000x1_1_0_0_1_n_n none
      (Host.gather gather_S100000x32_S1600000x1_S1600000x32_1_0_n_n_0_1_132 h (wrapCol tgt))
      (extractStridedSlice S32x1 ![32, 0] att slices_S64x1_S32x1_32_0))

def expShift (lr : FVec F S1600000x1 .f32) : FVec F S1600000x1 .f32 :=
  Host.exp (subf lr (broadcastInDim S1600000x1 ![] bcast_S_S1600000x1
    (Host.reduce FloatOps.maximumf lr (constant S_ .f32 0xFF800000#32) reducesTo_S1600000x1_S_d0_1 h_S_)))

def denom (p : FVec F S1600000x1 .f32) (src : IVec S1600000 32) : FVec F S100000x1 .f32 :=
  addf
    (Host.scatterAdd scatter_S100000x1_S1600000x1_S1600000x1_1_0_0_1
      (broadcastInDim S100000x1 ![] bcast_S_S100000x1 (constant S_ .f32 0x00000000#32)) (rawCol src) p)
    (broadcastInDim S100000x1 ![] bcast_S_S100000x1 (constant S_ .f32 0x2EDBE6FF#32))

def tail (lr : FVec F S1600000x1 .f32) (ht : FVec F S1600000x32 .f32) (src : IVec S1600000 32) : FVec F S100000x32 .f32 :=
  Host.scatterAdd scatter_S100000x32_S1600000x1_S1600000x32_1_0_0_1
    (broadcastInDim S100000x32 ![] bcast_S_S100000x32 (constant S_ .f32 0x00000000#32))
    (rawCol src)
    (mulf
      (broadcastInDim S1600000x32 ![0, 1] bcast_S1600000x1_S1600000x32_0_1
        (Host.divf (expShift lr)
          (Host.gather gather_S100000x1_S1600000x1_S1600000x1_1_0_n_n_0_1_11 (denom (expShift lr) src) (wrapCol src))))
      ht)

def branch (x : FVec F S100000x32 .f32) (W : FVec F S32x32 .f32) (att : FVec F S64x1 .f32) (idx : IVec S2x1600000 32) :
    FVec F S100000x32 .f32 :=
  tail
    (lrelu (score (Host.dotGeneral dot_S100000x32_S32x32_S100000x32_1_0_0_1_n_n none x W) att (idxRow0 idx) (idxRow1 idx)))
    (Host.gather gather_S100000x32_S1600000x1_S1600000x32_1_0_n_n_0_1_132
      (Host.dotGeneral dot_S100000x32_S32x32_S100000x32_1_0_0_1_n_n none x W) (wrapCol (idxRow1 idx)))
    (idxRow0 idx)

def elu (s : FVec F S100000x32 .f32) : FVec F S100000x32 .f32 :=
  select (cmpf .ogt s (broadcastInDim S100000x32 ![] bcast_S_S100000x32 (constant S_ .f32 0x00000000#32)))
    s
    (mulf (broadcastInDim S100000x32 ![] bcast_S_S100000x32 (constant S_ .f32 0x3F800000#32))
      (Host.expm1
        (select (cmpf .ogt s (broadcastInDim S100000x32 ![] bcast_S_S100000x32 (constant S_ .f32 0x00000000#32)))
          (broadcastInDim S100000x32 ![] bcast_S_S100000x32 (id (constant S_ .f32 0x00000000#32)))
          s)))

def refOut (x : FVec F S100000x32 .f32) (i1 i2 : IVec S2x1600000 32) (W1 W2 : FVec F S32x32 .f32)
    (a1 a2 : FVec F S64x1 .f32) : FVec F S100000x32 .f32 :=
  elu (addf (branch x W1 a1 i1) (branch x W2 a2 i2))

end Cert.ReferenceIdeal.Hand

end
-- ==== Proof.Bridge.Basic.lean ====
import proofs.«400307_j79207786873545_3_alg».proof.Proof.KI.Terms
import proofs.«400307_j79207786873545_3_alg».proof.Proof.Ref.Terms
import Idealize.ShloMosaic.PureOps.Ideal
import Idealize.ShloMosaic.Lib.ValueIdx

noncomputable section

namespace Cert.Bridge

open Idealize.ShloMosaic Idealize.ShloMosaic.ValueIdx

variable [hK : Cert.KernelIdeal.Facts] [hR : Cert.ReferenceIdeal.Facts]

def AllReal {S : Shape} (v : S.Idx → EReal) : Prop := ∀ i, ∃ r : ℝ, v i = (r : EReal)

def toLanes (e : FVec Ideal Cert.KernelIdeal.S1600000x1 .f32) : FVec Ideal Cert.KernelIdeal.S12500x128 .f32 :=
  shapeCast Cert.KernelIdeal.S12500x128
    (shapeCast Cert.KernelIdeal.S1600000 e Cert.KernelIdeal.Facts₀.shapeCasts_S1600000x1_S1600000)
    Cert.KernelIdeal.Facts₀.shapeCasts_S1600000_S12500x128

end Cert.Bridge

end
-- ==== Proof.Bridge.Table.lean ====
import proofs.«400307_j79207786873545_3_alg».proof.Proof.Bridge.Basic
import Idealize.ShloMosaic.Lib.ValueIdx
import Idealize.ShloMosaic.Lib.ValueLayout
import Idealize.ShloMosaic.Lib.Pipeline.Value
import Idealize.ShloMosaic.Lib.StackMember
import Idealize.ShloMosaic.PureOps.Ideal.Laws

noncomputable section

namespace Cert.Bridge

open Idealize.ShloMosaic Idealize.ShloMosaic.ValueIdx

variable [hK : Cert.KernelIdeal.Facts] [hR : Cert.ReferenceIdeal.Facts]

theorem dotK_eq_plain : Cert.KernelIdeal.dot_S32x32_S32x1_S32x1_1_0_0_1_n_n = DotDims.plain 32 32 1 := rfl

theorem dotR_eq_plain : Cert.ReferenceIdeal.dot_S100000x32_S32x32_S100000x32_1_0_0_1_n_n = DotDims.plain 100000 32 32 := rfl

theorem foldAtt_apply (W : FVec Ideal Cert.KernelIdeal.S32x32 .f32) (v : FVec Ideal Cert.KernelIdeal.S32x1 .f32) (k : Fin 32) :
    Cert.KernelIdeal.Hand.foldAtt W v (ix2 k (0 : Fin 1)) = ∑ j : Fin 32, W (ix2 k j) * v (ix2 j (0 : Fin 1)) := by
  show Host.dotGeneral Cert.KernelIdeal.dot_S32x32_S32x1_S32x1_1_0_0_1_n_n none W v (ix2 k (0 : Fin 1)) = _
  rw [dotK_eq_plain]
  exact StackMember.dotGeneral_plain_apply none W v k 0

theorem attLo_apply (a : FVec Ideal Cert.KernelIdeal.S64x1 .f32) (j : Fin 32) :
    Cert.KernelIdeal.Hand.attLo a (ix2 j (0 : Fin 1)) = a (ix2 (⟨j.val, by omega⟩ : Fin 64) (0 : Fin 1)) :=
  slice2_axis0_apply 0 a _ j 0 _ (by simp)

theorem attHi_apply (a : FVec Ideal Cert.KernelIdeal.S64x1 .f32) (j : Fin 32) :
    Cert.KernelIdeal.Hand.attHi a (ix2 j (0 : Fin 1)) = a (ix2 (⟨32 + j.val, by omega⟩ : Fin 64) (0 : Fin 1)) :=
  slice2_axis0_apply 32 a _ j 0 _ rfl

section Table
variable (W1 W2 : FVec Ideal Cert.KernelIdeal.S32x32 .f32) (a1 a2 : FVec Ideal Cert.KernelIdeal.S64x1 .f32)

theorem table_W1 (k j : Fin 32) :
    Cert.KernelIdeal.Hand.wideTable W1 W2 a1 a2 (ix2 k (⟨j.val, by omega⟩ : Fin 68)) = W1 (ix2 k j) := by
  unfold Cert.KernelIdeal.Hand.wideTable
  refine Eq.trans (concatenate_apply_piece (t := Cert.KernelIdeal.S32x68) _ _ _ _ 0 ?_ Cert.KernelIdeal.S32x32
    W1 ?_ rfl 0 ?_ (ix2 k j) ?_ ?_) ?_
  · exact (by decide : (0 : Nat) < 6)
  · rfl
  · rfl
  · intro b hb
    match b with
    | ⟨0, _⟩ => rfl
    | ⟨1, _⟩ => exact absurd rfl hb
  · show 0 + j.val = j.val
    omega
  · rfl

theorem table_lo1 (k : Fin 32) :
    Cert.KernelIdeal.Hand.wideTable W1 W2 a1 a2 (ix2 k (⟨32, by omega⟩ : Fin 68))
      = ∑ j : Fin 32, W1 (ix2 k j) * a1 (ix2 (⟨j.val, by omega⟩ : Fin 64) (0 : Fin 1)) := by
  unfold Cert.KernelIdeal.Hand.wideTable
  refine Eq.trans (concatenate_apply_piece (t := Cert.KernelIdeal.S32x68) _ _ _ _ 1 ?_ Cert.KernelIdeal.S32x1
    (Cert.KernelIdeal.Hand.foldAtt W1 (Cert.KernelIdeal.Hand.attLo a1)) ?_ rfl 32 ?_ (ix2 k (0 : Fin 1)) ?_ ?_) ?_
  · exact (by decide : (1 : Nat) < 6)
  · rfl
  · rfl
  · intro b hb
    match b with
    | ⟨0, _⟩ => rfl
    | ⟨1, _⟩ => exact absurd rfl hb
  · rfl
  · rw [foldAtt_apply]
    exact Finset.sum_congr rfl fun j _ => by rw [attLo_apply]

theorem table_hi1 (k : Fin 32) :
    Cert.KernelIdeal.Hand.wideTable W1 W2 a1 a2 (ix2 k (⟨33, by omega⟩ : Fin 68))
      = ∑ j : Fin 32, W1 (ix2 k j) * a1 (ix2 (⟨32 + j.val, by omega⟩ : Fin 64) (0 : Fin 1)) := by
  unfold Cert.KernelIdeal.Hand.wideTable
  refine Eq.trans (concatenate_apply_piece (t := Cert.KernelIdeal.S32x68) _ _ _ _ 2 ?_ Cert.KernelIdeal.S32x1
    (Cert.KernelIdeal.Hand.foldAtt W1 (Cert.KernelIdeal.Hand.attHi a1)) ?_ rfl 33 ?_ (ix2 k (0 : Fin 1)) ?_ ?_) ?_
  · exact (by decide : (2 : Nat) < 6)
  · rfl
  · rfl
  · intro b hb
    match b with
    | ⟨0, _⟩ => rfl
    | ⟨1, _⟩ => exact absurd rfl hb
  · rfl
  · rw [foldAtt_apply]
    exact Finset.sum_congr rfl fun j _ => by rw [attHi_apply]

theorem table_W2 (k j : Fin 32) :
    Cert.KernelIdeal.Hand.wideTable W1 W2 a1 a2 (ix2 k (⟨34 + j.val, by omega⟩ : Fin 68)) = W2 (ix2 k j) := by
  unfold Cert.KernelIdeal.Hand.wideTable
  refine Eq.trans (concatenate_apply_piece (t := Cert.KernelIdeal.S32x68) _ _ _ _ 3 ?_ Cert.KernelIdeal.S32x32
    W2 ?_ rfl 34 ?_ (ix2 k j) ?_ ?_) ?_
  · exact (by decide : (3 : Nat) < 6)
  · rfl
  · rfl
  · intro b hb
    match b with
    | ⟨0, _⟩ => rfl
    | ⟨1, _⟩ => exact absurd rfl hb
  · rfl
  · rfl

theorem table_lo2 (k : Fin 32) :
    Cert.KernelIdeal.Hand.wideTable W1 W2 a1 a2 (ix2 k (⟨66, by omega⟩ : Fin 68))
      = ∑ j : Fin 32, W2 (ix2 k j) * a2 (ix2 (⟨j.val, by omega⟩ : Fin 64) (0 : Fin 1)) := by
  unfold Cert.KernelIdeal.Hand.wideTable
  refine Eq.trans (concatenate_apply_piece (t := Cert.KernelIdeal.S32x68) _ _ _ _ 4 ?_ Cert.KernelIdeal.S32x1
    (Cert.KernelIdeal.Hand.foldAtt W2 (Cert.KernelIdeal.Hand.attLo a2)) ?_ rfl 66 ?_ (ix2 k (0 : Fin 1)) ?_ ?_) ?_
  · exact (by decide : (4 : Nat) < 6)
  · rfl
  · rfl
  · intro b hb
    match b with
    | ⟨0, _⟩ => rfl
    | ⟨1, _⟩ => exact absurd rfl hb
  · rfl
  · rw [foldAtt_apply]
    exact Finset.sum_congr rfl fun j _ => by rw [attLo_apply]

theorem table_hi2 (k : Fin 32) :
    Cert.KernelIdeal.Hand.wideTable W1 W2 a1 a2 (ix2 k (⟨67, by omega⟩ : Fin 68))
      = ∑ j : Fin 32, W2 (ix2 k j) * a2 (ix2 (⟨32 + j.val, by omega⟩ : Fin 64) (0 : Fin 1)) := by
  unfold Cert.KernelIdeal.Hand.wideTable
  refine Eq.trans (concatenate_apply_piece (t := Cert.KernelIdeal.S32x68) _ _ _ _ 5 ?_ Cert.KernelIdeal.S32x1
    (Cert.KernelIdeal.Hand.foldAtt W2 (Cert.KernelIdeal.Hand.attHi a2)) ?_ rfl 67 ?_ (ix2 k (0 : Fin 1)) ?_ ?_) ?_
  · exact (by decide : (5 : Nat) < 6)
  · rfl
  · rfl
  · intro b hb
    match b with
    | ⟨0, _⟩ => rfl
    | ⟨1, _⟩ => exact absurd rfl hb
  · rfl
  · rw [foldAtt_apply]
    exact Finset.sum_congr rfl fun j _ => by rw [attHi_apply]

end Table

section Product
variable (W1 W2 : FVec Ideal Cert.KernelIdeal.S32x32 .f32) (a1 a2 : FVec Ideal Cert.KernelIdeal.S64x1 .f32)
  (X : FVec Ideal Cert.KernelIdeal.S100000x32 .f32) (g : FVec Ideal Cert.KernelIdeal.S100000x68 .f32)
  (hg : ∀ (p : Fin 100000) (q : Fin 68), g (ix2 p q) = ∑ k : Fin 32, X (ix2 p k) * Cert.KernelIdeal.Hand.wideTable W1 W2 a1 a2 (ix2 k q))
include hg

theorem featA_eq :
    Cert.KernelIdeal.Hand.featA g
      = Host.dotGeneral (F := Ideal) Cert.ReferenceIdeal.dot_S100000x32_S32x32_S100000x32_1_0_0_1_n_n none X W1 := by
  funext i
  obtain ⟨p, q, rfl⟩ : ∃ (p : Fin 100000) (q : Fin 32), i = ix2 p q := ⟨i 0, i 1, eq_ix2 i⟩
  rw [dotR_eq_plain]
  refine Eq.trans ?_ (StackMember.dotGeneral_plain_apply none X W1 p q).symm
  refine (slice2_axis1_apply 0 g _ p q (⟨q.val, by omega⟩ : Fin 68) (by simp)).trans ?_
  rw [hg]
  exact Finset.sum_congr rfl fun k _ => by rw [table_W1]

theorem featB_eq :
    Cert.KernelIdeal.Hand.featB g
      = Host.dotGeneral (F := Ideal) Cert.ReferenceIdeal.dot_S100000x32_S32x32_S100000x32_1_0_0_1_n_n none X W2 := by
  funext i
  obtain ⟨p, q, rfl⟩ : ∃ (p : Fin 100000) (q : Fin 32), i = ix2 p q := ⟨i 0, i 1, eq_ix2 i⟩
  rw [dotR_eq_plain]
  refine Eq.trans ?_ (StackMember.dotGeneral_plain_apply none X W2 p q).symm
  refine (slice2_axis1_apply 34 g _ p q (⟨34 + q.val, by omega⟩ : Fin 68) rfl).trans ?_
  rw [hg]
  exact Finset.sum_congr rfl fun k _ => by rw [table_W2]

theorem srcScoreA_apply (n : Fin 100000) :
    Cert.KernelIdeal.Hand.srcScoreA g (ix2 n (0 : Fin 1))
      = ∑ k : Fin 32, X (ix2 n k) * ∑ j : Fin 32, W1 (ix2 k j) * a1 (ix2 (⟨j.val, by omega⟩ : Fin 64) (0 : Fin 1)) := by
  refine (slice2_axis1_apply 32 g _ n (0 : Fin 1) (⟨32, by omega⟩ : Fin 68) rfl).trans ?_
  rw [hg]
  exact Finset.sum_congr rfl fun k _ => by rw [table_lo1]

theorem tgtScoreA_apply (n : Fin 100000) :
    Cert.KernelIdeal.Hand.tgtScoreA g (ix2 n (0 : Fin 1))
      = ∑ k : Fin 32, X (ix2 n k) * ∑ j : Fin 32, W1 (ix2 k j) * a1 (ix2 (⟨32 + j.val, by omega⟩ : Fin 64) (0 : Fin 1)) := by
  refine (slice2_axis1_apply 33 g _ n (0 : Fin 1) (⟨33, by omega⟩ : Fin 68) rfl).trans ?_
  rw [hg]
  exact Finset.sum_congr rfl fun k _ => by rw [table_hi1]

theorem srcScoreB_apply (n : Fin 100000) :
    Cert.KernelIdeal.Hand.srcScoreB g (ix2 n (0 : Fin 1))
      = ∑ k : Fin 32, X (ix2 n k) * ∑ j : Fin 32, W2 (ix2 k j) * a2 (ix2 (⟨j.val, by omega⟩ : Fin 64) (0 : Fin 1)) := by
  refine (slice2_axis1_apply 66 g _ n (0 : Fin 1) (⟨66, by omega⟩ : Fin 68) rfl).trans ?_
  rw [hg]
  exact Finset.sum_congr rfl fun k _ => by rw [table_lo2]

theorem tgtScoreB_apply (n : Fin 100000) :
    Cert.KernelIdeal.Hand.tgtScoreB g (ix2 n (0 : Fin 1))
      = ∑ k : Fin 32, X (ix2 n k) * ∑ j : Fin 32, W2 (ix2 k j) * a2 (ix2 (⟨32 + j.val, by omega⟩ : Fin 64) (0 : Fin 1)) := by
  refine (slice2_axis1_apply 67 g _ n (0 : Fin 1) (⟨67, by omega⟩ : Fin 68) rfl).trans ?_
  rw [hg]
  exact Finset.sum_congr rfl fun k _ => by rw [table_hi2]

end Product

end Cert.Bridge

end
-- ==== Proof.LibRowGather.lean ====
import Idealize.ShloMosaic.Lib.ValueIdx

noncomputable section

namespace Cert.Lib.RowGather

open Idealize.ShloMosaic Idealize.ShloMosaic.ValueIdx

variable {α : Type}

abbrev rowDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

theorem gather_rows_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (j : Fin C) :
    Host.gather (rowDims N C R wf) x idx (ix2 e j)
      = x (ix2 ⟨min (idx (ix2 e 0)).toInt.toNat (N - 1), by omega⟩ j) := by
  unfold Host.gather
  congr 1
  funext a
  refine Fin.ext ?_
  match a with
  | ⟨0, _⟩ =>
    show (rowDims N C R wf).start (ix2 e j) idx 0 + (rowDims N C R wf).batchCoord (ix2 e j) 0
        + (rowDims N C R wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C R wf).startIndexMap from List.mem_singleton.mpr rfl)]
    have hsi : (rowDims N C R wf).siIdx (ix2 e j) ⟨List.idxOf (0 : Fin 2) (rowDims N C R wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowDims N C R wf).start (ix2 e j) idx 1 + (rowDims N C R wf).batchCoord (ix2 e j) 1
        + (rowDims N C R wf).offCoord (ix2 e j) 1 = j.val
    rw [GatherDims.batchCoord_eq_zero _ _ _ List.not_mem_nil]
    have hs : (rowDims N C R wf).start (ix2 e j) idx 1 = 0 := by
      unfold GatherDims.start
      rw [dif_neg (show ¬ (1 : Fin 2) ∈ ([0] : List (Fin 2)) by decide)]
    have ho : (rowDims N C R wf).offCoord (ix2 e j) 1 = j.val := by
      unfold GatherDims.offCoord
      rw [dif_pos ((GatherDims.mem_sKept _ _).2
        ⟨show ¬ (1 : Fin 2) ∈ ([0] : List (Fin 2)) by decide, List.not_mem_nil⟩)]
      rfl
    rw [hs, ho]
    omega

end Cert.Lib.RowGather

end
-- ==== Proof.Bridge.Score.lean ====
import proofs.«400307_j79207786873545_3_alg».proof.Proof.Bridge.Basic
import proofs.«400307_j79207786873545_3_alg».proof.Proof.Gen.KernelIdeal.Skeleton
import proofs.«400307_j79207786873545_3_alg».proof.Proof.LibRowGather
import Idealize.ShloMosaic.Lib.ValueIdx
import Idealize.ShloMosaic.Lib.Pipeline.Value
import Idealize.ShloMosaic.Lib.StackMember
import Idealize.ShloMosaic.PureOps.Ideal.Laws

noncomputable section

namespace Cert.Bridge

open Idealize.ShloMosaic Idealize.ShloMosaic.ValueIdx

variable [hK : Cert.KernelIdeal.Facts] [hR : Cert.ReferenceIdeal.Facts]

theorem coe_finsum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem fold_law (x : Fin 32 → EReal) (w : Fin 32 → Fin 32 → EReal) (a : Fin 32 → EReal)
    (hx : ∀ k, ∃ r : ℝ, x k = (r : EReal)) (hw : ∀ k j, ∃ r : ℝ, w k j = (r : EReal))
    (ha : ∀ j, ∃ r : ℝ, a j = (r : EReal)) :
    ∑ j, (∑ k, x k * w k j) * a j = ∑ k, x k * ∑ j, w k j * a j := by
  choose x' hx using hx
  choose w' hw using hw
  choose a' ha using ha
  simp only [hx, hw, ha, ← EReal.coe_mul, ← coe_finsum]
  refine congrArg _ ?_
  simp only [Finset.sum_mul, Finset.mul_sum]
  rw [Finset.sum_comm]
  refine Finset.sum_congr rfl fun k _ => Finset.sum_congr rfl fun j _ => by ring

def edgeOf (r : Fin 12500) (l : Fin 128) : Fin 1600000 := ⟨r.val * 128 + l.val, by omega⟩

theorem edge_toLanes_apply (s : FVec Ideal Cert.KernelIdeal.S1600000x1 .f32) (r : Fin 12500) (l : Fin 128) :
    toLanes s (ix2 r l) = s (ix2 (edgeOf r l) (0 : Fin 1)) := by
  unfold toLanes
  refine (shapeCast_apply _ _ (ix2 r l) (ix1 (edgeOf r l)) ?_).trans
    (shapeCast_apply _ _ (ix1 (edgeOf r l)) (ix2 (edgeOf r l) (0 : Fin 1)) ?_)
  · rw [Shape.rowMajor_val_one, Shape.rowMajor_val_two]; rfl
  · rw [Shape.rowMajor_val_one, Shape.rowMajor_val_two]
    show (edgeOf r l).val * 1 + 0 = (edgeOf r l).val
    omega

theorem edgeLanes_eq (col : FVec Ideal Cert.KernelIdeal.S100000x1 .f32) (v : IVec Cert.KernelIdeal.S1600000 32) :
    Cert.KernelIdeal.Hand.edgeLanes col v
      = toLanes (Host.gather Cert.KernelIdeal.gather_S100000x1_S1600000x1_S1600000x1_1_0_n_n_0_1_11 col
          (Cert.KernelIdeal.Hand.wrapCol v)) := rfl

def node (v : IVec Cert.KernelIdeal.S1600000 32) (e : Fin 1600000) : Fin 100000 :=
  ⟨min ((Cert.KernelIdeal.Hand.wrapCol v) (ix2 e (0 : Fin 1))).toInt.toNat (100000 - 1), by omega⟩

theorem gatherCol_apply (col : FVec Ideal Cert.KernelIdeal.S100000x1 .f32) (v : IVec Cert.KernelIdeal.S1600000 32)
    (e : Fin 1600000) :
    Host.gather Cert.KernelIdeal.gather_S100000x1_S1600000x1_S1600000x1_1_0_n_n_0_1_11 col
        (Cert.KernelIdeal.Hand.wrapCol v) (ix2 e (0 : Fin 1)) = col (ix2 (node v e) (0 : Fin 1)) :=
  Cert.Lib.RowGather.gather_rows_apply (N := 100000) (C := 1) (R := 1600000) (by norm_num)
    Cert.KernelIdeal.Facts₀.gather_S100000x1_S1600000x1_S1600000x1_1_0_n_n_0_1_11_wf col
    (Cert.KernelIdeal.Hand.wrapCol v) e 0

theorem gatherRows_apply (h : FVec Ideal Cert.ReferenceIdeal.S100000x32 .f32) (v : IVec Cert.KernelIdeal.S1600000 32)
    (e : Fin 1600000) (c : Fin 32) :
    Host.gather Cert.ReferenceIdeal.gather_S100000x32_S1600000x1_S1600000x32_1_0_n_n_0_1_132 h
        (Cert.ReferenceIdeal.Hand.wrapCol v) (ix2 e c) = h (ix2 (node v e) c) :=
  Cert.Lib.RowGather.gather_rows_apply (N := 100000) (C := 32) (R := 1600000) (by norm_num)
    Cert.ReferenceIdeal.Facts₀.gather_S100000x32_S1600000x1_S1600000x32_1_0_n_n_0_1_132_wf h
    (Cert.ReferenceIdeal.Hand.wrapCol v) e c

theorem edge_attLo_apply (att : FVec Ideal Cert.ReferenceIdeal.S64x1 .f32) (c : Fin 32) :
    extractStridedSlice Cert.ReferenceIdeal.S32x1 ![0, 0] att Cert.ReferenceIdeal.Facts₀.slices_S64x1_S32x1_0_0
        (ix2 c (0 : Fin 1)) = att (ix2 (⟨c.val, by omega⟩ : Fin 64) (0 : Fin 1)) := by
  refine extractStridedSlice_apply _ att _ (ix2 c (0 : Fin 1)) (ix2 (⟨c.val, by omega⟩ : Fin 64) (0 : Fin 1)) fun a => ?_
  match a with
  | ⟨0, _⟩ => show c.val = 0 + c.val; omega
  | ⟨1, _⟩ => rfl

theorem edge_attHi_apply (att : FVec Ideal Cert.ReferenceIdeal.S64x1 .f32) (c : Fin 32) :
    extractStridedSlice Cert.ReferenceIdeal.S32x1 ![32, 0] att Cert.ReferenceIdeal.Facts₀.slices_S64x1_S32x1_32_0
        (ix2 c (0 : Fin 1)) = att (ix2 (⟨32 + c.val, by omega⟩ : Fin 64) (0 : Fin 1)) := by
  refine extractStridedSlice_apply _ att _ (ix2 c (0 : Fin 1)) (ix2 (⟨32 + c.val, by omega⟩ : Fin 64) (0 : Fin 1)) fun a => ?_
  match a with
  | ⟨0, _⟩ => rfl
  | ⟨1, _⟩ => rfl

theorem dotCol_apply (A : FVec Ideal Cert.ReferenceIdeal.S1600000x32 .f32) (B : FVec Ideal Cert.ReferenceIdeal.S32x1 .f32)
    (e : Fin 1600000) :
    Host.dotGeneral (F := Ideal) Cert.ReferenceIdeal.dot_S1600000x32_S32x1_S1600000x1_1_0_0_1_n_n none A B (ix2 e (0 : Fin 1))
      = ∑ c : Fin 32, A (ix2 e c) * B (ix2 c (0 : Fin 1)) :=
  StackMember.dotGeneral_plain_apply (m := 1600000) (k := 32) (n := 1) none A B e 0

theorem proj_apply (X : FVec Ideal Cert.ReferenceIdeal.S100000x32 .f32) (W : FVec Ideal Cert.ReferenceIdeal.S32x32 .f32)
    (n : Fin 100000) (c : Fin 32) :
    Host.dotGeneral (F := Ideal) Cert.ReferenceIdeal.dot_S100000x32_S32x32_S100000x32_1_0_0_1_n_n none X W (ix2 n c)
      = ∑ k : Fin 32, X (ix2 n k) * W (ix2 k c) :=
  StackMember.dotGeneral_plain_apply (m := 100000) (k := 32) (n := 32) none X W n c

theorem score_apply (h : FVec Ideal Cert.ReferenceIdeal.S100000x32 .f32) (att : FVec Ideal Cert.ReferenceIdeal.S64x1 .f32)
    (src tgt : IVec Cert.KernelIdeal.S1600000 32) (e : Fin 1600000) :
    Cert.ReferenceIdeal.Hand.score h att src tgt (ix2 e (0 : Fin 1))
      = (∑ c : Fin 32, h (ix2 (node src e) c) * att (ix2 (⟨c.val, by omega⟩ : Fin 64) (0 : Fin 1)))
        + ∑ c : Fin 32, h (ix2 (node tgt e) c) * att (ix2 (⟨32 + c.val, by omega⟩ : Fin 64) (0 : Fin 1)) := by
  unfold Cert.ReferenceIdeal.Hand.score
  refine (addf_apply _ _ _).trans ?_
  refine congrArg₂ (· + ·) ?_ ?_
  · refine (dotCol_apply _ _ e).trans (Finset.sum_congr rfl fun c _ => ?_)
    rw [gatherRows_apply, edge_attLo_apply]
  · refine (dotCol_apply _ _ e).trans (Finset.sum_congr rfl fun c _ => ?_)
    rw [gatherRows_apply, edge_attHi_apply]

theorem k1_pay1_toLanes (a b s : FVec Ideal Cert.KernelIdeal.S1600000x1 .f32)
    (h : ∀ e : Fin 1600000, a (ix2 e (0 : Fin 1)) + b (ix2 e (0 : Fin 1)) = s (ix2 e (0 : Fin 1))) :
    Cert.KernelIdeal.Gen.k1_pay1 (F := Ideal) (toLanes a) (toLanes b) = toLanes (Cert.ReferenceIdeal.Hand.lrelu s) := by
  funext i
  obtain ⟨r, l, rfl⟩ : ∃ (r : Fin 12500) (l : Fin 128), i = ix2 r l := ⟨i 0, i 1, eq_ix2 i⟩
  have ha := edge_toLanes_apply a r l
  have hb := edge_toLanes_apply b r l
  have hs := h (edgeOf r l)
  rw [edge_toLanes_apply]
  unfold Cert.KernelIdeal.Gen.k1_pay1 Cert.ReferenceIdeal.Hand.lrelu
  simp only [shapeCast_self]
  show Scalar.select (FloatOps.cmpf .oge (toLanes a (ix2 r l) + toLanes b (ix2 r l)) _)
      (toLanes a (ix2 r l) + toLanes b (ix2 r l)) (_ * (toLanes a (ix2 r l) + toLanes b (ix2 r l)))
    = Scalar.select (FloatOps.cmpf .oge (s (ix2 (edgeOf r l) (0 : Fin 1))) _) (s (ix2 (edgeOf r l) (0 : Fin 1)))
      (_ * s (ix2 (edgeOf r l) (0 : Fin 1)))
  rw [ha, hb, hs]
  rfl

theorem lrelu_lanes
    (X : FVec Ideal Cert.ReferenceIdeal.S100000x32 .f32) (W : FVec Ideal Cert.ReferenceIdeal.S32x32 .f32)
    (att : FVec Ideal Cert.ReferenceIdeal.S64x1 .f32) (hX : AllReal X) (hW : AllReal W) (ha : AllReal att)
    (cs ct : FVec Ideal Cert.KernelIdeal.S100000x1 .f32)
    (hcs : ∀ n : Fin 100000, cs (ix2 n (0 : Fin 1)) = ∑ k : Fin 32, X (ix2 n k) * ∑ j : Fin 32, W (ix2 k j) * att (ix2 (⟨j.val, by omega⟩ : Fin 64) (0 : Fin 1)))
    (hct : ∀ n : Fin 100000, ct (ix2 n (0 : Fin 1)) = ∑ k : Fin 32, X (ix2 n k) * ∑ j : Fin 32, W (ix2 k j) * att (ix2 (⟨32 + j.val, by omega⟩ : Fin 64) (0 : Fin 1)))
    (src tgt : IVec Cert.KernelIdeal.S1600000 32) :
    Cert.KernelIdeal.Gen.k1_pay1 (F := Ideal) (Cert.KernelIdeal.Hand.edgeLanes cs src) (Cert.KernelIdeal.Hand.edgeLanes ct tgt)
      = toLanes (Cert.ReferenceIdeal.Hand.lrelu (Cert.ReferenceIdeal.Hand.score
          (Host.dotGeneral (F := Ideal) Cert.ReferenceIdeal.dot_S100000x32_S32x32_S100000x32_1_0_0_1_n_n none X W) att src tgt)) := by
  rw [edgeLanes_eq, edgeLanes_eq]
  refine k1_pay1_toLanes _ _ _ fun e => ?_
  rw [gatherCol_apply, gatherCol_apply, score_apply, hcs, hct]
  refine congrArg₂ (· + ·) ?_ ?_
  · refine Eq.symm ((Finset.sum_congr rfl fun c _ => by rw [proj_apply]).trans ?_)
    exact fold_law (fun k => X (ix2 (node src e) k)) (fun k j => W (ix2 k j))
      (fun j => att (ix2 (⟨j.val, by omega⟩ : Fin 64) (0 : Fin 1))) (fun k => hX _) (fun k j => hW _) (fun j => ha _)
  · refine Eq.symm ((Finset.sum_congr rfl fun c _ => by rw [proj_apply]).trans ?_)
    exact fold_law (fun k => X (ix2 (node tgt e) k)) (fun k j => W (ix2 k j))
      (fun j => att (ix2 (⟨32 + j.val, by omega⟩ : Fin 64) (0 : Fin 1))) (fun k => hX _) (fun k j => hW _) (fun j => ha _)

end Cert.Bridge

end
-- ==== Proof.Bridge.Lanes.lean ====
import proofs.«400307_j79207786873545_3_alg».proof.Proof.Bridge.Basic
import proofs.«400307_j79207786873545_3_alg».proof.Proof.Gen.KernelIdeal.Skeleton
import Idealize.ShloMosaic.Lib.ValueIdx
import Idealize.ShloMosaic.Lib.Pipeline.Value
import Idealize.ShloMosaic.PureOps.Ideal.Laws
import Idealize.ShloMosaic.PureOps.Reduce

noncomputable section

namespace Cert.Bridge

open Idealize.ShloMosaic Idealize.ShloMosaic.ValueIdx

variable [hK : Cert.KernelIdeal.Facts] [hR : Cert.ReferenceIdeal.Facts]

theorem toLanes_apply (e : FVec Ideal Cert.KernelIdeal.S1600000x1 .f32) (r : Fin 12500) (l : Fin 128) :
    toLanes e (ix2 r l) = e (ix2 (⟨128 * r.val + l.val, by omega⟩ : Fin 1600000) (0 : Fin 1)) := by
  unfold toLanes
  refine (shapeCast_apply _ _ (ix2 r l) (ix1 (⟨128 * r.val + l.val, by omega⟩ : Fin 1600000)) ?_).trans ?_
  · rw [Shape.rowMajor_val_two, Shape.rowMajor_val_one]
    show 128 * r.val + l.val = r.val * 128 + l.val
    omega
  · refine shapeCast_apply _ _ _ _ ?_
    rw [Shape.rowMajor_val_two, Shape.rowMajor_val_one]
    show (128 * r.val + l.val) * 1 + 0 = 128 * r.val + l.val
    omega

theorem asColumn_lanes (e : FVec Ideal Cert.KernelIdeal.S1600000x1 .f32) :
    Cert.KernelIdeal.Hand.asColumn (toLanes e) = e := by
  funext j
  obtain ⟨a, b, rfl⟩ : ∃ (a : Fin 1600000) (b : Fin 1), j = ix2 a b := ⟨j 0, j 1, eq_ix2 j⟩
  have hb : b = 0 := Subsingleton.elim _ _
  subst hb
  unfold Cert.KernelIdeal.Hand.asColumn
  refine (shapeCast_apply _ _ _ (ix2 (⟨a.val / 128, by omega⟩ : Fin 12500) (⟨a.val % 128, Nat.mod_lt _ (by omega)⟩ : Fin 128)) ?_).trans ?_
  · rw [Shape.rowMajor_val_two, Shape.rowMajor_val_two]
    show a.val / 128 * 128 + a.val % 128 = a.val * 1 + 0
    omega
  · rw [toLanes_apply]
    congr 1
    apply congrArg (fun x => ix2 x (0 : Fin 1))
    apply Fin.ext
    show 128 * (a.val / 128) + a.val % 128 = a.val
    omega

def edgeMax (e : FVec Ideal Cert.KernelIdeal.S1600000x1 .f32) : EReal :=
  ⨆ a : Fin 1600000, e (ix2 a (0 : Fin 1))

theorem reduce_max_all {s : Shape} {axes : List (Fin s.rank)} (x : FVec Ideal s .f32)
    (h : s.ReducesTo axes (⟨0, ![]⟩ : Shape)) (hu : 0 < (⟨0, ![]⟩ : Shape).numel) (j : (⟨0, ![]⟩ : Shape).Idx) :
    Host.reduce FloatOps.maximumf x (constant (F := Ideal) (⟨0, ![]⟩ : Shape) .f32 0xFF800000#32) h hu j = ⨆ i, x i := by
  rw [Host.reduce_eq_fold]
  have hf : (Finset.univ.filter fun i => h.drop i = j) = Finset.univ :=
    Finset.filter_true_of_mem fun i _ => funext fun a => a.elim0
  have hb : constant (F := Ideal) (⟨0, ![]⟩ : Shape) .f32 0xFF800000#32 (Shape.Idx.first hu) = (⊥ : EReal) := by
    rw [constant_apply]; simp [Ideal.ofBits, Ideal.ieee]
  rw [hf, hb]
  exact Finset.sup_univ_eq_iSup x

theorem iSup_toLanes (e : FVec Ideal Cert.KernelIdeal.S1600000x1 .f32) : (⨆ j, toLanes e j) = edgeMax e := by
  unfold edgeMax
  refine le_antisymm (iSup_le fun j => ?_) (iSup_le fun a => ?_)
  · obtain ⟨r, l, rfl⟩ : ∃ (r : Fin 12500) (l : Fin 128), j = ix2 r l := ⟨j 0, j 1, eq_ix2 j⟩
    rw [toLanes_apply]
    exact le_iSup (fun a : Fin 1600000 => e (ix2 a (0 : Fin 1))) _
  · have h : e (ix2 a (0 : Fin 1))
        = toLanes e (ix2 (⟨a.val / 128, by omega⟩ : Fin 12500) (⟨a.val % 128, Nat.mod_lt _ (by omega)⟩ : Fin 128)) := by
      rw [toLanes_apply]
      congr 1
      apply congrArg (fun x => ix2 x (0 : Fin 1))
      apply Fin.ext
      show a.val = 128 * (a.val / 128) + a.val % 128
      omega
    rw [h]
    exact le_iSup (toLanes e) _

theorem iSup_column (e : FVec Ideal Cert.KernelIdeal.S1600000x1 .f32) : (⨆ j, e j) = edgeMax e := by
  unfold edgeMax
  refine le_antisymm (iSup_le fun j => ?_) (iSup_le fun a => le_iSup e _)
  obtain ⟨a, b, rfl⟩ : ∃ (a : Fin 1600000) (b : Fin 1), j = ix2 a b := ⟨j 0, j 1, eq_ix2 j⟩
  have hb : b = 0 := Subsingleton.elim _ _
  subst hb
  exact le_iSup (fun a : Fin 1600000 => e (ix2 a (0 : Fin 1))) _

theorem top_lanes_apply (e : FVec Ideal Cert.KernelIdeal.S1600000x1 .f32) (j : Cert.KernelIdeal.S_.Idx) :
    Host.reduce FloatOps.maximumf (toLanes e) (constant (F := Ideal) Cert.KernelIdeal.S_ .f32 0xFF800000#32)
      Cert.KernelIdeal.Facts₀.reducesTo_S12500x128_S_d0_1 Cert.KernelIdeal.Facts₀.h_S_ j = edgeMax e :=
  (reduce_max_all _ _ _ j).trans (iSup_toLanes e)

theorem top_column_apply (e : FVec Ideal Cert.ReferenceIdeal.S1600000x1 .f32) (j : Cert.ReferenceIdeal.S_.Idx) :
    Host.reduce FloatOps.maximumf e (constant (F := Ideal) Cert.ReferenceIdeal.S_ .f32 0xFF800000#32)
      Cert.ReferenceIdeal.Facts₀.reducesTo_S1600000x1_S_d0_1 Cert.ReferenceIdeal.Facts₀.h_S_ j = edgeMax e :=
  (reduce_max_all _ _ _ j).trans (iSup_column e)

theorem top_lanes (e : FVec Ideal Cert.KernelIdeal.S1600000x1 .f32) :
    Host.reduce FloatOps.maximumf (toLanes e) (constant (F := Ideal) Cert.KernelIdeal.S_ .f32 0xFF800000#32)
        Cert.KernelIdeal.Facts₀.reducesTo_S12500x128_S_d0_1 Cert.KernelIdeal.Facts₀.h_S_
      = Host.reduce FloatOps.maximumf e (constant (F := Ideal) Cert.ReferenceIdeal.S_ .f32 0xFF800000#32)
        Cert.ReferenceIdeal.Facts₀.reducesTo_S1600000x1_S_d0_1 Cert.ReferenceIdeal.Facts₀.h_S_ :=
  funext fun j => (top_lanes_apply e j).trans (top_column_apply e j).symm

theorem shapeCast_scalar_apply {t : Shape} (x : FVec Ideal (⟨0, ![]⟩ : Shape) .f32) (h : (⟨0, ![]⟩ : Shape).ShapeCasts t)
    (j : t.Idx) (k : (⟨0, ![]⟩ : Shape).Idx) : shapeCast t x h j = x k := by
  unfold shapeCast
  exact congrArg x (funext fun a => a.elim0)

theorem broadcastInDim_scalar_apply {t : Shape} (x : FVec Ideal (⟨0, ![]⟩ : Shape) .f32)
    (h : (⟨0, ![]⟩ : Shape).BroadcastsInDim t (![] : Fin 0 → Fin t.rank)) (j : t.Idx) (k : (⟨0, ![]⟩ : Shape).Idx) :
    broadcastInDim t ![] h x j = x k := by
  unfold broadcastInDim
  exact congrArg x (funext fun a => a.elim0)

theorem topScore_lanes_apply (e : FVec Ideal Cert.KernelIdeal.S1600000x1 .f32) (j : Cert.KernelIdeal.S1x1.Idx) :
    Cert.KernelIdeal.Hand.topScore (toLanes e) j = edgeMax e := by
  unfold Cert.KernelIdeal.Hand.topScore
  exact (shapeCast_scalar_apply _ _ j ix0).trans (top_lanes_apply e ix0)

theorem expShift_apply (lr : FVec Ideal Cert.ReferenceIdeal.S1600000x1 .f32) (i : Cert.ReferenceIdeal.S1600000x1.Idx) :
    Cert.ReferenceIdeal.Hand.expShift lr i = Ideal.exp (lr i - edgeMax lr) := by
  unfold Cert.ReferenceIdeal.Hand.expShift Host.exp
  beta_reduce
  rw [Ideal.hostUnary_exp_def, subf_apply, broadcastInDim_scalar_apply _ _ i ix0, top_column_apply]

theorem k2_pay1_apply (v0 : FVec Ideal Cert.KernelIdeal.S1x1 .f32) (v2 : FVec Ideal Cert.KernelIdeal.S12500x128 .f32)
    (j : Cert.KernelIdeal.S12500x128.Idx) :
    Cert.KernelIdeal.Gen.k2_pay1 (F := Ideal) v0 v2 j
      = Ideal.exp (v2 j - v0 (fun a => ⟨![0, 0] a, Cert.KernelIdeal.Facts₀.inpos_S1x1_p0_0 a⟩)) := by
  unfold Cert.KernelIdeal.Gen.k2_pay1
  show Ideal.exp (shapeCast Cert.KernelIdeal.S12500x128 v2 _ j - _) = _
  rw [shapeCast_self]
  rfl

theorem exp_lanes (lr : FVec Ideal Cert.KernelIdeal.S1600000x1 .f32) :
    Cert.KernelIdeal.Gen.k2_pay1 (F := Ideal) (Cert.KernelIdeal.Hand.topScore (toLanes lr)) (toLanes lr)
      = toLanes (Cert.ReferenceIdeal.Hand.expShift lr) := by
  funext j
  obtain ⟨r, l, rfl⟩ : ∃ (r : Fin 12500) (l : Fin 128), j = ix2 r l := ⟨j 0, j 1, eq_ix2 j⟩
  rw [k2_pay1_apply, topScore_lanes_apply, toLanes_apply, toLanes_apply, expShift_apply]

end Cert.Bridge

end
-- ==== Proof.Bridge.Weights.lean ====
import proofs.«400307_j79207786873545_3_alg».proof.Proof.Bridge.Basic
import Idealize.ShloMosaic.Lib.ValueIdx
import Idealize.ShloMosaic.Lib.Pipeline.Value
import Idealize.ShloMosaic.Lib.IdealHost
import Idealize.ShloMosaic.PureOps.Ideal.Laws

noncomputable section

namespace Cert.Bridge

open Idealize.ShloMosaic Idealize.ShloMosaic.ValueIdx

variable [hK : Cert.KernelIdeal.Facts] [hR : Cert.ReferenceIdeal.Facts]

theorem weight_eq (ev es : FVec Ideal Cert.ReferenceIdeal.S1600000x1 .f32) (ht wt : FVec Ideal Cert.ReferenceIdeal.S1600000x32 .f32)
    (h : ∀ (p : Fin 1600000) (q : Fin 32),
      wt (ix2 p q) = Ideal.div (ev (ix2 p (0 : Fin 1))) (es (ix2 p (0 : Fin 1))) * ht (ix2 p q)) :
    wt = mulf (broadcastInDim Cert.ReferenceIdeal.S1600000x32 ![0, 1]
      Cert.ReferenceIdeal.Facts₀.bcast_S1600000x1_S1600000x32_0_1 (Host.divf (F := Ideal) ev es)) ht := by
  funext i
  obtain ⟨p, q, rfl⟩ : ∃ (p : Fin 1600000) (q : Fin 32), i = ix2 p q := ⟨i 0, i 1, eq_ix2 i⟩
  rw [h p q]

  have hb : broadcastInDim Cert.ReferenceIdeal.S1600000x32 ![0, 1]
      Cert.ReferenceIdeal.Facts₀.bcast_S1600000x1_S1600000x32_0_1 (Host.divf (F := Ideal) ev es) (ix2 p q)
      = Host.divf (F := Ideal) ev es (ix2 p (0 : Fin 1)) :=
    broadcastInDim_apply _ _ _ (ix2 p q) (ix2 p (0 : Fin 1)) (fun a => match a with
      | ⟨0, _⟩ => by show p.val = if (1600000 : Nat) = 1 then 0 else p.val; rw [if_neg (by decide)]
      | ⟨1, _⟩ => rfl)
  show _ = broadcastInDim Cert.ReferenceIdeal.S1600000x32 ![0, 1]
      Cert.ReferenceIdeal.Facts₀.bcast_S1600000x1_S1600000x32_0_1 (Host.divf (F := Ideal) ev es) (ix2 p q) * ht (ix2 p q)
  rw [hb]
  rfl

theorem lanes_apply (o : FVec Ideal Cert.KernelIdeal.S100000x32 .f32) (p : Fin 25000) (q : Fin 128) :
    Cert.KernelIdeal.Hand.lanes o (ix2 p q)
      = o (ix2 (⟨4 * p.val + q.val / 32, by omega⟩ : Fin 100000) (⟨q.val % 32, by omega⟩ : Fin 32)) := by
  unfold Cert.KernelIdeal.Hand.lanes
  refine shapeCast_apply _ _ (ix2 p q) _ ?_
  rw [Shape.rowMajor_val_two, Shape.rowMajor_val_two]
  show (4 * p.val + q.val / 32) * 32 + q.val % 32 = p.val * 128 + q.val
  omega

theorem unlanes_apply (z : FVec Ideal Cert.KernelIdeal.S25000x128 .f32) (n : Fin 100000) (j : Fin 32) :
    Cert.KernelIdeal.Hand.unlanes z (ix2 n j)
      = z (ix2 (⟨n.val / 4, by omega⟩ : Fin 25000) (⟨32 * (n.val % 4) + j.val, by omega⟩ : Fin 128)) := by
  unfold Cert.KernelIdeal.Hand.unlanes
  refine shapeCast_apply _ _ (ix2 n j) _ ?_
  rw [Shape.rowMajor_val_two, Shape.rowMajor_val_two]
  show n.val / 4 * 128 + (32 * (n.val % 4) + j.val) = n.val * 32 + j.val
  omega

theorem lanes_at (o : FVec Ideal Cert.KernelIdeal.S100000x32 .f32) (n : Fin 100000) (j : Fin 32) :
    Cert.KernelIdeal.Hand.lanes o
        (ix2 (⟨n.val / 4, by omega⟩ : Fin 25000) (⟨32 * (n.val % 4) + j.val, by omega⟩ : Fin 128))
      = o (ix2 n j) := by
  unfold Cert.KernelIdeal.Hand.lanes
  refine shapeCast_apply _ _ _ (ix2 n j) ?_
  rw [Shape.rowMajor_val_two, Shape.rowMajor_val_two]
  show n.val * 32 + j.val = n.val / 4 * 128 + (32 * (n.val % 4) + j.val)
  omega

theorem elu_apply (s : FVec Ideal Cert.ReferenceIdeal.S100000x32 .f32) (i : Cert.ReferenceIdeal.S100000x32.Idx) :
    Cert.ReferenceIdeal.Hand.elu s i = if 0 < s i then s i else Ideal.exp (s i) - 1 := by

  have hc : ∀ b : BitVec 32, broadcastInDim Cert.ReferenceIdeal.S100000x32 ![]
      Cert.ReferenceIdeal.Facts₀.bcast_S_S100000x32 (constant (F := Ideal) Cert.ReferenceIdeal.S_ .f32 b) i
      = Ideal.ofBits .f32 b := fun b => broadcastInDim_scalar_apply _ _ i
  unfold Cert.ReferenceIdeal.Hand.elu
  simp only [select_apply, cmpf_apply, mulf_apply, hc, id, Host.expm1,
    Ideal.cmpf_def, Ideal.cmp, Ideal.ofBits_zero_f32, Ideal.ofBits_one_f32, Ideal.hostUnary_expm1_def]
  by_cases hpos : 0 < s i
  · simp [hpos, Scalar.select]
  · simp [hpos, Scalar.select]

theorem elu_lanes (o1 o2 : FVec Ideal Cert.KernelIdeal.S100000x32 .f32) (z : FVec Ideal Cert.KernelIdeal.S25000x128 .f32)
    (h : ∀ (p : Fin 25000) (q : Fin 128),
      z (ix2 p q) = (if 0 < Cert.KernelIdeal.Hand.lanes o1 (ix2 p q) + Cert.KernelIdeal.Hand.lanes o2 (ix2 p q)
        then Cert.KernelIdeal.Hand.lanes o1 (ix2 p q) + Cert.KernelIdeal.Hand.lanes o2 (ix2 p q)
        else Ideal.exp (Cert.KernelIdeal.Hand.lanes o1 (ix2 p q) + Cert.KernelIdeal.Hand.lanes o2 (ix2 p q)) - 1)) :
    Cert.KernelIdeal.Hand.unlanes z = Cert.ReferenceIdeal.Hand.elu (addf o1 o2) := by
  funext i
  obtain ⟨n, j, rfl⟩ : ∃ (n : Fin 100000) (j : Fin 32), i = ix2 n j := ⟨i 0, i 1, eq_ix2 i⟩
  rw [unlanes_apply, h, lanes_at o1 n j, lanes_at o2 n j, elu_apply]
  rfl

end Cert.Bridge

end
-- ==== Proof.KI.Vals.lean ====
import proofs.«400307_j79207786873545_3_alg».proof.Proof.KI.Chain
import proofs.«400307_j79207786873545_3_alg».proof.Proof.KI.Val0
import proofs.«400307_j79207786873545_3_alg».proof.Proof.KI.Val1
import proofs.«400307_j79207786873545_3_alg».proof.Proof.KI.Val2
import proofs.«400307_j79207786873545_3_alg».proof.Proof.KI.Val3
import proofs.«400307_j79207786873545_3_alg».proof.Proof.KI.Val4
import proofs.«400307_j79207786873545_3_alg».proof.Proof.KI.Val5
import proofs.«400307_j79207786873545_3_alg».proof.Proof.KI.Val6
import proofs.«400307_j79207786873545_3_alg».proof.Proof.KI.Val7
import proofs.«400307_j79207786873545_3_alg».proof.Proof.KI.HostA
import proofs.«400307_j79207786873545_3_alg».proof.Proof.KI.HostB
import proofs.«400307_j79207786873545_3_alg».proof.Proof.KI.HostC
import proofs.«400307_j79207786873545_3_alg».proof.Proof.Bridge.Table
import proofs.«400307_j79207786873545_3_alg».proof.Proof.Bridge.Score
import proofs.«400307_j79207786873545_3_alg».proof.Proof.Bridge.Lanes
import proofs.«400307_j79207786873545_3_alg».proof.Proof.Bridge.Weights
import proofs.«400307_j79207786873545_3_alg».proof.Proof.Gen.ReferenceIdeal

set_option maxRecDepth 16384

noncomputable section

namespace Cert.KernelIdeal.Hand

open Idealize.ShloMosaic Idealize.ShloMosaic.TcCoe Idealize.ShloMosaic.ValueIdx
open Idealize.SL.Sem
open Cert.KernelIdeal Cert.KernelIdeal.Gen Cert.Bridge

variable (m : (ℓ : Loc nD τ sig) → Buf (Elt Ideal) ℓ) (ρ : Dev nD → PrngReg) (c : Dev nD)

abbrev aX : FVec Ideal S100000x32 .f32 := m ((c : Thread nD τ).loc main_arg0)
abbrev aI1 : IVec S2x1600000 32 := m ((c : Thread nD τ).loc main_arg1)
abbrev aI2 : IVec S2x1600000 32 := m ((c : Thread nD τ).loc main_arg2)
abbrev aW1 : FVec Ideal S32x32 .f32 := m ((c : Thread nD τ).loc main_arg3)
abbrev aW2 : FVec Ideal S32x32 .f32 := m ((c : Thread nD τ).loc main_arg4)
abbrev aA1 : FVec Ideal S64x1 .f32 := m ((c : Thread nD τ).loc main_arg5)
abbrev aA2 : FVec Ideal S64x1 .f32 := m ((c : Thread nD τ).loc main_arg6)

abbrev prj (W : FVec Ideal S32x32 .f32) : FVec Ideal S100000x32 .f32 :=
  Host.dotGeneral (F := Ideal) Cert.ReferenceIdeal.dot_S100000x32_S32x32_S100000x32_1_0_0_1_n_n none (aX m c) W
abbrev lrOf (W : FVec Ideal S32x32 .f32) (att : FVec Ideal S64x1 .f32) (I : IVec S2x1600000 32) : FVec Ideal S1600000x1 .f32 :=
  Cert.ReferenceIdeal.Hand.lrelu (Cert.ReferenceIdeal.Hand.score (prj m c W) att (Cert.ReferenceIdeal.Hand.idxRow0 I) (Cert.ReferenceIdeal.Hand.idxRow1 I))
abbrev htOf (W : FVec Ideal S32x32 .f32) (I : IVec S2x1600000 32) : FVec Ideal S1600000x32 .f32 :=
  Host.gather Cert.ReferenceIdeal.gather_S100000x32_S1600000x1_S1600000x32_1_0_n_n_0_1_132 (prj m c W) (Cert.ReferenceIdeal.Hand.wrapCol (Cert.ReferenceIdeal.Hand.idxRow1 I))

theorem tbl1 : (B1 m ρ c (Proc.devRef .tc main_v8) : FVec Ideal S32x68 .f32) = (wideTable (aW1 m c) (aW2 m c) (aA1 m c) (aA2 m c)) :=
  table_after0 (B0 m ρ c)

theorem argX1 : (B1 m ρ c (Proc.devRef .tc main_arg0) : FVec Ideal S100000x32 .f32) = aX m c :=
  B1_keep m ρ c main_arg0 (by decide)

theorem prod2 (p : Fin 100000) (q : Fin 68) :
    (B2 m ρ c (Proc.devRef .tc main_v9) : FVec Ideal S100000x68 .f32) (ix2 p q) = ∑ k : Fin 32, (aX m c) (ix2 p k) * (wideTable (aW1 m c) (aW2 m c) (aA1 m c) (aA2 m c)) (ix2 k q) :=
  (congrFun (B2_arr m ρ c 2) (ix2 p q)).trans (result0_sum (E1 m ρ) c _ _ (argX1 m ρ c) (tbl1 m ρ c) p q)

theorem argI1_2 : (B2 m ρ c (Proc.devRef .tc main_arg1) : IVec S2x1600000 32) = aI1 m c :=
  (B2_keep m ρ c main_arg1 (by decide)).trans ((B1_keep m ρ c main_arg1 (by decide)))
theorem argI2_8 : (B8 m ρ c (Proc.devRef .tc main_arg2) : IVec S2x1600000 32) = aI2 m c :=
  (B8_keep m ρ c main_arg2 (by decide)).trans ((B7_keep m ρ c main_arg2 (by decide)).trans ((B6_keep m ρ c main_arg2 (by decide)).trans ((B5_keep m ρ c main_arg2 (by decide)).trans ((B4_keep m ρ c main_arg2 (by decide)).trans ((B3_keep m ρ c main_arg2 (by decide)).trans ((B2_keep m ρ c main_arg2 (by decide)).trans ((B1_keep m ρ c main_arg2 (by decide)))))))))

theorem featA2 : featA (B2 m ρ c (Proc.devRef .tc main_v9) : FVec Ideal S100000x68 .f32) = prj m c (aW1 m c) :=
  featA_eq (aW1 m c) (aW2 m c) (aA1 m c) (aA2 m c) (aX m c) _ (prod2 m ρ c)
theorem featB2 : featB (B2 m ρ c (Proc.devRef .tc main_v9) : FVec Ideal S100000x68 .f32) = prj m c (aW2 m c) :=
  featB_eq (aW1 m c) (aW2 m c) (aA1 m c) (aA2 m c) (aX m c) _ (prod2 m ρ c)

theorem srcA : (B3 m ρ c (Proc.devRef .tc main_v17) : IVec S1600000 32) = idxRow0 (aI1 m c) :=
  (srcA_after1 (B2 m ρ c)).trans (congrArg idxRow0 (argI1_2 m ρ c))
theorem rowsA : (B3 m ρ c (Proc.devRef .tc main_v40) : FVec Ideal S1600000x32 .f32) = htOf m c (aW1 m c) (aI1 m c) :=
  (rowsA_after1 (B2 m ρ c)).trans ((congrArg₂ edgeRows (featA2 m ρ c) (congrArg idxRow1 (argI1_2 m ρ c))).trans rfl)
theorem lanesSrcA : (B3 m ρ c (Proc.devRef .tc main_v42) : FVec Ideal S12500x128 .f32) = edgeLanes (F := Ideal) (srcScoreA (B2 m ρ c (Proc.devRef .tc main_v9) : FVec Ideal S100000x68 .f32)) (idxRow0 (aI1 m c)) :=
  (lanesSrcA_after1 (B2 m ρ c)).trans (congrArg₂ edgeLanes rfl (congrArg idxRow0 (argI1_2 m ρ c)))
theorem lanesTgtA : (B3 m ρ c (Proc.devRef .tc main_v44) : FVec Ideal S12500x128 .f32) = edgeLanes (F := Ideal) (tgtScoreA (B2 m ρ c (Proc.devRef .tc main_v9) : FVec Ideal S100000x68 .f32)) (idxRow1 (aI1 m c)) :=
  (lanesTgtA_after1 (B2 m ρ c)).trans (congrArg₂ edgeLanes rfl (congrArg idxRow1 (argI1_2 m ρ c)))

section Real
variable (hX : AllReal (aX m c)) (hW1 : AllReal (aW1 m c)) (hA1 : AllReal (aA1 m c)) (hW2 : AllReal (aW2 m c)) (hA2 : AllReal (aA2 m c))
include hX hW1 hA1

theorem lreluA : (B4 m ρ c (Proc.devRef .tc main_v45) : FVec Ideal S12500x128 .f32) = toLanes (lrOf m c (aW1 m c) (aA1 m c) (aI1 m c)) :=
  (B4_arr m ρ c 2).trans ((result1 (E3 m ρ) c).trans
    ((congrArg₂ (k1_pay1 (F := Ideal)) (lanesSrcA m ρ c) (lanesTgtA m ρ c)).trans
      (lrelu_lanes (aX m c) (aW1 m c) (aA1 m c) hX hW1 hA1 _ _
        (srcScoreA_apply (aW1 m c) (aW2 m c) (aA1 m c) (aA2 m c) (aX m c) _ (prod2 m ρ c))
        (tgtScoreA_apply (aW1 m c) (aW2 m c) (aA1 m c) (aA2 m c) (aX m c) _ (prod2 m ρ c)) (idxRow0 (aI1 m c)) (idxRow1 (aI1 m c)))))

theorem lreluKeptA : (B5 m ρ c (Proc.devRef .tc main_v45) : FVec Ideal S12500x128 .f32) = toLanes (lrOf m c (aW1 m c) (aA1 m c) (aI1 m c)) :=
  (B5_keep m ρ c main_v45 (by decide)).trans (lreluA m ρ c hX hW1 hA1)

theorem topA : (B5 m ρ c (Proc.devRef .tc main_v47) : FVec Ideal S1x1 .f32) = topScore (toLanes (lrOf m c (aW1 m c) (aA1 m c) (aI1 m c))) :=
  (top_after2 (B4 m ρ c)).trans (congrArg topScore (lreluA m ρ c hX hW1 hA1))

theorem expoA : (B6 m ρ c (Proc.devRef .tc main_v48) : FVec Ideal S12500x128 .f32) = toLanes (Cert.ReferenceIdeal.Hand.expShift (lrOf m c (aW1 m c) (aA1 m c) (aI1 m c))) :=
  (B6_arr m ρ c 2).trans ((result2 (E5 m ρ) c).trans
    ((congrArg₂ (k2_pay1 (F := Ideal)) (topA m ρ c hX hW1 hA1) (lreluKeptA m ρ c hX hW1 hA1)).trans (exp_lanes (lrOf m c (aW1 m c) (aA1 m c) (aI1 m c)))))

theorem columnA : (B7 m ρ c (Proc.devRef .tc main_v49) : FVec Ideal S1600000x1 .f32) = (Cert.ReferenceIdeal.Hand.expShift (lrOf m c (aW1 m c) (aA1 m c) (aI1 m c))) :=
  (column_after3 (B6 m ρ c)).trans ((congrArg asColumn (expoA m ρ c hX hW1 hA1)).trans (asColumn_lanes _))

theorem srcKept6A : (B6 m ρ c (Proc.devRef .tc main_v17) : IVec S1600000 32) = (idxRow0 (aI1 m c)) :=
  ((B6_keep m ρ c main_v17 (by decide)).trans ((B5_keep m ρ c main_v17 (by decide)).trans ((B4_keep m ρ c main_v17 (by decide))))).trans (srcA m ρ c)

theorem denA : (B7 m ρ c (Proc.devRef .tc main_v61) : FVec Ideal S1600000x1 .f32) = denomAt (Cert.ReferenceIdeal.Hand.expShift (lrOf m c (aW1 m c) (aA1 m c) (aI1 m c))) (idxRow0 (aI1 m c)) :=
  (denomAt_after3 (B6 m ρ c)).trans
    (congrArg₂ denomAt ((congrArg asColumn (expoA m ρ c hX hW1 hA1)).trans (asColumn_lanes _)) (srcKept6A m ρ c hX hW1 hA1))

theorem rowsKeptA : (B7 m ρ c (Proc.devRef .tc main_v40) : FVec Ideal S1600000x32 .f32) = (htOf m c (aW1 m c) (aI1 m c)) :=
  ((B7_keep m ρ c main_v40 (by decide)).trans ((B6_keep m ρ c main_v40 (by decide)).trans ((B5_keep m ρ c main_v40 (by decide)).trans ((B4_keep m ρ c main_v40 (by decide)))))).trans (rowsA m ρ c)

theorem weightedA : (B8 m ρ c (Proc.devRef .tc main_v62) : FVec Ideal S1600000x32 .f32)
    = mulf (broadcastInDim Cert.ReferenceIdeal.S1600000x32 ![0, 1] Cert.ReferenceIdeal.Facts₀.bcast_S1600000x1_S1600000x32_0_1
        (Host.divf (F := Ideal) (Cert.ReferenceIdeal.Hand.expShift (lrOf m c (aW1 m c) (aA1 m c) (aI1 m c))) (denomAt (Cert.ReferenceIdeal.Hand.expShift (lrOf m c (aW1 m c) (aA1 m c) (aI1 m c))) (idxRow0 (aI1 m c))))) (htOf m c (aW1 m c) (aI1 m c)) :=
  weight_eq _ _ _ _ fun p q => by
    have h1 : E7 m ρ c main_v49 = (Cert.ReferenceIdeal.Hand.expShift (lrOf m c (aW1 m c) (aA1 m c) (aI1 m c))) := columnA m ρ c hX hW1 hA1
    have h2 : E7 m ρ c main_v61 = denomAt (Cert.ReferenceIdeal.Hand.expShift (lrOf m c (aW1 m c) (aA1 m c) (aI1 m c))) (idxRow0 (aI1 m c)) := denA m ρ c hX hW1 hA1
    have h3 : E7 m ρ c main_v40 = (htOf m c (aW1 m c) (aI1 m c)) := rowsKeptA m ρ c hX hW1 hA1
    have h := result3 (E7 m ρ) c p q
    rw [h1, h2, h3] at h
    exact (congrFun (B8_arr m ρ c 3) (ix2 p q)).trans h

theorem srcKept8A : (B8 m ρ c (Proc.devRef .tc main_v17) : IVec S1600000 32) = (idxRow0 (aI1 m c)) :=
  ((B8_keep m ρ c main_v17 (by decide)).trans ((B7_keep m ρ c main_v17 (by decide)))).trans (srcKept6A m ρ c hX hW1 hA1)

theorem outA : (B9 m ρ c (Proc.devRef .tc main_v65) : FVec Ideal S100000x32 .f32) = (Cert.ReferenceIdeal.Hand.branch (aX m c) (aW1 m c) (aA1 m c) (aI1 m c)) :=
  (sumA_after4 (B8 m ρ c)).trans ((congrArg₂ aggregate (weightedA m ρ c hX hW1 hA1) (srcKept8A m ρ c hX hW1 hA1)).trans rfl)
omit hX hW1 hA1

theorem featB8 : (B8 m ρ c (Proc.devRef .tc main_v13) : FVec Ideal S100000x32 .f32) = prj m c (aW2 m c) :=
  ((B8_keep m ρ c main_v13 (by decide)).trans ((B7_keep m ρ c main_v13 (by decide)).trans ((B6_keep m ρ c main_v13 (by decide)).trans ((B5_keep m ρ c main_v13 (by decide)).trans ((B4_keep m ρ c main_v13 (by decide))))))).trans ((featB_after1 (B2 m ρ c)).trans (featB2 m ρ c))
theorem srcScoreB8 : (B8 m ρ c (Proc.devRef .tc main_v14) : FVec Ideal S100000x1 .f32) = srcScoreB (F := Ideal) (B2 m ρ c (Proc.devRef .tc main_v9) : FVec Ideal S100000x68 .f32) :=
  ((B8_keep m ρ c main_v14 (by decide)).trans ((B7_keep m ρ c main_v14 (by decide)).trans ((B6_keep m ρ c main_v14 (by decide)).trans ((B5_keep m ρ c main_v14 (by decide)).trans ((B4_keep m ρ c main_v14 (by decide))))))).trans (srcScoreB_after1 (B2 m ρ c))
theorem tgtScoreB8 : (B8 m ρ c (Proc.devRef .tc main_v15) : FVec Ideal S100000x1 .f32) = tgtScoreB (F := Ideal) (B2 m ρ c (Proc.devRef .tc main_v9) : FVec Ideal S100000x68 .f32) :=
  ((B8_keep m ρ c main_v15 (by decide)).trans ((B7_keep m ρ c main_v15 (by decide)).trans ((B6_keep m ρ c main_v15 (by decide)).trans ((B5_keep m ρ c main_v15 (by decide)).trans ((B4_keep m ρ c main_v15 (by decide))))))).trans (tgtScoreB_after1 (B2 m ρ c))
theorem srcB : (B9 m ρ c (Proc.devRef .tc main_v67) : IVec S1600000 32) = idxRow0 (aI2 m c) :=
  (srcB_after4 (B8 m ρ c)).trans (congrArg idxRow0 (argI2_8 m ρ c))
theorem rowsB : (B9 m ρ c (Proc.devRef .tc main_v90) : FVec Ideal S1600000x32 .f32) = htOf m c (aW2 m c) (aI2 m c) :=
  (rowsB_after4 (B8 m ρ c)).trans ((congrArg₂ edgeRows (featB8 m ρ c) (congrArg idxRow1 (argI2_8 m ρ c))).trans rfl)
theorem lanesSrcB : (B9 m ρ c (Proc.devRef .tc main_v92) : FVec Ideal S12500x128 .f32) = edgeLanes (F := Ideal) (srcScoreB (B2 m ρ c (Proc.devRef .tc main_v9) : FVec Ideal S100000x68 .f32)) (idxRow0 (aI2 m c)) :=
  (lanesSrcB_after4 (B8 m ρ c)).trans (congrArg₂ edgeLanes (srcScoreB8 m ρ c) (congrArg idxRow0 (argI2_8 m ρ c)))
theorem lanesTgtB : (B9 m ρ c (Proc.devRef .tc main_v94) : FVec Ideal S12500x128 .f32) = edgeLanes (F := Ideal) (tgtScoreB (B2 m ρ c (Proc.devRef .tc main_v9) : FVec Ideal S100000x68 .f32)) (idxRow1 (aI2 m c)) :=
  (lanesTgtB_after4 (B8 m ρ c)).trans (congrArg₂ edgeLanes (tgtScoreB8 m ρ c) (congrArg idxRow1 (argI2_8 m ρ c)))

include hX hW2 hA2

theorem lreluB : (B10 m ρ c (Proc.devRef .tc main_v95) : FVec Ideal S12500x128 .f32) = toLanes (lrOf m c (aW2 m c) (aA2 m c) (aI2 m c)) :=
  (B10_arr m ρ c 2).trans ((result4 (E9 m ρ) c).trans
    ((congrArg₂ (k4_pay1 (F := Ideal)) (lanesSrcB m ρ c) (lanesTgtB m ρ c)).trans
      (lrelu_lanes (aX m c) (aW2 m c) (aA2 m c) hX hW2 hA2 _ _
        (srcScoreB_apply (aW1 m c) (aW2 m c) (aA1 m c) (aA2 m c) (aX m c) _ (prod2 m ρ c))
        (tgtScoreB_apply (aW1 m c) (aW2 m c) (aA1 m c) (aA2 m c) (aX m c) _ (prod2 m ρ c)) (idxRow0 (aI2 m c)) (idxRow1 (aI2 m c)))))

theorem lreluKeptB : (B11 m ρ c (Proc.devRef .tc main_v95) : FVec Ideal S12500x128 .f32) = toLanes (lrOf m c (aW2 m c) (aA2 m c) (aI2 m c)) :=
  (B11_keep m ρ c main_v95 (by decide)).trans (lreluB m ρ c hX hW2 hA2)

theorem topB : (B11 m ρ c (Proc.devRef .tc main_v97) : FVec Ideal S1x1 .f32) = topScore (toLanes (lrOf m c (aW2 m c) (aA2 m c) (aI2 m c))) :=
  (top_after5 (B10 m ρ c)).trans (congrArg topScore (lreluB m ρ c hX hW2 hA2))

theorem expoB : (B12 m ρ c (Proc.devRef .tc main_v98) : FVec Ideal S12500x128 .f32) = toLanes (Cert.ReferenceIdeal.Hand.expShift (lrOf m c (aW2 m c) (aA2 m c) (aI2 m c))) :=
  (B12_arr m ρ c 2).trans ((result5 (E11 m ρ) c).trans
    ((congrArg₂ (k5_pay1 (F := Ideal)) (topB m ρ c hX hW2 hA2) (lreluKeptB m ρ c hX hW2 hA2)).trans (exp_lanes (lrOf m c (aW2 m c) (aA2 m c) (aI2 m c)))))

theorem columnB : (B13 m ρ c (Proc.devRef .tc main_v99) : FVec Ideal S1600000x1 .f32) = (Cert.ReferenceIdeal.Hand.expShift (lrOf m c (aW2 m c) (aA2 m c) (aI2 m c))) :=
  (column_after6 (B12 m ρ c)).trans ((congrArg asColumn (expoB m ρ c hX hW2 hA2)).trans (asColumn_lanes _))

theorem srcKept6B : (B12 m ρ c (Proc.devRef .tc main_v67) : IVec S1600000 32) = (idxRow0 (aI2 m c)) :=
  ((B12_keep m ρ c main_v67 (by decide)).trans ((B11_keep m ρ c main_v67 (by decide)).trans ((B10_keep m ρ c main_v67 (by decide))))).trans (srcB m ρ c)

theorem denB : (B13 m ρ c (Proc.devRef .tc main_v111) : FVec Ideal S1600000x1 .f32) = denomAt (Cert.ReferenceIdeal.Hand.expShift (lrOf m c (aW2 m c) (aA2 m c) (aI2 m c))) (idxRow0 (aI2 m c)) :=
  (denomAt_after6 (B12 m ρ c)).trans
    (congrArg₂ denomAt ((congrArg asColumn (expoB m ρ c hX hW2 hA2)).trans (asColumn_lanes _)) (srcKept6B m ρ c hX hW2 hA2))

theorem rowsKeptB : (B13 m ρ c (Proc.devRef .tc main_v90) : FVec Ideal S1600000x32 .f32) = (htOf m c (aW2 m c) (aI2 m c)) :=
  ((B13_keep m ρ c main_v90 (by decide)).trans ((B12_keep m ρ c main_v90 (by decide)).trans ((B11_keep m ρ c main_v90 (by decide)).trans ((B10_keep m ρ c main_v90 (by decide)))))).trans (rowsB m ρ c)

theorem weightedB : (B14 m ρ c (Proc.devRef .tc main_v112) : FVec Ideal S1600000x32 .f32)
    = mulf (broadcastInDim Cert.ReferenceIdeal.S1600000x32 ![0, 1] Cert.ReferenceIdeal.Facts₀.bcast_S1600000x1_S1600000x32_0_1
        (Host.divf (F := Ideal) (Cert.ReferenceIdeal.Hand.expShift (lrOf m c (aW2 m c) (aA2 m c) (aI2 m c))) (denomAt (Cert.ReferenceIdeal.Hand.expShift (lrOf m c (aW2 m c) (aA2 m c) (aI2 m c))) (idxRow0 (aI2 m c))))) (htOf m c (aW2 m c) (aI2 m c)) :=
  weight_eq _ _ _ _ fun p q => by
    have h1 : E13 m ρ c main_v99 = (Cert.ReferenceIdeal.Hand.expShift (lrOf m c (aW2 m c) (aA2 m c) (aI2 m c))) := columnB m ρ c hX hW2 hA2
    have h2 : E13 m ρ c main_v111 = denomAt (Cert.ReferenceIdeal.Hand.expShift (lrOf m c (aW2 m c) (aA2 m c) (aI2 m c))) (idxRow0 (aI2 m c)) := denB m ρ c hX hW2 hA2
    have h3 : E13 m ρ c main_v90 = (htOf m c (aW2 m c) (aI2 m c)) := rowsKeptB m ρ c hX hW2 hA2
    have h := result6 (E13 m ρ) c p q
    rw [h1, h2, h3] at h
    exact (congrFun (B14_arr m ρ c 3) (ix2 p q)).trans h

theorem srcKept8B : (B14 m ρ c (Proc.devRef .tc main_v67) : IVec S1600000 32) = (idxRow0 (aI2 m c)) :=
  ((B14_keep m ρ c main_v67 (by decide)).trans ((B13_keep m ρ c main_v67 (by decide)))).trans (srcKept6B m ρ c hX hW2 hA2)

theorem outB : (B15 m ρ c (Proc.devRef .tc main_v117) : FVec Ideal S25000x128 .f32) = lanes (Cert.ReferenceIdeal.Hand.branch (aX m c) (aW2 m c) (aA2 m c) (aI2 m c)) :=
  (lanesB_after7 (B14 m ρ c)).trans (congrArg lanes ((congrArg₂ aggregate (weightedB m ρ c hX hW2 hA2) (srcKept8B m ρ c hX hW2 hA2)).trans rfl))
omit hX hW2 hA2

include hX hW1 hA1 hW2 hA2
theorem outA15 : (B15 m ρ c (Proc.devRef .tc main_v116) : FVec Ideal S25000x128 .f32) = lanes (Cert.ReferenceIdeal.Hand.branch (aX m c) (aW1 m c) (aA1 m c) (aI1 m c)) :=
  (lanesA_after7 (B14 m ρ c)).trans (congrArg lanes (((B14_keep m ρ c main_v65 (by decide)).trans ((B13_keep m ρ c main_v65 (by decide)).trans ((B12_keep m ρ c main_v65 (by decide)).trans ((B11_keep m ρ c main_v65 (by decide)).trans ((B10_keep m ρ c main_v65 (by decide))))))).trans (outA m ρ c hX hW1 hA1)))

theorem closing (p : Fin 25000) (q : Fin 128) : (B16 m ρ c (Proc.devRef .tc main_v118) : FVec Ideal S25000x128 .f32) (ix2 p q)
    = (if 0 < lanes (Cert.ReferenceIdeal.Hand.branch (aX m c) (aW1 m c) (aA1 m c) (aI1 m c)) (ix2 p q) + lanes (Cert.ReferenceIdeal.Hand.branch (aX m c) (aW2 m c) (aA2 m c) (aI2 m c)) (ix2 p q)
        then lanes (Cert.ReferenceIdeal.Hand.branch (aX m c) (aW1 m c) (aA1 m c) (aI1 m c)) (ix2 p q) + lanes (Cert.ReferenceIdeal.Hand.branch (aX m c) (aW2 m c) (aA2 m c) (aI2 m c)) (ix2 p q)
        else Ideal.exp (lanes (Cert.ReferenceIdeal.Hand.branch (aX m c) (aW1 m c) (aA1 m c) (aI1 m c)) (ix2 p q) + lanes (Cert.ReferenceIdeal.Hand.branch (aX m c) (aW2 m c) (aA2 m c) (aI2 m c)) (ix2 p q)) - 1) := by
  have h1 : E15 m ρ c main_v116 = lanes (Cert.ReferenceIdeal.Hand.branch (aX m c) (aW1 m c) (aA1 m c) (aI1 m c)) := outA15 m ρ c hX hW1 hA1 hW2 hA2
  have h2 : E15 m ρ c main_v117 = lanes (Cert.ReferenceIdeal.Hand.branch (aX m c) (aW2 m c) (aA2 m c) (aI2 m c)) := outB m ρ c hX hW2 hA2
  have h := result7 (E15 m ρ) c p q
  rw [h1, h2, eluSum_eq] at h
  exact (congrFun (B16_arr m ρ c 2) (ix2 p q)).trans h

theorem result_eq : (B17 m ρ c (Proc.devRef .tc main_v119) : FVec Ideal S100000x32 .f32)
    = Cert.ReferenceIdeal.Hand.refOut (aX m c) (aI1 m c) (aI2 m c) (aW1 m c) (aW2 m c) (aA1 m c) (aA2 m c) :=
  (out_after8 (B16 m ρ c)).trans ((elu_lanes _ _ _ (closing m ρ c hX hW1 hA1 hW2 hA2)).trans rfl)
end Real

end Cert.KernelIdeal.Hand

end
-- ==== Proof.Ref.Run.lean ====
import proofs.«400307_j79207786873545_3_alg».proof.ReferenceIdeal
import Idealize.ShloMosaic.Lib.StableHlo.Run

noncomputable section

namespace Cert.ReferenceIdeal.Hand

open Cert.ReferenceIdeal Idealize.ShloMosaic Idealize.ShloMosaic.TcCoe Idealize.SL.Sem Idealize.ShloMosaic.StableHlo
open Cert.ReferenceIdeal.Facts₀

variable {F : FTy → Type} [FloatOps F] [Cert.ReferenceIdeal.Facts]

abbrev cA1 : List (HloOp τ sig (Elt F)) :=
  [ StableHlo.binary main_arg0 main_arg3 main_v0 ((fun l r => Host.dotGeneral dot_S100000x32_S32x32_S100000x32_1_0_0_1_n_n none l r)),
    StableHlo.unary main_arg1 main_v1 ((extractStridedSlice S1x1600000 ![0, 0] · slices_S2x1600000_S1x1600000_0_0)),
    StableHlo.reshape main_v1 main_v2 rfl shapeCasts_S1x1600000_S1600000,
    StableHlo.unary main_arg1 main_v3 ((extractStridedSlice S1x1600000 ![1, 0] · slices_S2x1600000_S1x1600000_1_0)),
    StableHlo.reshape main_v3 main_v4 rfl shapeCasts_S1x1600000_S1600000,
    StableHlo.nullary main_c (constantI S_ 32 0#32),
    StableHlo.unary main_c main_v5 (broadcastInDim S1600000 ![] bcast_S_S1600000),
    StableHlo.binary main_v2 main_v5 main_v6 (cmpi .slt),
    StableHlo.nullary main_c_0 (constantI S_ 32 100000#32),
    StableHlo.unary main_c_0 main_v7 (broadcastInDim S1600000 ![] bcast_S_S1600000),
    StableHlo.binary main_v2 main_v7 main_v8 (addi),
    StableHlo.ternary main_v6 main_v8 main_v2 main_v9 (select),
    StableHlo.unary main_v9 main_v10 (broadcastInDim S1600000x1 ![0] bcast_S1600000_S1600000x1_0),
    StableHlo.binary main_v0 main_v10 main_v11 ((fun x i => Host.gather gather_S100000x32_S1600000x1_S1600000x32_1_0_n_n_0_1_132 x i)),
    StableHlo.nullary main_c_1 (constantI S_ 32 0#32),
    StableHlo.unary main_c_1 main_v12 (broadcastInDim S1600000 ![] bcast_S_S1600000),
    StableHlo.binary main_v4 main_v12 main_v13 (cmpi .slt),
    StableHlo.nullary main_c_2 (constantI S_ 32 100000#32),
    StableHlo.unary main_c_2 main_v14 (broadcastInDim S1600000 ![] bcast_S_S1600000),
    StableHlo.binary main_v4 main_v14 main_v15 (addi),
    StableHlo.ternary main_v13 main_v15 main_v4 main_v16 (select),
    StableHlo.unary main_v16 main_v17 (broadcastInDim S1600000x1 ![0] bcast_S1600000_S1600000x1_0),
    StableHlo.binary main_v0 main_v17 main_v18 ((fun x i => Host.gather gather_S100000x32_S1600000x1_S1600000x32_1_0_n_n_0_1_132 x i)),
    StableHlo.unary main_arg5 main_v19 ((extractStridedSlice S32x1 ![0, 0] · slices_S64x1_S32x1_0_0)),
    StableHlo.binary main_v11 main_v19 main_v20 ((fun l r => Host.dotGeneral dot_S1600000x32_S32x1_S1600000x1_1_0_0_1_n_n none l r)),
    StableHlo.unary main_arg5 main_v21 ((extractStridedSlice S32x1 ![32, 0] · slices_S64x1_S32x1_32_0)),
    StableHlo.binary main_v18 main_v21 main_v22 ((fun l r => Host.dotGeneral dot_S1600000x32_S32x1_S1600000x1_1_0_0_1_n_n none l r)),
    StableHlo.binary main_v20 main_v22 main_v23 (addf),
    StableHlo.nullary main_cst (constant S_ .f32 0x3E4CCCCD#32),
    StableHlo.TRef.nullary main_call0.cst (constant S_ .f32 0x00000000#32),
    StableHlo.TRef.unary main_call0.cst main_call0.v0 (broadcastInDim S1600000x1 ![] bcast_S_S1600000x1),
    StableHlo.TRef.binary (.of main_v23 : TRef sig ⟨S1600000x1, .f32⟩) main_call0.v0 main_call0.v1 (cmpf .oge),
    StableHlo.TRef.unary (.of main_cst : TRef sig ⟨S_, .f32⟩) main_call0.v2 id,
    StableHlo.TRef.unary main_call0.v2 main_call0.v3 (broadcastInDim S1600000x1 ![] bcast_S_S1600000x1),
    StableHlo.TRef.binary main_call0.v3 (.of main_v23 : TRef sig ⟨S1600000x1, .f32⟩) main_call0.v4 mulf,
    StableHlo.TRef.ternary main_call0.v1 (.of main_v23 : TRef sig ⟨S1600000x1, .f32⟩) main_call0.v4 main_call0.call0.v0 select ]

abbrev cA2 : List (HloOp τ sig (Elt F)) :=
  [ StableHlo.nullary main_cst_3 (constant S_ .f32 0xFF800000#32),
    StableHlo.binary main_v24 main_cst_3 main_v25 ((fun x v => Host.reduce FloatOps.maximumf x v reducesTo_S1600000x1_S_d0_1 h_S_)),
    StableHlo.unary main_v25 main_v26 (broadcastInDim S1600000x1 ![] bcast_S_S1600000x1),
    StableHlo.binary main_v24 main_v26 main_v27 (subf),
    StableHlo.unary main_v27 main_v28 (Host.exp),
    StableHlo.nullary main_cst_4 (constant S_ .f32 0x00000000#32),
    StableHlo.unary main_cst_4 main_v29 (broadcastInDim S100000x1 ![] bcast_S_S100000x1),
    StableHlo.unary main_v2 main_v30 (broadcastInDim S1600000x1 ![0] bcast_S1600000_S1600000x1_0),
    StableHlo.ternary main_v29 main_v30 main_v28 main_v31 ((fun x i u => Host.scatterAdd scatter_S100000x1_S1600000x1_S1600000x1_1_0_0_1 x i u)),
    StableHlo.nullary main_cst_5 (constant S_ .f32 0x2EDBE6FF#32),
    StableHlo.unary main_cst_5 main_v32 (broadcastInDim S100000x1 ![] bcast_S_S100000x1),
    StableHlo.binary main_v31 main_v32 main_v33 (addf),
    StableHlo.nullary main_c_6 (constantI S_ 32 0#32),
    StableHlo.unary main_c_6 main_v34 (broadcastInDim S1600000 ![] bcast_S_S1600000),
    StableHlo.binary main_v2 main_v34 main_v35 (cmpi .slt),
    StableHlo.nullary main_c_7 (constantI S_ 32 100000#32),
    StableHlo.unary main_c_7 main_v36 (broadcastInDim S1600000 ![] bcast_S_S1600000),
    StableHlo.binary main_v2 main_v36 main_v37 (addi),
    StableHlo.ternary main_v35 main_v37 main_v2 main_v38 (select),
    StableHlo.unary main_v38 main_v39 (broadcastInDim S1600000x1 ![0] bcast_S1600000_S1600000x1_0),
    StableHlo.binary main_v33 main_v39 main_v40 ((fun x i => Host.gather gather_S100000x1_S1600000x1_S1600000x1_1_0_n_n_0_1_11 x i)),
    StableHlo.binary main_v28 main_v40 main_v41 (Host.divf),
    StableHlo.unary main_v41 main_v42 (broadcastInDim S1600000x32 ![0, 1] bcast_S1600000x1_S1600000x32_0_1),
    StableHlo.binary main_v42 main_v18 main_v43 (mulf),
    StableHlo.nullary main_cst_8 (constant S_ .f32 0x00000000#32),
    StableHlo.unary main_cst_8 main_v44 (broadcastInDim S100000x32 ![] bcast_S_S100000x32),
    StableHlo.unary main_v2 main_v45 (broadcastInDim S1600000x1 ![0] bcast_S1600000_S1600000x1_0),
    StableHlo.ternary main_v44 main_v45 main_v43 main_v46 ((fun x i u => Host.scatterAdd scatter_S100000x32_S1600000x1_S1600000x32_1_0_0_1 x i u)) ]

abbrev cA3 : List (HloOp τ sig (Elt F)) :=
  [ StableHlo.binary main_arg0 main_arg4 main_v47 ((fun l r => Host.dotGeneral dot_S100000x32_S32x32_S100000x32_1_0_0_1_n_n none l r)),
    StableHlo.unary main_arg2 main_v48 ((extractStridedSlice S1x1600000 ![0, 0] · slices_S2x1600000_S1x1600000_0_0)) ]

abbrev cB1 : List (HloOp τ sig (Elt F)) :=
  [ StableHlo.reshape main_v48 main_v49 rfl shapeCasts_S1x1600000_S1600000,
    StableHlo.unary main_arg2 main_v50 ((extractStridedSlice S1x1600000 ![1, 0] · slices_S2x1600000_S1x1600000_1_0)),
    StableHlo.reshape main_v50 main_v51 rfl shapeCasts_S1x1600000_S1600000,
    StableHlo.nullary main_c_9 (constantI S_ 32 0#32),
    StableHlo.unary main_c_9 main_v52 (broadcastInDim S1600000 ![] bcast_S_S1600000),
    StableHlo.binary main_v49 main_v52 main_v53 (cmpi .slt),
    StableHlo.nullary main_c_10 (constantI S_ 32 100000#32),
    StableHlo.unary main_c_10 main_v54 (broadcastInDim S1600000 ![] bcast_S_S1600000),
    StableHlo.binary main_v49 main_v54 main_v55 (addi),
    StableHlo.ternary main_v53 main_v55 main_v49 main_v56 (select),
    StableHlo.unary main_v56 main_v57 (broadcastInDim S1600000x1 ![0] bcast_S1600000_S1600000x1_0),
    StableHlo.binary main_v47 main_v57 main_v58 ((fun x i => Host.gather gather_S100000x32_S1600000x1_S1600000x32_1_0_n_n_0_1_132 x i)),
    StableHlo.nullary main_c_11 (constantI S_ 32 0#32),
    StableHlo.unary main_c_11 main_v59 (broadcastInDim S1600000 ![] bcast_S_S1600000),
    StableHlo.binary main_v51 main_v59 main_v60 (cmpi .slt),
    StableHlo.nullary main_c_12 (constantI S_ 32 100000#32),
    StableHlo.unary main_c_12 main_v61 (broadcastInDim S1600000 ![] bcast_S_S1600000),
    StableHlo.binary main_v51 main_v61 main_v62 (addi),
    StableHlo.ternary main_v60 main_v62 main_v51 main_v63 (select),
    StableHlo.unary main_v63 main_v64 (broadcastInDim S1600000x1 ![0] bcast_S1600000_S1600000x1_0),
    StableHlo.binary main_v47 main_v64 main_v65 ((fun x i => Host.gather gather_S100000x32_S1600000x1_S1600000x32_1_0_n_n_0_1_132 x i)),
    StableHlo.unary main_arg6 main_v66 ((extractStridedSlice S32x1 ![0, 0] · slices_S64x1_S32x1_0_0)),
    StableHlo.binary main_v58 main_v66 main_v67 ((fun l r => Host.dotGeneral dot_S1600000x32_S32x1_S1600000x1_1_0_0_1_n_n none l r)),
    StableHlo.unary main_arg6 main_v68 ((extractStridedSlice S32x1 ![32, 0] · slices_S64x1_S32x1_32_0)),
    StableHlo.binary main_v65 main_v68 main_v69 ((fun l r => Host.dotGeneral dot_S1600000x32_S32x1_S1600000x1_1_0_0_1_n_n none l r)),
    StableHlo.binary main_v67 main_v69 main_v70 (addf),
    StableHlo.nullary main_cst_13 (constant S_ .f32 0x3E4CCCCD#32),
    StableHlo.TRef.nullary main_call1.cst (constant S_ .f32 0x00000000#32),
    StableHlo.TRef.unary main_call1.cst main_call1.v0 (broadcastInDim S1600000x1 ![] bcast_S_S1600000x1),
    StableHlo.TRef.binary (.of main_v70 : TRef sig ⟨S1600000x1, .f32⟩) main_call1.v0 main_call1.v1 (cmpf .oge),
    StableHlo.TRef.unary (.of main_cst_13 : TRef sig ⟨S_, .f32⟩) main_call1.v2 id,
    StableHlo.TRef.unary main_call1.v2 main_call1.v3 (broadcastInDim S1600000x1 ![] bcast_S_S1600000x1),
    StableHlo.TRef.binary main_call1.v3 (.of main_v70 : TRef sig ⟨S1600000x1, .f32⟩) main_call1.v4 mulf,
    StableHlo.TRef.ternary main_call1.v1 (.of main_v70 : TRef sig ⟨S1600000x1, .f32⟩) main_call1.v4 main_call1.call0.v0 select ]

abbrev cB2 : List (HloOp τ sig (Elt F)) :=
  [ StableHlo.nullary main_cst_14 (constant S_ .f32 0xFF800000#32),
    StableHlo.binary main_v71 main_cst_14 main_v72 ((fun x v => Host.reduce FloatOps.maximumf x v reducesTo_S1600000x1_S_d0_1 h_S_)),
    StableHlo.unary main_v72 main_v73 (broadcastInDim S1600000x1 ![] bcast_S_S1600000x1),
    StableHlo.binary main_v71 main_v73 main_v74 (subf),
    StableHlo.unary main_v74 main_v75 (Host.exp),
    StableHlo.nullary main_cst_15 (constant S_ .f32 0x00000000#32),
    StableHlo.unary main_cst_15 main_v76 (broadcastInDim S100000x1 ![] bcast_S_S100000x1),
    StableHlo.unary main_v49 main_v77 (broadcastInDim S1600000x1 ![0] bcast_S1600000_S1600000x1_0),
    StableHlo.ternary main_v76 main_v77 main_v75 main_v78 ((fun x i u => Host.scatterAdd scatter_S100000x1_S1600000x1_S1600000x1_1_0_0_1 x i u)),
    StableHlo.nullary main_cst_16 (constant S_ .f32 0x2EDBE6FF#32),
    StableHlo.unary main_cst_16 main_v79 (broadcastInDim S100000x1 ![] bcast_S_S100000x1),
    StableHlo.binary main_v78 main_v79 main_v80 (addf),
    StableHlo.nullary main_c_17 (constantI S_ 32 0#32),
    StableHlo.unary main_c_17 main_v81 (broadcastInDim S1600000 ![] bcast_S_S1600000),
    StableHlo.binary main_v49 main_v81 main_v82 (cmpi .slt),
    StableHlo.nullary main_c_18 (constantI S_ 32 100000#32),
    StableHlo.unary main_c_18 main_v83 (broadcastInDim S1600000 ![] bcast_S_S1600000),
    StableHlo.binary main_v49 main_v83 main_v84 (addi),
    StableHlo.ternary main_v82 main_v84 main_v49 main_v85 (select),
    StableHlo.unary main_v85 main_v86 (broadcastInDim S1600000x1 ![0] bcast_S1600000_S1600000x1_0),
    StableHlo.binary main_v80 main_v86 main_v87 ((fun x i => Host.gather gather_S100000x1_S1600000x1_S1600000x1_1_0_n_n_0_1_11 x i)),
    StableHlo.binary main_v75 main_v87 main_v88 (Host.divf),
    StableHlo.unary main_v88 main_v89 (broadcastInDim S1600000x32 ![0, 1] bcast_S1600000x1_S1600000x32_0_1),
    StableHlo.binary main_v89 main_v65 main_v90 (mulf),
    StableHlo.nullary main_cst_19 (constant S_ .f32 0x00000000#32),
    StableHlo.unary main_cst_19 main_v91 (broadcastInDim S100000x32 ![] bcast_S_S100000x32),
    StableHlo.unary main_v49 main_v92 (broadcastInDim S1600000x1 ![0] bcast_S1600000_S1600000x1_0),
    StableHlo.ternary main_v91 main_v92 main_v90 main_v93 ((fun x i u => Host.scatterAdd scatter_S100000x32_S1600000x1_S1600000x32_1_0_0_1 x i u)) ]

abbrev cB3 : List (HloOp τ sig (Elt F)) :=
  [ StableHlo.binary main_v46 main_v93 main_v94 (addf),
    StableHlo.TRef.nullary main_call2.cst (constant S_ .f32 0x00000000#32),
    StableHlo.TRef.unary main_call2.cst main_call2.v0 (broadcastInDim S100000x32 ![] bcast_S_S100000x32),
    StableHlo.TRef.binary (.of main_v94 : TRef sig ⟨S100000x32, .f32⟩) main_call2.v0 main_call2.v1 (cmpf .ogt),
    StableHlo.TRef.nullary main_call2.cst_0 (constant S_ .f32 0x00000000#32),
    StableHlo.TRef.unary main_call2.cst_0 main_call2.v2 (broadcastInDim S100000x32 ![] bcast_S_S100000x32),
    StableHlo.TRef.binary (.of main_v94 : TRef sig ⟨S100000x32, .f32⟩) main_call2.v2 main_call2.v3 (cmpf .ogt),
    StableHlo.TRef.nullary main_call2.cst_1 (constant S_ .f32 0x00000000#32),
    StableHlo.TRef.unary main_call2.cst_1 main_call2.call0.v0 id,
    StableHlo.TRef.unary main_call2.call0.v0 main_call2.call0.v1 (broadcastInDim S100000x32 ![] bcast_S_S100000x32),
    StableHlo.TRef.ternary main_call2.v3 main_call2.call0.v1 (.of main_v94 : TRef sig ⟨S100000x32, .f32⟩) main_call2.call0.v2 select,
    StableHlo.TRef.unary main_call2.call0.v2 main_call2.v5 Host.expm1,
    StableHlo.TRef.nullary main_call2.cst_2 (constant S_ .f32 0x3F800000#32),
    StableHlo.TRef.unary main_call2.cst_2 main_call2.v6 (broadcastInDim S100000x32 ![] bcast_S_S100000x32),
    StableHlo.TRef.binary main_call2.v6 main_call2.v5 main_call2.v7 mulf,
    StableHlo.TRef.ternary main_call2.v1 (.of main_v94 : TRef sig ⟨S100000x32, .f32⟩) main_call2.v7 main_call2.call1.v0 select ]

abbrev opsP0 : List (HloOp τ sig (Elt F)) := cA1 ++ cA2 ++ cA3

abbrev opsP1 : List (HloOp τ sig (Elt F)) := cB1 ++ cB2 ++ cB3

abbrev ops : List (HloOp τ sig (Elt F)) := opsP0 ++ opsP1

theorem forall_append {α : Type} {p : α → Prop} {l₁ l₂ : List α} (h₁ : l₁.Forall p) (h₂ : l₂.Forall p) : (l₁ ++ l₂).Forall p :=
  List.forall_iff_forall_mem.mpr fun x hx =>
    (List.mem_append.mp hx).elim (List.forall_iff_forall_mem.mp h₁ x) (List.forall_iff_forall_mem.mp h₂ x)

theorem writes_sub_of_mem {W : List (Ref sig .tc)} (op : HloOp τ sig (Elt F)) (y : Ref sig .tc)
    (hw : op.writes = {Proc.devRef .tc y} := by rfl) (hy : y ∈ W := by decide) : op.writes ⊆ (W.map (Proc.devRef (τ := τ) .tc)).toFinset := by
  rw [hw, Finset.singleton_subset_iff, List.mem_toFinset]; exact List.mem_map_of_mem hy

theorem after_append' : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append' l₁ l₂]

theorem cA1_sub : (cA1 : List (HloOp τ sig (Elt F))).Forall fun op => op.bufs ⊆ tcRefs τ sig :=
  ⟨binary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., unary_bufs_sub .., binary_bufs_sub .., binary_bufs_sub .., nullary_bufs_sub .., nullary_bufs_sub .., unary_bufs_sub .., binary_bufs_sub .., unary_bufs_sub .., unary_bufs_sub .., binary_bufs_sub .., ternary_bufs_sub ..⟩
theorem cA1_fresh : (cA1 : List (HloOp τ sig (Elt F))).Forall fun op => op.fresh = ∅ := by
  simp only [List.Forall]; repeat' constructor

abbrev cA1_W : List (Ref sig .tc) :=
  [main_v0, main_v1, main_v2, main_v3, main_v4, main_c, main_v5, main_v6, main_c_0, main_v7, main_v8, main_v9, main_v10, main_v11, main_c_1, main_v12, main_v13, main_c_2, main_v14, main_v15, main_v16, main_v17, main_v18, main_v19, main_v20, main_v21, main_v22, main_v23, main_cst, main_call0.cst.ref, main_call0.v0.ref, main_call0.v1.ref, main_call0.v2.ref, main_call0.v3.ref, main_call0.v4.ref, main_call0.call0.v0.ref]
theorem cA1_writes : (cA1 : List (HloOp τ sig (Elt F))).Forall fun op => op.writes ⊆ (cA1_W.map (Proc.devRef (τ := τ) .tc)).toFinset :=
  ⟨writes_sub_of_mem _ main_v0,
   writes_sub_of_mem _ main_v1,
   writes_sub_of_mem _ main_v2,
   writes_sub_of_mem _ main_v3,
   writes_sub_of_mem _ main_v4,
   writes_sub_of_mem _ main_c,
   writes_sub_of_mem _ main_v5,
   writes_sub_of_mem _ main_v6,
   writes_sub_of_mem _ main_c_0,
   writes_sub_of_mem _ main_v7,
   writes_sub_of_mem _ main_v8,
   writes_sub_of_mem _ main_v9,
   writes_sub_of_mem _ main_v10,
   writes_sub_of_mem _ main_v11,
   writes_sub_of_mem _ main_c_1,
   writes_sub_of_mem _ main_v12,
   writes_sub_of_mem _ main_v13,
   writes_sub_of_mem _ main_c_2,
   writes_sub_of_mem _ main_v14,
   writes_sub_of_mem _ main_v15,
   writes_sub_of_mem _ main_v16,
   writes_sub_of_mem _ main_v17,
   writes_sub_of_mem _ main_v18,
   writes_sub_of_mem _ main_v19,
   writes_sub_of_mem _ main_v20,
   writes_sub_of_mem _ main_v21,
   writes_sub_of_mem _ main_v22,
   writes_sub_of_mem _ main_v23,
   writes_sub_of_mem _ main_cst,
   writes_sub_of_mem _ (main_call0.cst.ref),
   writes_sub_of_mem _ (main_call0.v0.ref),
   writes_sub_of_mem _ (main_call0.v1.ref),
   writes_sub_of_mem _ (main_call0.v2.ref),
   writes_sub_of_mem _ (main_call0.v3.ref),
   writes_sub_of_mem _ (main_call0.v4.ref),
   writes_sub_of_mem _ (main_call0.call0.v0.ref)⟩

theorem cA1_keeps (V : Valuation τ sig (Elt F)) {r : Ref sig .tc} (h : r ∉ cA1_W) :
    after cA1 V (Proc.devRef .tc r) = V (Proc.devRef .tc r) :=
  after_of_writes_sub cA1 V cA1_writes h

theorem cA2_sub : (cA2 : List (HloOp τ sig (Elt F))).Forall fun op => op.bufs ⊆ tcRefs τ sig :=
  ⟨nullary_bufs_sub .., binary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., binary_bufs_sub .., nullary_bufs_sub .., unary_bufs_sub .., unary_bufs_sub .., ternary_bufs_sub ..⟩
theorem cA2_fresh : (cA2 : List (HloOp τ sig (Elt F))).Forall fun op => op.fresh = ∅ := by
  simp only [List.Forall]; repeat' constructor

abbrev cA2_W : List (Ref sig .tc) :=
  [main_cst_3, main_v25, main_v26, main_v27, main_v28, main_cst_4, main_v29, main_v30, main_v31, main_cst_5, main_v32, main_v33, main_c_6, main_v34, main_v35, main_c_7, main_v36, main_v37, main_v38, main_v39, main_v40, main_v41, main_v42, main_v43, main_cst_8, main_v44, main_v45, main_v46]
theorem cA2_writes : (cA2 : List (HloOp τ sig (Elt F))).Forall fun op => op.writes ⊆ (cA2_W.map (Proc.devRef (τ := τ) .tc)).toFinset :=
  ⟨writes_sub_of_mem _ main_cst_3,
   writes_sub_of_mem _ main_v25,
   writes_sub_of_mem _ main_v26,
   writes_sub_of_mem _ main_v27,
   writes_sub_of_mem _ main_v28,
   writes_sub_of_mem _ main_cst_4,
   writes_sub_of_mem _ main_v29,
   writes_sub_of_mem _ main_v30,
   writes_sub_of_mem _ main_v31,
   writes_sub_of_mem _ main_cst_5,
   writes_sub_of_mem _ main_v32,
   writes_sub_of_mem _ main_v33,
   writes_sub_of_mem _ main_c_6,
   writes_sub_of_mem _ main_v34,
   writes_sub_of_mem _ main_v35,
   writes_sub_of_mem _ main_c_7,
   writes_sub_of_mem _ main_v36,
   writes_sub_of_mem _ main_v37,
   writes_sub_of_mem _ main_v38,
   writes_sub_of_mem _ main_v39,
   writes_sub_of_mem _ main_v40,
   writes_sub_of_mem _ main_v41,
   writes_sub_of_mem _ main_v42,
   writes_sub_of_mem _ main_v43,
   writes_sub_of_mem _ main_cst_8,
   writes_sub_of_mem _ main_v44,
   writes_sub_of_mem _ main_v45,
   writes_sub_of_mem _ main_v46⟩

theorem cA2_keeps (V : Valuation τ sig (Elt F)) {r : Ref sig .tc} (h : r ∉ cA2_W) :
    after cA2 V (Proc.devRef .tc r) = V (Proc.devRef .tc r) :=
  after_of_writes_sub cA2 V cA2_writes h

theorem cA3_sub : (cA3 : List (HloOp τ sig (Elt F))).Forall fun op => op.bufs ⊆ tcRefs τ sig :=
  ⟨binary_bufs_sub .., unary_bufs_sub ..⟩
theorem cA3_fresh : (cA3 : List (HloOp τ sig (Elt F))).Forall fun op => op.fresh = ∅ := by
  simp only [List.Forall]; repeat' constructor

abbrev cA3_W : List (Ref sig .tc) :=
  [main_v47, main_v48]
theorem cA3_writes : (cA3 : List (HloOp τ sig (Elt F))).Forall fun op => op.writes ⊆ (cA3_W.map (Proc.devRef (τ := τ) .tc)).toFinset :=
  ⟨writes_sub_of_mem _ main_v47,
   writes_sub_of_mem _ main_v48⟩

theorem cA3_keeps (V : Valuation τ sig (Elt F)) {r : Ref sig .tc} (h : r ∉ cA3_W) :
    after cA3 V (Proc.devRef .tc r) = V (Proc.devRef .tc r) :=
  after_of_writes_sub cA3 V cA3_writes h

theorem cB1_sub : (cB1 : List (HloOp τ sig (Elt F))).Forall fun op => op.bufs ⊆ tcRefs τ sig :=
  ⟨reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., unary_bufs_sub .., binary_bufs_sub .., binary_bufs_sub .., nullary_bufs_sub .., nullary_bufs_sub .., unary_bufs_sub .., binary_bufs_sub .., unary_bufs_sub .., unary_bufs_sub .., binary_bufs_sub .., ternary_bufs_sub ..⟩
theorem cB1_fresh : (cB1 : List (HloOp τ sig (Elt F))).Forall fun op => op.fresh = ∅ := by
  simp only [List.Forall]; repeat' constructor

abbrev cB1_W : List (Ref sig .tc) :=
  [main_v49, main_v50, main_v51, main_c_9, main_v52, main_v53, main_c_10, main_v54, main_v55, main_v56, main_v57, main_v58, main_c_11, main_v59, main_v60, main_c_12, main_v61, main_v62, main_v63, main_v64, main_v65, main_v66, main_v67, main_v68, main_v69, main_v70, main_cst_13, main_call1.cst.ref, main_call1.v0.ref, main_call1.v1.ref, main_call1.v2.ref, main_call1.v3.ref, main_call1.v4.ref, main_call1.call0.v0.ref]
theorem cB1_writes : (cB1 : List (HloOp τ sig (Elt F))).Forall fun op => op.writes ⊆ (cB1_W.map (Proc.devRef (τ := τ) .tc)).toFinset :=
  ⟨writes_sub_of_mem _ main_v49,
   writes_sub_of_mem _ main_v50,
   writes_sub_of_mem _ main_v51,
   writes_sub_of_mem _ main_c_9,
   writes_sub_of_mem _ main_v52,
   writes_sub_of_mem _ main_v53,
   writes_sub_of_mem _ main_c_10,
   writes_sub_of_mem _ main_v54,
   writes_sub_of_mem _ main_v55,
   writes_sub_of_mem _ main_v56,
   writes_sub_of_mem _ main_v57,
   writes_sub_of_mem _ main_v58,
   writes_sub_of_mem _ main_c_11,
   writes_sub_of_mem _ main_v59,
   writes_sub_of_mem _ main_v60,
   writes_sub_of_mem _ main_c_12,
   writes_sub_of_mem _ main_v61,
   writes_sub_of_mem _ main_v62,
   writes_sub_of_mem _ main_v63,
   writes_sub_of_mem _ main_v64,
   writes_sub_of_mem _ main_v65,
   writes_sub_of_mem _ main_v66,
   writes_sub_of_mem _ main_v67,
   writes_sub_of_mem _ main_v68,
   writes_sub_of_mem _ main_v69,
   writes_sub_of_mem _ main_v70,
   writes_sub_of_mem _ main_cst_13,
   writes_sub_of_mem _ (main_call1.cst.ref),
   writes_sub_of_mem _ (main_call1.v0.ref),
   writes_sub_of_mem _ (main_call1.v1.ref),
   writes_sub_of_mem _ (main_call1.v2.ref),
   writes_sub_of_mem _ (main_call1.v3.ref),
   writes_sub_of_mem _ (main_call1.v4.ref),
   writes_sub_of_mem _ (main_call1.call0.v0.ref)⟩

theorem cB1_keeps (V : Valuation τ sig (Elt F)) {r : Ref sig .tc} (h : r ∉ cB1_W) :
    after cB1 V (Proc.devRef .tc r) = V (Proc.devRef .tc r) :=
  after_of_writes_sub cB1 V cB1_writes h

theorem cB2_sub : (cB2 : List (HloOp τ sig (Elt F))).Forall fun op => op.bufs ⊆ tcRefs τ sig :=
  ⟨nullary_bufs_sub .., binary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., binary_bufs_sub .., nullary_bufs_sub .., unary_bufs_sub .., unary_bufs_sub .., ternary_bufs_sub ..⟩
theorem cB2_fresh : (cB2 : List (HloOp τ sig (Elt F))).Forall fun op => op.fresh = ∅ := by
  simp only [List.Forall]; repeat' constructor

abbrev cB2_W : List (Ref sig .tc) :=
  [main_cst_14, main_v72, main_v73, main_v74, main_v75, main_cst_15, main_v76, main_v77, main_v78, main_cst_16, main_v79, main_v80, main_c_17, main_v81, main_v82, main_c_18, main_v83, main_v84, main_v85, main_v86, main_v87, main_v88, main_v89, main_v90, main_cst_19, main_v91, main_v92, main_v93]
theorem cB2_writes : (cB2 : List (HloOp τ sig (Elt F))).Forall fun op => op.writes ⊆ (cB2_W.map (Proc.devRef (τ := τ) .tc)).toFinset :=
  ⟨writes_sub_of_mem _ main_cst_14,
   writes_sub_of_mem _ main_v72,
   writes_sub_of_mem _ main_v73,
   writes_sub_of_mem _ main_v74,
   writes_sub_of_mem _ main_v75,
   writes_sub_of_mem _ main_cst_15,
   writes_sub_of_mem _ main_v76,
   writes_sub_of_mem _ main_v77,
   writes_sub_of_mem _ main_v78,
   writes_sub_of_mem _ main_cst_16,
   writes_sub_of_mem _ main_v79,
   writes_sub_of_mem _ main_v80,
   writes_sub_of_mem _ main_c_17,
   writes_sub_of_mem _ main_v81,
   writes_sub_of_mem _ main_v82,
   writes_sub_of_mem _ main_c_18,
   writes_sub_of_mem _ main_v83,
   writes_sub_of_mem _ main_v84,
   writes_sub_of_mem _ main_v85,
   writes_sub_of_mem _ main_v86,
   writes_sub_of_mem _ main_v87,
   writes_sub_of_mem _ main_v88,
   writes_sub_of_mem _ main_v89,
   writes_sub_of_mem _ main_v90,
   writes_sub_of_mem _ main_cst_19,
   writes_sub_of_mem _ main_v91,
   writes_sub_of_mem _ main_v92,
   writes_sub_of_mem _ main_v93⟩

theorem cB2_keeps (V : Valuation τ sig (Elt F)) {r : Ref sig .tc} (h : r ∉ cB2_W) :
    after cB2 V (Proc.devRef .tc r) = V (Proc.devRef .tc r) :=
  after_of_writes_sub cB2 V cB2_writes h

theorem cB3_sub : (cB3 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩
theorem cB3_fresh : (cB3 : List (HloOp τ sig (Elt F))).Forall fun op => op.fresh = ∅ := by
  simp only [List.Forall]; repeat' constructor

abbrev cB3_W : List (Ref sig .tc) :=
  [main_v94, main_call2.cst.ref, main_call2.v0.ref, main_call2.v1.ref, main_call2.cst_0.ref, main_call2.v2.ref, main_call2.v3.ref, main_call2.cst_1.ref, main_call2.call0.v0.ref, main_call2.call0.v1.ref, main_call2.call0.v2.ref, main_call2.v5.ref, main_call2.cst_2.ref, main_call2.v6.ref, main_call2.v7.ref, main_call2.call1.v0.ref]
theorem cB3_writes : (cB3 : List (HloOp τ sig (Elt F))).Forall fun op => op.writes ⊆ (cB3_W.map (Proc.devRef (τ := τ) .tc)).toFinset :=
  ⟨writes_sub_of_mem _ main_v94,
   writes_sub_of_mem _ (main_call2.cst.ref),
   writes_sub_of_mem _ (main_call2.v0.ref),
   writes_sub_of_mem _ (main_call2.v1.ref),
   writes_sub_of_mem _ (main_call2.cst_0.ref),
   writes_sub_of_mem _ (main_call2.v2.ref),
   writes_sub_of_mem _ (main_call2.v3.ref),
   writes_sub_of_mem _ (main_call2.cst_1.ref),
   writes_sub_of_mem _ (main_call2.call0.v0.ref),
   writes_sub_of_mem _ (main_call2.call0.v1.ref),
   writes_sub_of_mem _ (main_call2.call0.v2.ref),
   writes_sub_of_mem _ (main_call2.v5.ref),
   writes_sub_of_mem _ (main_call2.cst_2.ref),
   writes_sub_of_mem _ (main_call2.v6.ref),
   writes_sub_of_mem _ (main_call2.v7.ref),
   writes_sub_of_mem _ (main_call2.call1.v0.ref)⟩

theorem cB3_keeps (V : Valuation τ sig (Elt F)) {r : Ref sig .tc} (h : r ∉ cB3_W) :
    after cB3 V (Proc.devRef .tc r) = V (Proc.devRef .tc r) :=
  after_of_writes_sub cB3 V cB3_writes h

set_option maxRecDepth 8192 in
set_option maxHeartbeats 4000000 in

theorem part0_eq (c : Dev nD) : main_part0 (F := F) c = seq opsP0 := by
  simp only [main_part0, fn_leaky_relu.body, fn_where.body, opsP0, cA1, cA2, cA3, List.cons_append, List.nil_append,
    seq, bind_assoc, pure_bind]
  rfl

set_option maxRecDepth 8192 in
set_option maxHeartbeats 4000000 in

theorem part1_eq (c : Dev nD) : main_part1 (F := F) c = seq opsP1 := by
  simp only [main_part1, fn_leaky_relu.body, fn_where.body, fn_elu.body, fn_where_0.body, fn_where_1.body, opsP1, cB1, cB2, cB3,
    List.cons_append, List.nil_append, seq, bind_assoc, pure_bind]
  rfl

theorem main_eq (c : Dev nD) : main (F := F) c = seq ops := by
  show (main_part0 c >>= fun _ => main_part1 c) = seq (opsP0 ++ opsP1)
  rw [part0_eq, part1_eq]
  exact (seq_append _ _).symm

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  forall_append (forall_append (forall_append cA1_sub cA2_sub) cA3_sub) (forall_append (forall_append cB1_sub cB2_sub) cB3_sub)

theorem ops_fresh : (ops : List (HloOp τ sig (Elt F))).Forall fun op => op.fresh = ∅ :=
  forall_append (forall_append (forall_append cA1_fresh cA2_fresh) cA3_fresh) (forall_append (forall_append cB1_fresh cB2_fresh) cB3_fresh)

theorem ops_after (V : Valuation τ sig (Elt F)) :
    after ops V = after cB3 (after cB2 (after cB1 (after cA3 (after cA2 (after cA1 V))))) := by
  show after ((cA1 ++ cA2 ++ cA3) ++ (cB1 ++ cB2 ++ cB3)) V = _
  simp only [after_append']

theorem ops_keeps (V : Valuation τ sig (Elt F)) {r : Ref sig .tc} (hA1 : r ∉ cA1_W) (hA2 : r ∉ cA2_W) (hA3 : r ∉ cA3_W) (hB1 : r ∉ cB1_W) (hB2 : r ∉ cB2_W) (hB3 : r ∉ cB3_W) :
    after ops V (Proc.devRef .tc r) = V (Proc.devRef .tc r) := by
  rw [ops_after, cB3_keeps _ hB3, cB2_keeps _ hB2, cB1_keeps _ hB1, cA3_keeps _ hA3, cA2_keeps _ hA2, cA1_keeps _ hA1]

theorem run (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ
    (fun _ => List.forall_iff_forall_mem.mp ops_fresh)

theorem frame (m : (ℓ : Loc nD τ sig) → Buf (Elt F) ℓ) (g : Dev nD → PrngReg) :
    θ_run (defs (F := F)) (onTc (τ := τ) (main (F := F))) ⟨m, fun _ => 0, g⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨(h c main_arg0).trans (ops_keeps _ (by decide) (by decide) (by decide) (by decide) (by decide) (by decide)),
     (h c main_arg1).trans (ops_keeps _ (by decide) (by decide) (by decide) (by decide) (by decide) (by decide)),
     (h c main_arg2).trans (ops_keeps _ (by decide) (by decide) (by decide) (by decide) (by decide) (by decide)),
     (h c main_arg3).trans (ops_keeps _ (by decide) (by decide) (by decide) (by decide) (by decide) (by decide)),
     (h c main_arg4).trans (ops_keeps _ (by decide) (by decide) (by decide) (by decide) (by decide) (by decide)),
     (h c main_arg5).trans (ops_keeps _ (by decide) (by decide) (by decide) (by decide) (by decide) (by decide)),
     (h c main_arg6).trans (ops_keeps _ (by decide) (by decide) (by decide) (by decide) (by decide) (by decide))⟩)
    (run m g)

end Cert.ReferenceIdeal.Hand

end
-- ==== Proof.Ref.Vals.lean ====
import proofs.«400307_j79207786873545_3_alg».proof.Proof.Ref.Run
import proofs.«400307_j79207786873545_3_alg».proof.Proof.Ref.Terms

noncomputable section

namespace Cert.ReferenceIdeal.Hand

open Cert.ReferenceIdeal Idealize.ShloMosaic Idealize.ShloMosaic.TcCoe Idealize.SL.Sem Idealize.ShloMosaic.StableHlo
open Cert.ReferenceIdeal.Facts₀

variable {F : FTy → Type} [FloatOps F] [Cert.ReferenceIdeal.Facts]

theorem cA1_v2 (W : Valuation τ sig (Elt F)) :
    after cA1 W (Proc.devRef .tc main_v2) = idxRow0 (W (Proc.devRef .tc main_arg1)) := by
  after_results_simp
  rfl

theorem cA1_v18 (W : Valuation τ sig (Elt F)) :
    after cA1 W (Proc.devRef .tc main_v18)
      = Host.gather gather_S100000x32_S1600000x1_S1600000x32_1_0_n_n_0_1_132 (Host.dotGeneral dot_S100000x32_S32x32_S100000x32_1_0_0_1_n_n none (W (Proc.devRef .tc main_arg0)) (W (Proc.devRef .tc main_arg3))) (wrapCol (idxRow1 (W (Proc.devRef .tc main_arg1)))) := by
  after_results_simp
  rfl

theorem cA1_v24 (W : Valuation τ sig (Elt F)) :
    after cA1 W (Proc.devRef .tc main_v24)
      = lrelu (score (Host.dotGeneral dot_S100000x32_S32x32_S100000x32_1_0_0_1_n_n none (W (Proc.devRef .tc main_arg0)) (W (Proc.devRef .tc main_arg3))) (W (Proc.devRef .tc main_arg5)) (idxRow0 (W (Proc.devRef .tc main_arg1))) (idxRow1 (W (Proc.devRef .tc main_arg1)))) := by
  after_results_simp
  rfl

theorem cA2_v46 (W : Valuation τ sig (Elt F)) :
    after cA2 W (Proc.devRef .tc main_v46) = tail (W (Proc.devRef .tc main_v24)) (W (Proc.devRef .tc main_v18)) (W (Proc.devRef .tc main_v2)) := by
  after_results_simp
  rfl

theorem cA3_v47 (W : Valuation τ sig (Elt F)) :
    after cA3 W (Proc.devRef .tc main_v47) = Host.dotGeneral dot_S100000x32_S32x32_S100000x32_1_0_0_1_n_n none (W (Proc.devRef .tc main_arg0)) (W (Proc.devRef .tc main_arg4)) := by
  after_results_simp

theorem cA3_v48 (W : Valuation τ sig (Elt F)) :
    after cA3 W (Proc.devRef .tc main_v48) = extractStridedSlice S1x1600000 ![0, 0] (W (Proc.devRef .tc main_arg2)) slices_S2x1600000_S1x1600000_0_0 := by
  after_results_simp

theorem cB1_v49 (W : Valuation τ sig (Elt F)) :
    after cB1 W (Proc.devRef .tc main_v49) = shapeCast S1600000 (W (Proc.devRef .tc main_v48)) shapeCasts_S1x1600000_S1600000 := by
  after_results_simp
  rfl

theorem cB1_v65 (W : Valuation τ sig (Elt F)) :
    after cB1 W (Proc.devRef .tc main_v65)
      = Host.gather gather_S100000x32_S1600000x1_S1600000x32_1_0_n_n_0_1_132 (W (Proc.devRef .tc main_v47)) (wrapCol (idxRow1 (W (Proc.devRef .tc main_arg2)))) := by
  after_results_simp
  rfl

theorem cB1_v71 (W : Valuation τ sig (Elt F)) :
    after cB1 W (Proc.devRef .tc main_v71)
      = lrelu (score (W (Proc.devRef .tc main_v47)) (W (Proc.devRef .tc main_arg6)) (shapeCast S1600000 (W (Proc.devRef .tc main_v48)) shapeCasts_S1x1600000_S1600000) (idxRow1 (W (Proc.devRef .tc main_arg2)))) := by
  after_results_simp
  rfl

theorem cB2_v93 (W : Valuation τ sig (Elt F)) :
    after cB2 W (Proc.devRef .tc main_v93) = tail (W (Proc.devRef .tc main_v71)) (W (Proc.devRef .tc main_v65)) (W (Proc.devRef .tc main_v49)) := by
  after_results_simp
  rfl

theorem cB3_v95 (W : Valuation τ sig (Elt F)) :
    after cB3 W (Proc.devRef .tc main_v95) = elu (addf (W (Proc.devRef .tc main_v46)) (W (Proc.devRef .tc main_v93))) := by
  after_results_simp
  rfl

theorem pre_keeps (V : Valuation τ sig (Elt F)) {r : Ref sig .tc} (hA1 : r ∉ cA1_W) (hA2 : r ∉ cA2_W) (hA3 : r ∉ cA3_W) :
    after cA3 (after cA2 (after cA1 V)) (Proc.devRef .tc r) = V (Proc.devRef .tc r) := by
  rw [cA3_keeps _ hA3, cA2_keeps _ hA2, cA1_keeps _ hA1]

theorem mid_keeps (V : Valuation τ sig (Elt F)) {r : Ref sig .tc} (hA3 : r ∉ cA3_W) (hB1 : r ∉ cB1_W) (hB2 : r ∉ cB2_W) :
    after cB2 (after cB1 (after cA3 V)) (Proc.devRef .tc r) = V (Proc.devRef .tc r) := by
  rw [cB2_keeps _ hB2, cB1_keeps _ hB1, cA3_keeps _ hA3]

theorem out_eq (W : Valuation τ sig (Elt F)) :
    after ops W (Proc.devRef .tc main_v95)
      = refOut (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) := by
  rw [ops_after, cB3_v95,

    mid_keeps _ (r := main_v46) (by decide) (by decide) (by decide), cA2_v46, cA1_v24, cA1_v18, cA1_v2,

    cB2_v93, cB1_v71, cB1_v65, cB1_v49, cA3_v47, cA3_v48,
    cA3_keeps _ (r := main_arg6) (by decide), cA3_keeps _ (r := main_arg2) (by decide),
    cA2_keeps _ (r := main_arg0) (by decide), cA2_keeps _ (r := main_arg2) (by decide), cA2_keeps _ (r := main_arg4) (by decide),
    cA2_keeps _ (r := main_arg6) (by decide),
    cA1_keeps _ (r := main_arg0) (by decide), cA1_keeps _ (r := main_arg2) (by decide), cA1_keeps _ (r := main_arg4) (by decide),
    cA1_keeps _ (r := main_arg6) (by decide)]
  rfl

theorem run_value (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v95)
          = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨(h c main_v95).trans (out_eq _),
     (h c main_arg0).trans (ops_keeps _ (by decide) (by decide) (by decide) (by decide) (by decide) (by decide)),
     (h c main_arg1).trans (ops_keeps _ (by decide) (by decide) (by decide) (by decide) (by decide) (by decide)),
     (h c main_arg2).trans (ops_keeps _ (by decide) (by decide) (by decide) (by decide) (by decide) (by decide)),
     (h c main_arg3).trans (ops_keeps _ (by decide) (by decide) (by decide) (by decide) (by decide) (by decide)),
     (h c main_arg4).trans (ops_keeps _ (by decide) (by decide) (by decide) (by decide) (by decide) (by decide)),
     (h c main_arg5).trans (ops_keeps _ (by decide) (by decide) (by decide) (by decide) (by decide) (by decide)),
     (h c main_arg6).trans (ops_keeps _ (by decide) (by decide) (by decide) (by decide) (by decide) (by decide))⟩)
    (run m ρ)

end Cert.ReferenceIdeal.Hand

end
-- ==== Proof.Bridge.Finite.lean ====
import proofs.«400307_j79207786873545_3_alg».proof.Proof.Gen.Pre_finite_inputs
import proofs.«400307_j79207786873545_3_alg».proof.Proof.Bridge.Basic
import Idealize.ShloMosaic.Lib.ReduceAll

noncomputable section

namespace Cert.Bridge

open Idealize.ShloMosaic Idealize.ShloMosaic.ValueIdx

instance subsingleton_scalarIdx : Subsingleton (Cert.Pre_finite_inputs.S_).Idx :=
  ⟨fun a b => funext fun d => d.elim0⟩

theorem ofBits_inf : Ideal.ofBits .f32 0x7F800000#32 = (⊤ : EReal) := by simp [Ideal.ofBits, Ideal.ieee]

theorem real_of_abs_lt_inf (a : EReal)
    (h : Ideal.cmp .olt (max a (-a)) (Ideal.ofBits .f32 0x7F800000#32) = 1#1) : ∃ r : ℝ, a = (r : EReal) := by
  rw [ofBits_inf] at h
  induction a using EReal.rec with
  | bot => simp [Ideal.cmp] at h
  | coe r => exact ⟨r, rfl⟩
  | top => simp [Ideal.cmp] at h

theorem allReal_of_all {S : Shape} {axes : List (Fin S.rank)} (x : FVec Ideal S .f32)
    (hb : (Cert.Pre_finite_inputs.S_).BroadcastsInDim S (![] : Fin 0 → Fin S.rank))
    (hr : S.ReducesTo axes Cert.Pre_finite_inputs.S_) (hu : 0 < (Cert.Pre_finite_inputs.S_).numel)
    (e : Host.reduce IntOp.andi
          (cmpf .olt (Host.absf x)
            (broadcastInDim S ![] hb (constant (F := Ideal) Cert.Pre_finite_inputs.S_ .f32 0x7F800000#32)))
          (constantI Cert.Pre_finite_inputs.S_ 1 1#1) hr hu ix0 = 1#1) :
    AllReal x := by
  intro i
  have hi := Host.reduce_andi_all _ _ hr hu ix0 e i
  exact real_of_abs_lt_inf (x i) hi

theorem allReal_of_pre [Cert.Pre_finite_inputs.Facts]
    (x : FVec Ideal Cert.Pre_finite_inputs.S100000x32 .f32) (i1 i2 : IVec Cert.Pre_finite_inputs.S2x1600000 32)
    (w1 w2 : FVec Ideal Cert.Pre_finite_inputs.S32x32 .f32) (a1 a2 : FVec Ideal Cert.Pre_finite_inputs.S64x1 .f32)
    (h : Cert.Pre_finite_inputs.fn (F := Ideal) x i1 i2 w1 w2 a1 a2 = fun _ => 1#1) :
    AllReal x ∧ AllReal w1 ∧ AllReal w2 ∧ AllReal a1 ∧ AllReal a2 := by
  have h0 := congrFun h ix0
  dsimp only [Cert.Pre_finite_inputs.fn, Cert.Pre_finite_inputs.fn_part1] at h0
  obtain ⟨h1234, h5⟩ := IntOp.andi_eq_one.1 h0
  obtain ⟨h123, h4⟩ := IntOp.andi_eq_one.1 h1234
  obtain ⟨h12, h3⟩ := IntOp.andi_eq_one.1 h123
  obtain ⟨h1, h2⟩ := IntOp.andi_eq_one.1 h12
  exact ⟨allReal_of_all x _ _ _ h1, allReal_of_all w1 _ _ _ h2, allReal_of_all w2 _ _ _ h3,
    allReal_of_all a1 _ _ _ h4, allReal_of_all a2 _ _ _ h5⟩

end Cert.Bridge

end
-- ==== Proof.lean ====
import proofs.«400307_j79207786873545_3_alg».proof.Defs
import proofs.«400307_j79207786873545_3_alg».proof.Proof.Gen.Kernel
import proofs.«400307_j79207786873545_3_alg».proof.Proof.Gen.KernelIdeal
import proofs.«400307_j79207786873545_3_alg».proof.Proof.Gen.ReferenceIdeal
import proofs.«400307_j79207786873545_3_alg».proof.Proof.Gen.Pre_finite_inputs
import proofs.«400307_j79207786873545_3_alg».proof.Proof.K.Run
import proofs.«400307_j79207786873545_3_alg».proof.Proof.KI.Run
import proofs.«400307_j79207786873545_3_alg».proof.Proof.KI.Vals
import proofs.«400307_j79207786873545_3_alg».proof.Proof.Ref.Vals
import proofs.«400307_j79207786873545_3_alg».proof.Proof.Bridge.Finite
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame_all (F := Bits) m ρ

theorem frame_ki : Cert.frame_KernelIdeal := fun m ρ _ => Cert.KernelIdeal.Hand.frame_all (F := Ideal) m ρ

theorem frame_ri : Cert.frame_ReferenceIdeal := fun m ρ _ => Cert.ReferenceIdeal.Hand.frame (F := Ideal) m ρ

theorem preserves : Cert.preserves_Kernel_KernelIdeal := trivial

theorem algebraic : Cert.algebraic_KernelIdeal_ReferenceIdeal := by
  intro m ρ m' ρ' hpre hagree
  refine ⟨fun c => Cert.ReferenceIdeal.Hand.refOut (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · refine (θ_run _ _ _).mono (fun r h c => ?_) (Cert.KernelIdeal.Hand.run_all (F := Ideal) m ρ)
    obtain ⟨hX, hW1, hW2, hA1, hA2⟩ := Cert.Bridge.allReal_of_pre _ _ _ _ _ _ _ (hpre c)
    exact ⟨(h c _ (Cert.KernelIdeal.Hand.mem_unscoped Cert.KernelIdeal.main_v119 (by decide))).trans (Cert.KernelIdeal.Hand.result_eq m ρ c hX hW1 hA1 hW2 hA2),
      (h c _ (Cert.KernelIdeal.Hand.mem_unscoped Cert.KernelIdeal.main_arg0 (by decide))).trans (Cert.KernelIdeal.Hand.B17_main_arg0 m ρ c),
      (h c _ (Cert.KernelIdeal.Hand.mem_unscoped Cert.KernelIdeal.main_arg1 (by decide))).trans (Cert.KernelIdeal.Hand.B17_main_arg1 m ρ c),
      (h c _ (Cert.KernelIdeal.Hand.mem_unscoped Cert.KernelIdeal.main_arg2 (by decide))).trans (Cert.KernelIdeal.Hand.B17_main_arg2 m ρ c),
      (h c _ (Cert.KernelIdeal.Hand.mem_unscoped Cert.KernelIdeal.main_arg3 (by decide))).trans (Cert.KernelIdeal.Hand.B17_main_arg3 m ρ c),
      (h c _ (Cert.KernelIdeal.Hand.mem_unscoped Cert.KernelIdeal.main_arg4 (by decide))).trans (Cert.KernelIdeal.Hand.B17_main_arg4 m ρ c),
      (h c _ (Cert.KernelIdeal.Hand.mem_unscoped Cert.KernelIdeal.main_arg5 (by decide))).trans (Cert.KernelIdeal.Hand.B17_main_arg5 m ρ c),
      (h c _ (Cert.KernelIdeal.Hand.mem_unscoped Cert.KernelIdeal.main_arg6 (by decide))).trans (Cert.KernelIdeal.Hand.B17_main_arg6 m ρ c)⟩
  · refine (θ_run _ _ _).mono (fun r h c => ?_) (Cert.ReferenceIdeal.Hand.run_value (F := Ideal) m' ρ')
    obtain ⟨hv, hrest⟩ := h c
    obtain ⟨e0, e1, e2, e3, e4, e5, e6⟩ := hagree c
    refine ⟨hv.trans ?_, hrest⟩
    rw [e0, e1, e2, e3, e4, e5, e6]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
